-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v218)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v218) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x200 : Shape := ⟨2, ![65536, 200]⟩
abbrev S65536x1024 : Shape := ⟨2, ![65536, 1024]⟩
abbrev S1024x1024 : Shape := ⟨2, ![1024, 1024]⟩
abbrev S2x524288 : Shape := ⟨2, ![2, 524288]⟩
abbrev S200x128 : Shape := ⟨2, ![200, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S65536x200 : S_.BroadcastsInDim S65536x200 (![] : Fin 0 → Fin S65536x200.rank)
  reducesTo_S65536x200_S_d0_1 : S65536x200.ReducesTo [0, 1] S_
  h_S_ : 0 < S_.numel
  bcast_S_S65536x1024 : S_.BroadcastsInDim S65536x1024 (![] : Fin 0 → Fin S65536x1024.rank)
  reducesTo_S65536x1024_S_d0_1 : S65536x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S200x128 : S_.BroadcastsInDim S200x128 (![] : Fin 0 → Fin S200x128.rank)
  reducesTo_S200x128_S_d0_1 : S200x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg15 : FVec F S16 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x16 .f32) (main_arg15 : FVec F S16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x16 .f32 := Host.absf main_arg14
  let main_cst_24 : FVec F S_ .f32 := constant S_ .f32 0x7F800000#32
  let main_v65 : FVec F S128x16 .f32 := broadcastInDim S128x16 ![] bcast_S_S128x16 main_cst_24
  let main_v66 : IVec S128x16 1 := cmpf .olt main_v64 main_v65
  let main_c_25 : IVec S_ 1 := constantI S_ 1 1#1
  let main_v67 : IVec S_ 1 := (fun x v => Host.reduce IntOp.andi x v reducesTo_S128x16_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x16 .f32) (main_arg15 : FVec F S16 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x16 .f32) (main_arg15 : FVec F S16 .f32) (main_v13 : IVec S_ 1) (main_v16 : IVec S200x128 1) : IVec S_ 1 :=
  let main_c_5 : IVec S_ 1 := constantI S_ 1 1#1
  let main_v17 : IVec S_ 1 := (fun x v => Host.reduce IntOp.andi x v reducesTo_S200x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S65536x200 .f32) (main_arg1 : FVec F S65536x1024 .f32) (main_arg2 : FVec F S1024x1024 .f32) (main_arg3 : IVec S2x524288 32) (main_arg4 : FVec F S200x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x16 .f32) (main_arg15 : FVec F S16 .f32) : IVec S_ 1 :=
  let main_v0 : FVec F S65536x200 .f32 := Host.absf main_arg0
  let main_cst : FVec F S_ .f32 := constant S_ .f32 0x7F800000#32
  let main_v1 : FVec F S65536x200 .f32 := broadcastInDim S65536x200 ![] bcast_S_S65536x200 main_cst
  let main_v2 : IVec S65536x200 1 := cmpf .olt main_v0 main_v1
  let main_c : IVec S_ 1 := constantI S_ 1 1#1
  let main_v3 : IVec S_ 1 := (fun x v => Host.reduce IntOp.andi x v reducesTo_S65536x200_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S200x128 .f32 := Host.absf main_arg4
  let main_cst_4 : FVec F S_ .f32 := constant S_ .f32 0x7F800000#32
  let main_v15 : FVec F S200x128 .f32 := broadcastInDim S200x128 ![] bcast_S_S200x128 main_cst_4
  let main_v16 : IVec S200x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S65536x200 : Shape := ⟨2, ![65536, 200]⟩
abbrev S65536x1024 : Shape := ⟨2, ![65536, 1024]⟩
abbrev S1024x1024 : Shape := ⟨2, ![1024, 1024]⟩
abbrev S2x524288 : Shape := ⟨2, ![2, 524288]⟩
abbrev S200x128 : Shape := ⟨2, ![200, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x128 : Shape := ⟨2, ![1, 128]⟩
abbrev S65536x128 : Shape := ⟨2, ![65536, 128]⟩
abbrev S2048x200 : Shape := ⟨2, ![2048, 200]⟩
abbrev S2048x128 : Shape := ⟨2, ![2048, 128]⟩
abbrev S_ : Shape := ⟨0, ![]⟩
abbrev S1024x128 : Shape := ⟨2, ![1024, 128]⟩
abbrev S1x1024 : Shape := ⟨2, ![1, 1024]⟩
abbrev S1024 : Shape := ⟨1, ![1024]⟩
abbrev S1024x1 : Shape := ⟨2, ![1024, 1]⟩
abbrev S1x524288 : Shape := ⟨2, ![1, 524288]⟩
abbrev S524288 : Shape := ⟨1, ![524288]⟩
abbrev S65536 : Shape := ⟨1, ![65536]⟩
abbrev S65536x1 : Shape := ⟨2, ![65536, 1]⟩
abbrev S524288x1 : Shape := ⟨2, ![524288, 1]⟩
abbrev S524288x128 : Shape := ⟨2, ![524288, 128]⟩
abbrev S1x16 : Shape := ⟨2, ![1, 16]⟩
abbrev S65536x16 : Shape := ⟨2, ![65536, 16]⟩
abbrev S1024x16 : Shape := ⟨2, ![1024, 16]⟩

abbrev nBuf : Space → Nat
  | .hbm => 394
  | .vmem => 27
  | .smem => 0
  | _ => 0

abbrev hbmTy0_0 (i : Nat) : BufTy := match i % 128 with
  | 0 => ⟨S65536x200, .f32⟩
  | 1 => ⟨S65536x1024, .f32⟩
  | 2 => ⟨S1024x1024, .f32⟩
  | 3 => ⟨S2x524288, .i32⟩
  | 4 => ⟨S200x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x16, .f32⟩
  | 15 => ⟨S16, .f32⟩
  | 16 => ⟨S1x128, .f32⟩
  | 17 => ⟨S65536x128, .f32⟩
  | 18 => ⟨S1x128, .f32⟩
  | 19 => ⟨S1x128, .f32⟩
  | 20 => ⟨S_, .f32⟩
  | 21 => ⟨S1x128, .f32⟩
  | 22 => ⟨S1x128, .f32⟩
  | 23 => ⟨S_, .f32⟩
  | 24 => ⟨S1x128, .f32⟩
  | 25 => ⟨S1x128, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S65536x128, .f32⟩
  | 33 => ⟨S1024x128, .f32⟩
  | 34 => ⟨S1x1024, .f32⟩
  | 35 => ⟨S1024x1, .f32⟩
  | 36 => ⟨S1024x128, .f32⟩
  | 37 => ⟨S1024x128, .f32⟩
  | 38 => ⟨S1024x128, .f32⟩
  | 39 => ⟨S_, .f32⟩
  | 40 => ⟨S1024, .f32⟩
  | 41 => ⟨S1024x1, .f32⟩
  | 42 => ⟨S1024x1, .f32⟩
  | 43 => ⟨S_, .f32⟩
  | 44 => ⟨S1024x1, .f32⟩
  | 45 => ⟨S1024x1, .f32⟩
  | 46 => ⟨S1024x128, .f32⟩
  | 47 => ⟨S1024x128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S1024x128, .f32⟩
  | 61 => ⟨S1024x128, .f32⟩
  | 62 => ⟨S1024x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S1024x128, .f32⟩
  | 78 => ⟨S1024x128, .f32⟩
  | 79 => ⟨S_, .f32⟩
  | 80 => ⟨S128, .f32⟩
  | 81 => ⟨S128, .f32⟩
  | 82 => ⟨S128, .f32⟩
  | 83 => ⟨S1x128, .f32⟩
  | 84 => ⟨S1024x128, .f32⟩
  | 85 => ⟨S1024x128, .f32⟩
  | 86 => ⟨S1024x128, .f32⟩
  | 87 => ⟨S1x128, .f32⟩
  | 88 => ⟨S1024x128, .f32⟩
  | 89 => ⟨S1024x128, .f32⟩
  | 90 => ⟨S1024x128, .f32⟩
  | 91 => ⟨S_, .f32⟩
  | 92 => ⟨S1024x128, .f32⟩
  | 93 => ⟨S1024x128, .i1⟩
  | 94 => ⟨S_, .f32⟩
  | 95 => ⟨S1024x128, .f32⟩
  | 96 => ⟨S1024x128, .f32⟩
  | 97 => ⟨S1024x128, .f32⟩
  | 98 => ⟨S1024x128, .f32⟩
  | 99 => ⟨S_, .f32⟩
  | 100 => ⟨S1024, .f32⟩
  | 101 => ⟨S1024x1, .f32⟩
  | 102 => ⟨S1024x1, .f32⟩
  | 103 => ⟨S_, .f32⟩
  | 104 => ⟨S1024x1, .f32⟩
  | 105 => ⟨S1024x1, .f32⟩
  | 106 => ⟨S1024x128, .f32⟩
  | 107 => ⟨S1024x128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S1024x128, .f32⟩
  | 121 => ⟨S1024x128, .f32⟩
  | 122 => ⟨S1024x128, .f32⟩
  | 123 => ⟨S_, .f32⟩
  | 124 => ⟨S_, .f32⟩
  | 125 => ⟨S_, .f32⟩
  | 126 => ⟨S_, .f32⟩
  | 127 => ⟨S128, .f32⟩
  | _ => ⟨S65536x200, .f32⟩

abbrev hbmTy0_1 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S1024x128, .f32⟩
  | 10 => ⟨S1024x128, .f32⟩
  | 11 => ⟨S_, .f32⟩
  | 12 => ⟨S128, .f32⟩
  | 13 => ⟨S128, .f32⟩
  | 14 => ⟨S128, .f32⟩
  | 15 => ⟨S1x128, .f32⟩
  | 16 => ⟨S1024x128, .f32⟩
  | 17 => ⟨S1024x128, .f32⟩
  | 18 => ⟨S1024x128, .f32⟩
  | 19 => ⟨S1x128, .f32⟩
  | 20 => ⟨S1024x128, .f32⟩
  | 21 => ⟨S1024x128, .f32⟩
  | 22 => ⟨S1024x128, .f32⟩
  | 23 => ⟨S_, .f32⟩
  | 24 => ⟨S1024x128, .f32⟩
  | 25 => ⟨S1024x128, .i1⟩
  | 26 => ⟨S_, .f32⟩
  | 27 => ⟨S1024x128, .f32⟩
  | 28 => ⟨S1024x128, .f32⟩
  | 29 => ⟨S1024x128, .f32⟩
  | 30 => ⟨S1x524288, .i32⟩
  | 31 => ⟨S524288, .i32⟩
  | 32 => ⟨S1x524288, .i32⟩
  | 33 => ⟨S524288, .i32⟩
  | 34 => ⟨S65536x128, .f32⟩
  | 35 => ⟨S_, .f32⟩
  | 36 => ⟨S65536, .f32⟩
  | 37 => ⟨S65536x1, .f32⟩
  | 38 => ⟨S65536x1, .f32⟩
  | 39 => ⟨S_, .f32⟩
  | 40 => ⟨S65536x1, .f32⟩
  | 41 => ⟨S65536x1, .f32⟩
  | 42 => ⟨S65536x128, .f32⟩
  | 43 => ⟨S65536x128, .f32⟩
  | 44 => ⟨S_, .f32⟩
  | 45 => ⟨S128, .f32⟩
  | 46 => ⟨S_, .f32⟩
  | 47 => ⟨S128, .f32⟩
  | 48 => ⟨S128, .f32⟩
  | 49 => ⟨S_, .i32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S65536x128, .f32⟩
  | 57 => ⟨S65536x128, .f32⟩
  | 58 => ⟨S65536x128, .f32⟩
  | 59 => ⟨S_, .f32⟩
  | 60 => ⟨S_, .f32⟩
  | 61 => ⟨S_, .f32⟩
  | 62 => ⟨S_, .f32⟩
  | 63 => ⟨S128, .f32⟩
  | 64 => ⟨S128, .f32⟩
  | 65 => ⟨S128, .f32⟩
  | 66 => ⟨S_, .f32⟩
  | 67 => ⟨S_, .i1⟩
  | 68 => ⟨S_, .f32⟩
  | 69 => ⟨S_, .f32⟩
  | 70 => ⟨S128, .f32⟩
  | 71 => ⟨S128, .f32⟩
  | 72 => ⟨S1x128, .f32⟩
  | 73 => ⟨S65536x128, .f32⟩
  | 74 => ⟨S65536x128, .f32⟩
  | 75 => ⟨S_, .f32⟩
  | 76 => ⟨S128, .f32⟩
  | 77 => ⟨S128, .f32⟩
  | 78 => ⟨S128, .f32⟩
  | 79 => ⟨S1x128, .f32⟩
  | 80 => ⟨S65536x128, .f32⟩
  | 81 => ⟨S65536x128, .f32⟩
  | 82 => ⟨S65536x128, .f32⟩
  | 83 => ⟨S_, .f32⟩
  | 84 => ⟨S65536, .f32⟩
  | 85 => ⟨S_, .i32⟩
  | 86 => ⟨S524288, .i32⟩
  | 87 => ⟨S524288, .i1⟩
  | 88 => ⟨S_, .i32⟩
  | 89 => ⟨S524288, .i32⟩
  | 90 => ⟨S524288, .i32⟩
  | 91 => ⟨S524288, .i32⟩
  | 92 => ⟨S524288x1, .i32⟩
  | 93 => ⟨S_, .f32⟩
  | 94 => ⟨S524288, .f32⟩
  | 95 => ⟨S65536, .f32⟩
  | 96 => ⟨S_, .f32⟩
  | 97 => ⟨S65536, .f32⟩
  | 98 => ⟨S65536, .f32⟩
  | 99 => ⟨S65536, .f32⟩
  | 100 => ⟨S_, .i32⟩
  | 101 => ⟨S524288, .i32⟩
  | 102 => ⟨S524288, .i1⟩
  | 103 => ⟨S_, .i32⟩
  | 104 => ⟨S524288, .i32⟩
  | 105 => ⟨S524288, .i32⟩
  | 106 => ⟨S524288, .i32⟩
  | 107 => ⟨S524288x1, .i32⟩
  | 108 => ⟨S524288, .f32⟩
  | 109 => ⟨S_, .i32⟩
  | 110 => ⟨S524288, .i32⟩
  | 111 => ⟨S524288, .i1⟩
  | 112 => ⟨S_, .i32⟩
  | 113 => ⟨S524288, .i32⟩
  | 114 => ⟨S524288, .i32⟩
  | 115 => ⟨S524288, .i32⟩
  | 116 => ⟨S524288x1, .i32⟩
  | 117 => ⟨S524288, .f32⟩
  | 118 => ⟨S524288, .f32⟩
  | 119 => ⟨S_, .i32⟩
  | 120 => ⟨S524288, .i32⟩
  | 121 => ⟨S524288, .i1⟩
  | 122 => ⟨S_, .i32⟩
  | 123 => ⟨S524288, .i32⟩
  | 124 => ⟨S524288, .i32⟩
  | 125 => ⟨S524288, .i32⟩
  | 126 => ⟨S524288x1, .i32⟩
  | 127 => ⟨S524288x128, .f32⟩
  | _ => ⟨S65536x200, .f32⟩

abbrev hbmTy0_2 (i : Nat) : BufTy := match i % 128 with
  | 0 => ⟨S524288x1, .f32⟩
  | 1 => ⟨S524288x128, .f32⟩
  | 2 => ⟨S524288x128, .f32⟩
  | 3 => ⟨S_, .f32⟩
  | 4 => ⟨S65536x128, .f32⟩
  | 5 => ⟨S524288x1, .i32⟩
  | 6 => ⟨S65536x128, .f32⟩
  | 7 => ⟨S65536x1, .f32⟩
  | 8 => ⟨S65536x128, .f32⟩
  | 9 => ⟨S65536x128, .f32⟩
  | 10 => ⟨S65536x128, .f32⟩
  | 11 => ⟨S1x128, .f32⟩
  | 12 => ⟨S65536x128, .f32⟩
  | 13 => ⟨S65536x128, .f32⟩
  | 14 => ⟨S_, .f32⟩
  | 15 => ⟨S65536x128, .f32⟩
  | 16 => ⟨S65536x128, .i1⟩
  | 17 => ⟨S_, .f32⟩
  | 18 => ⟨S65536x128, .f32⟩
  | 19 => ⟨S65536x128, .f32⟩
  | 20 => ⟨S65536x128, .f32⟩
  | 21 => ⟨S65536x128, .f32⟩
  | 22 => ⟨S_, .f32⟩
  | 23 => ⟨S65536, .f32⟩
  | 24 => ⟨S65536x1, .f32⟩
  | 25 => ⟨S65536x1, .f32⟩
  | 26 => ⟨S_, .f32⟩
  | 27 => ⟨S65536x1, .f32⟩
  | 28 => ⟨S65536x1, .f32⟩
  | 29 => ⟨S65536x128, .f32⟩
  | 30 => ⟨S65536x128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S65536x128, .f32⟩
  | 44 => ⟨S65536x128, .f32⟩
  | 45 => ⟨S65536x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S65536x128, .f32⟩
  | 61 => ⟨S65536x128, .f32⟩
  | 62 => ⟨S_, .f32⟩
  | 63 => ⟨S128, .f32⟩
  | 64 => ⟨S128, .f32⟩
  | 65 => ⟨S128, .f32⟩
  | 66 => ⟨S1x128, .f32⟩
  | 67 => ⟨S65536x128, .f32⟩
  | 68 => ⟨S65536x128, .f32⟩
  | 69 => ⟨S65536x128, .f32⟩
  | 70 => ⟨S_, .f32⟩
  | 71 => ⟨S65536, .f32⟩
  | 72 => ⟨S_, .i32⟩
  | 73 => ⟨S524288, .i32⟩
  | 74 => ⟨S524288, .i1⟩
  | 75 => ⟨S_, .i32⟩
  | 76 => ⟨S524288, .i32⟩
  | 77 => ⟨S524288, .i32⟩
  | 78 => ⟨S524288, .i32⟩
  | 79 => ⟨S524288x1, .i32⟩
  | 80 => ⟨S_, .f32⟩
  | 81 => ⟨S524288, .f32⟩
  | 82 => ⟨S65536, .f32⟩
  | 83 => ⟨S_, .f32⟩
  | 84 => ⟨S65536, .f32⟩
  | 85 => ⟨S65536, .f32⟩
  | 86 => ⟨S65536, .f32⟩
  | 87 => ⟨S_, .i32⟩
  | 88 => ⟨S524288, .i32⟩
  | 89 => ⟨S524288, .i1⟩
  | 90 => ⟨S_, .i32⟩
  | 91 => ⟨S524288, .i32⟩
  | 92 => ⟨S524288, .i32⟩
  | 93 => ⟨S524288, .i32⟩
  | 94 => ⟨S524288x1, .i32⟩
  | 95 => ⟨S524288, .f32⟩
  | 96 => ⟨S_, .i32⟩
  | 97 => ⟨S524288, .i32⟩
  | 98 => ⟨S524288, .i1⟩
  | 99 => ⟨S_, .i32⟩
  | 100 => ⟨S524288, .i32⟩
  | 101 => ⟨S524288, .i32⟩
  | 102 => ⟨S524288, .i32⟩
  | 103 => ⟨S524288x1, .i32⟩
  | 104 => ⟨S524288, .f32⟩
  | 105 => ⟨S524288, .f32⟩
  | 106 => ⟨S_, .i32⟩
  | 107 => ⟨S524288, .i32⟩
  | 108 => ⟨S524288, .i1⟩
  | 109 => ⟨S_, .i32⟩
  | 110 => ⟨S524288, .i32⟩
  | 111 => ⟨S524288, .i32⟩
  | 112 => ⟨S524288, .i32⟩
  | 113 => ⟨S524288x1, .i32⟩
  | 114 => ⟨S524288x128, .f32⟩
  | 115 => ⟨S524288x1, .f32⟩
  | 116 => ⟨S524288x128, .f32⟩
  | 117 => ⟨S524288x128, .f32⟩
  | 118 => ⟨S_, .f32⟩
  | 119 => ⟨S65536x128, .f32⟩
  | 120 => ⟨S524288x1, .i32⟩
  | 121 => ⟨S65536x128, .f32⟩
  | 122 => ⟨S65536x1, .f32⟩
  | 123 => ⟨S65536x128, .f32⟩
  | 124 => ⟨S65536x128, .f32⟩
  | 125 => ⟨S65536x128, .f32⟩
  | 126 => ⟨S1x128, .f32⟩
  | 127 => ⟨S65536x128, .f32⟩
  | _ => ⟨S65536x200, .f32⟩

abbrev hbmTy0_3 (i : Nat) : BufTy := match i % 128 with
  | 0 => ⟨S65536x128, .f32⟩
  | 1 => ⟨S_, .f32⟩
  | 2 => ⟨S65536x128, .f32⟩
  | 3 => ⟨S65536x128, .i1⟩
  | 4 => ⟨S_, .f32⟩
  | 5 => ⟨S65536x128, .f32⟩
  | 6 => ⟨S65536x128, .f32⟩
  | 7 => ⟨S65536x128, .f32⟩
  | 8 => ⟨S1x16, .f32⟩
  | 9 => ⟨S65536x16, .f32⟩
  | _ => ⟨S65536x200, .f32⟩

abbrev hbmTy (i : Nat) : BufTy := match i / 128 with
  | 0 => hbmTy0_0 i
  | 1 => hbmTy0_1 i
  | 2 => hbmTy0_2 i
  | 3 => hbmTy0_3 i
  | _ => ⟨S65536x200, .f32⟩

abbrev bufTy : (tb : Table) → Fin (tcTables nBuf tb) → BufTy
  | .hbm, ⟨i, _⟩ => hbmTy i
  | .local _ .vmem, ⟨0, _⟩ => ⟨S2048x200, .f32⟩
  | .local _ .vmem, ⟨1, _⟩ => ⟨S2048x200, .f32⟩
  | .local _ .vmem, ⟨2, _⟩ => ⟨S200x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S1x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S1024x1024, .f32⟩
  | .local _ .vmem, ⟨13, _⟩ => ⟨S1024x1024, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S128x16, .f32⟩
  | .local _ .vmem, ⟨24, _⟩ => ⟨S1x16, .f32⟩
  | .local _ .vmem, ⟨25, _⟩ => ⟨S1024x16, .f32⟩
  | .local _ .vmem, ⟨26, _⟩ => ⟨S1024x16, .f32⟩
  | _, _ => ⟨S65536x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v1_2 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_v20 : Ref sig .tc := ⟨.hbm, 49, rfl⟩
abbrev main_cst_4 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_call1_cst : Ref sig .tc := ⟨.hbm, 54, rfl⟩
abbrev main_call1_v0 : Ref sig .tc := ⟨.hbm, 55, rfl⟩
abbrev main_call1_v1 : Ref sig .tc := ⟨.hbm, 56, rfl⟩
abbrev main_call1_cst_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_cst_1 : Ref sig .tc := ⟨.hbm, 64, rfl⟩
abbrev main_call1_v8 : Ref sig .tc := ⟨.hbm, 65, rfl⟩
abbrev main_call1_cst_2 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_cst_3 : Ref sig .tc := ⟨.hbm, 70, rfl⟩
abbrev main_call1_v12 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_5 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_6 : Ref sig .tc := ⟨.hbm, 91, rfl⟩
abbrev main_v38 : Ref sig .tc := ⟨.hbm, 92, rfl⟩
abbrev main_v39 : Ref sig .tc := ⟨.hbm, 93, rfl⟩
abbrev main_cst_7 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_call3_v0 : Ref sig .tc := ⟨.hbm, 98, rfl⟩
abbrev main_call3_cst : Ref sig .tc := ⟨.hbm, 99, rfl⟩
abbrev main_call3_v1 : Ref sig .tc := ⟨.hbm, 100, rfl⟩
abbrev main_call3_v2 : Ref sig .tc := ⟨.hbm, 101, rfl⟩
abbrev main_v43 : Ref sig .tc := ⟨.hbm, 102, rfl⟩
abbrev main_cst_8 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_cst_9 : Ref sig .tc := ⟨.hbm, 108, rfl⟩
abbrev main_v48 : Ref sig .tc := ⟨.hbm, 109, rfl⟩
abbrev main_cst_10 : Ref sig .tc := ⟨.hbm, 110, rfl⟩
abbrev main_v49 : Ref sig .tc := ⟨.hbm, 111, rfl⟩
abbrev main_v50 : Ref sig .tc := ⟨.hbm, 112, rfl⟩
abbrev main_c_11 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_cst_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_v6 : Ref sig .tc := ⟨.hbm, 122, rfl⟩
abbrev main_call4_v7 : Ref sig .tc := ⟨.hbm, 123, rfl⟩
abbrev main_call4_cst_1 : Ref sig .tc := ⟨.hbm, 124, rfl⟩
abbrev main_call4_v8 : Ref sig .tc := ⟨.hbm, 125, rfl⟩
abbrev main_call4_cst_2 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_cst_3 : Ref sig .tc := ⟨.hbm, 130, rfl⟩
abbrev main_call4_v12 : Ref sig .tc := ⟨.hbm, 131, rfl⟩
abbrev main_call4_cst_4 : Ref sig .tc := ⟨.hbm, 132, rfl⟩
abbrev main_call4_call0_v0 : Ref sig .tc := ⟨.hbm, 133, rfl⟩
abbrev main_call4_call0_v1 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_cst_12 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_cst_13 : Ref sig .tc := ⟨.hbm, 151, rfl⟩
abbrev main_v66 : Ref sig .tc := ⟨.hbm, 152, rfl⟩
abbrev main_v67 : Ref sig .tc := ⟨.hbm, 153, rfl⟩
abbrev main_cst_14 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_call6_v0 : Ref sig .tc := ⟨.hbm, 162, rfl⟩
abbrev main_call6_cst : Ref sig .tc := ⟨.hbm, 163, rfl⟩
abbrev main_call6_v1 : Ref sig .tc := ⟨.hbm, 164, rfl⟩
abbrev main_call6_v2 : Ref sig .tc := ⟨.hbm, 165, rfl⟩
abbrev main_v75 : Ref sig .tc := ⟨.hbm, 166, rfl⟩
abbrev main_cst_15 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_cst_16 : Ref sig .tc := ⟨.hbm, 172, rfl⟩
abbrev main_v80 : Ref sig .tc := ⟨.hbm, 173, rfl⟩
abbrev main_cst_17 : Ref sig .tc := ⟨.hbm, 174, rfl⟩
abbrev main_v81 : Ref sig .tc := ⟨.hbm, 175, rfl⟩
abbrev main_v82 : Ref sig .tc := ⟨.hbm, 176, rfl⟩
abbrev main_c_18 : Ref sig .tc := ⟨.hbm, 177, rfl⟩
abbrev main_call7_cst : Ref sig .tc := ⟨.hbm, 178, rfl⟩
abbrev main_call7_v0 : Ref sig .tc := ⟨.hbm, 179, rfl⟩
abbrev main_call7_v1 : Ref sig .tc := ⟨.hbm, 180, rfl⟩
abbrev main_call7_cst_0 : Ref sig .tc := ⟨.hbm, 181, rfl⟩
abbrev main_call7_v2 : Ref sig .tc := ⟨.hbm, 182, rfl⟩
abbrev main_call7_v3 : Ref sig .tc := ⟨.hbm, 183, rfl⟩
abbrev main_call7_v4 : Ref sig .tc := ⟨.hbm, 184, rfl⟩
abbrev main_call7_v5 : Ref sig .tc := ⟨.hbm, 185, rfl⟩
abbrev main_call7_v6 : Ref sig .tc := ⟨.hbm, 186, rfl⟩
abbrev main_call7_v7 : Ref sig .tc := ⟨.hbm, 187, rfl⟩
abbrev main_call7_cst_1 : Ref sig .tc := ⟨.hbm, 188, rfl⟩
abbrev main_call7_v8 : Ref sig .tc := ⟨.hbm, 189, rfl⟩
abbrev main_call7_cst_2 : Ref sig .tc := ⟨.hbm, 190, rfl⟩
abbrev main_call7_v9 : Ref sig .tc := ⟨.hbm, 191, rfl⟩
abbrev main_call7_v10 : Ref sig .tc := ⟨.hbm, 192, rfl⟩
abbrev main_call7_v11 : Ref sig .tc := ⟨.hbm, 193, rfl⟩
abbrev main_call7_cst_3 : Ref sig .tc := ⟨.hbm, 194, rfl⟩
abbrev main_call7_v12 : Ref sig .tc := ⟨.hbm, 195, rfl⟩
abbrev main_call7_cst_4 : Ref sig .tc := ⟨.hbm, 196, rfl⟩
abbrev main_call7_call0_v0 : Ref sig .tc := ⟨.hbm, 197, rfl⟩
abbrev main_call7_call0_v1 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_cst_19 : Ref sig .tc := ⟨.hbm, 203, rfl⟩
abbrev main_v87 : Ref sig .tc := ⟨.hbm, 204, rfl⟩
abbrev main_v88 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_cst_20 : Ref sig .tc := ⟨.hbm, 211, rfl⟩
abbrev main_v94 : Ref sig .tc := ⟨.hbm, 212, rfl⟩
abbrev main_c_21 : Ref sig .tc := ⟨.hbm, 213, rfl⟩
abbrev main_v95 : Ref sig .tc := ⟨.hbm, 214, rfl⟩
abbrev main_v96 : Ref sig .tc := ⟨.hbm, 215, rfl⟩
abbrev main_c_22 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_cst_23 : Ref sig .tc := ⟨.hbm, 221, rfl⟩
abbrev main_v101 : Ref sig .tc := ⟨.hbm, 222, rfl⟩
abbrev main_v102 : Ref sig .tc := ⟨.hbm, 223, rfl⟩
abbrev main_cst_24 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_c_25 : Ref sig .tc := ⟨.hbm, 228, rfl⟩
abbrev main_v106 : Ref sig .tc := ⟨.hbm, 229, rfl⟩
abbrev main_v107 : Ref sig .tc := ⟨.hbm, 230, rfl⟩
abbrev main_c_26 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_c_27 : Ref sig .tc := ⟨.hbm, 237, rfl⟩
abbrev main_v113 : Ref sig .tc := ⟨.hbm, 238, rfl⟩
abbrev main_v114 : Ref sig .tc := ⟨.hbm, 239, rfl⟩
abbrev main_c_28 : Ref sig .tc := ⟨.hbm, 240, rfl⟩
abbrev main_v115 : Ref sig .tc := ⟨.hbm, 241, rfl⟩
abbrev main_v116 : Ref sig .tc := ⟨.hbm, 242, rfl⟩
abbrev main_v117 : Ref sig .tc := ⟨.hbm, 243, rfl⟩
abbrev main_v118 : Ref sig .tc := ⟨.hbm, 244, rfl⟩
abbrev main_v119 : Ref sig .tc := ⟨.hbm, 245, rfl⟩
abbrev main_v120 : Ref sig .tc := ⟨.hbm, 246, rfl⟩
abbrev main_c_29 : Ref sig .tc := ⟨.hbm, 247, rfl⟩
abbrev main_v121 : Ref sig .tc := ⟨.hbm, 248, rfl⟩
abbrev main_v122 : Ref sig .tc := ⟨.hbm, 249, rfl⟩
abbrev main_c_30 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_cst_31 : Ref sig .tc := ⟨.hbm, 259, rfl⟩
abbrev main_v131 : Ref sig .tc := ⟨.hbm, 260, rfl⟩
abbrev main_v132 : Ref sig .tc := ⟨.hbm, 261, rfl⟩
abbrev main_v133 : Ref sig .tc := ⟨.hbm, 262, rfl⟩
abbrev main_v134 : Ref sig .tc := ⟨.hbm, 263, rfl⟩
abbrev main_v135 : Ref sig .tc := ⟨.hbm, 264, rfl⟩
abbrev main_v136 : Ref sig .tc := ⟨.hbm, 265, rfl⟩
abbrev main_v137 : Ref sig .tc := ⟨.hbm, 266, rfl⟩
abbrev main_v138 : Ref sig .tc := ⟨.hbm, 267, rfl⟩
abbrev main_v139 : Ref sig .tc := ⟨.hbm, 268, rfl⟩
abbrev main_v140 : Ref sig .tc := ⟨.hbm, 269, rfl⟩
abbrev main_cst_32 : Ref sig .tc := ⟨.hbm, 270, rfl⟩
abbrev main_v141 : Ref sig .tc := ⟨.hbm, 271, rfl⟩
abbrev main_v142 : Ref sig .tc := ⟨.hbm, 272, rfl⟩
abbrev main_cst_33 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_call9_v0 : Ref sig .tc := ⟨.hbm, 277, rfl⟩
abbrev main_call9_cst : Ref sig .tc := ⟨.hbm, 278, rfl⟩
abbrev main_call9_v1 : Ref sig .tc := ⟨.hbm, 279, rfl⟩
abbrev main_call9_v2 : Ref sig .tc := ⟨.hbm, 280, rfl⟩
abbrev main_v146 : Ref sig .tc := ⟨.hbm, 281, rfl⟩
abbrev main_cst_34 : Ref sig .tc := ⟨.hbm, 282, rfl⟩
abbrev main_v147 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_cst_35 : Ref sig .tc := ⟨.hbm, 287, rfl⟩
abbrev main_v151 : Ref sig .tc := ⟨.hbm, 288, rfl⟩
abbrev main_cst_36 : Ref sig .tc := ⟨.hbm, 289, rfl⟩
abbrev main_v152 : Ref sig .tc := ⟨.hbm, 290, rfl⟩
abbrev main_v153 : Ref sig .tc := ⟨.hbm, 291, rfl⟩
abbrev main_c_37 : Ref sig .tc := ⟨.hbm, 292, rfl⟩
abbrev main_call10_cst : Ref sig .tc := ⟨.hbm, 293, rfl⟩
abbrev main_call10_v0 : Ref sig .tc := ⟨.hbm, 294, rfl⟩
abbrev main_call10_v1 : Ref sig .tc := ⟨.hbm, 295, rfl⟩
abbrev main_call10_cst_0 : Ref sig .tc := ⟨.hbm, 296, rfl⟩
abbrev main_call10_v2 : Ref sig .tc := ⟨.hbm, 297, rfl⟩
abbrev main_call10_v3 : Ref sig .tc := ⟨.hbm, 298, rfl⟩
abbrev main_call10_v4 : Ref sig .tc := ⟨.hbm, 299, rfl⟩
abbrev main_call10_v5 : Ref sig .tc := ⟨.hbm, 300, rfl⟩
abbrev main_call10_v6 : Ref sig .tc := ⟨.hbm, 301, rfl⟩
abbrev main_call10_v7 : Ref sig .tc := ⟨.hbm, 302, rfl⟩
abbrev main_call10_cst_1 : Ref sig .tc := ⟨.hbm, 303, rfl⟩
abbrev main_call10_v8 : Ref sig .tc := ⟨.hbm, 304, rfl⟩
abbrev main_call10_cst_2 : Ref sig .tc := ⟨.hbm, 305, rfl⟩
abbrev main_call10_v9 : Ref sig .tc := ⟨.hbm, 306, rfl⟩
abbrev main_call10_v10 : Ref sig .tc := ⟨.hbm, 307, rfl⟩
abbrev main_call10_v11 : Ref sig .tc := ⟨.hbm, 308, rfl⟩
abbrev main_call10_cst_3 : Ref sig .tc := ⟨.hbm, 309, rfl⟩
abbrev main_call10_v12 : Ref sig .tc := ⟨.hbm, 310, rfl⟩
abbrev main_call10_cst_4 : Ref sig .tc := ⟨.hbm, 311, rfl⟩
abbrev main_call10_call0_v0 : Ref sig .tc := ⟨.hbm, 312, rfl⟩
abbrev main_call10_call0_v1 : Ref sig .tc := ⟨.hbm, 313, rfl⟩
abbrev main_v154 : Ref sig .tc := ⟨.hbm, 314, rfl⟩
abbrev main_v155 : Ref sig .tc := ⟨.hbm, 315, rfl⟩
abbrev main_v156 : Ref sig .tc := ⟨.hbm, 316, rfl⟩
abbrev main_v157 : Ref sig .tc := ⟨.hbm, 317, rfl⟩
abbrev main_cst_38 : Ref sig .tc := ⟨.hbm, 318, rfl⟩
abbrev main_v158 : Ref sig .tc := ⟨.hbm, 319, rfl⟩
abbrev main_v159 : Ref sig .tc := ⟨.hbm, 320, rfl⟩
abbrev main_v160 : Ref sig .tc := ⟨.hbm, 321, rfl⟩
abbrev main_v161 : Ref sig .tc := ⟨.hbm, 322, rfl⟩
abbrev main_v162 : Ref sig .tc := ⟨.hbm, 323, rfl⟩
abbrev main_v163 : Ref sig .tc := ⟨.hbm, 324, rfl⟩
abbrev main_v164 : Ref sig .tc := ⟨.hbm, 325, rfl⟩
abbrev main_cst_39 : Ref sig .tc := ⟨.hbm, 326, rfl⟩
abbrev main_v165 : Ref sig .tc := ⟨.hbm, 327, rfl⟩
abbrev main_c_40 : Ref sig .tc := ⟨.hbm, 328, rfl⟩
abbrev main_v166 : Ref sig .tc := ⟨.hbm, 329, rfl⟩
abbrev main_v167 : Ref sig .tc := ⟨.hbm, 330, rfl⟩
abbrev main_c_41 : Ref sig .tc := ⟨.hbm, 331, rfl⟩
abbrev main_v168 : Ref sig .tc := ⟨.hbm, 332, rfl⟩
abbrev main_v169 : Ref sig .tc := ⟨.hbm, 333, rfl⟩
abbrev main_v170 : Ref sig .tc := ⟨.hbm, 334, rfl⟩
abbrev main_v171 : Ref sig .tc := ⟨.hbm, 335, rfl⟩
abbrev main_cst_42 : Ref sig .tc := ⟨.hbm, 336, rfl⟩
abbrev main_v172 : Ref sig .tc := ⟨.hbm, 337, rfl⟩
abbrev main_v173 : Ref sig .tc := ⟨.hbm, 338, rfl⟩
abbrev main_cst_43 : Ref sig .tc := ⟨.hbm, 339, rfl⟩
abbrev main_v174 : Ref sig .tc := ⟨.hbm, 340, rfl⟩
abbrev main_v175 : Ref sig .tc := ⟨.hbm, 341, rfl⟩
abbrev main_v176 : Ref sig .tc := ⟨.hbm, 342, rfl⟩
abbrev main_c_44 : Ref sig .tc := ⟨.hbm, 343, rfl⟩
abbrev main_v177 : Ref sig .tc := ⟨.hbm, 344, rfl⟩
abbrev main_v178 : Ref sig .tc := ⟨.hbm, 345, rfl⟩
abbrev main_c_45 : Ref sig .tc := ⟨.hbm, 346, rfl⟩
abbrev main_v179 : Ref sig .tc := ⟨.hbm, 347, rfl⟩
abbrev main_v180 : Ref sig .tc := ⟨.hbm, 348, rfl⟩
abbrev main_v181 : Ref sig .tc := ⟨.hbm, 349, rfl⟩
abbrev main_v182 : Ref sig .tc := ⟨.hbm, 350, rfl⟩
abbrev main_v183 : Ref sig .tc := ⟨.hbm, 351, rfl⟩
abbrev main_c_46 : Ref sig .tc := ⟨.hbm, 352, rfl⟩
abbrev main_v184 : Ref sig .tc := ⟨.hbm, 353, rfl⟩
abbrev main_v185 : Ref sig .tc := ⟨.hbm, 354, rfl⟩
abbrev main_c_47 : Ref sig .tc := ⟨.hbm, 355, rfl⟩
abbrev main_v186 : Ref sig .tc := ⟨.hbm, 356, rfl⟩
abbrev main_v187 : Ref sig .tc := ⟨.hbm, 357, rfl⟩
abbrev main_v188 : Ref sig .tc := ⟨.hbm, 358, rfl⟩
abbrev main_v189 : Ref sig .tc := ⟨.hbm, 359, rfl⟩
abbrev main_v190 : Ref sig .tc := ⟨.hbm, 360, rfl⟩
abbrev main_v191 : Ref sig .tc := ⟨.hbm, 361, rfl⟩
abbrev main_c_48 : Ref sig .tc := ⟨.hbm, 362, rfl⟩
abbrev main_v192 : Ref sig .tc := ⟨.hbm, 363, rfl⟩
abbrev main_v193 : Ref sig .tc := ⟨.hbm, 364, rfl⟩
abbrev main_c_49 : Ref sig .tc := ⟨.hbm, 365, rfl⟩
abbrev main_v194 : Ref sig .tc := ⟨.hbm, 366, rfl⟩
abbrev main_v195 : Ref sig .tc := ⟨.hbm, 367, rfl⟩
abbrev main_v196 : Ref sig .tc := ⟨.hbm, 368, rfl⟩
abbrev main_v197 : Ref sig .tc := ⟨.hbm, 369, rfl⟩
abbrev main_v198 : Ref sig .tc := ⟨.hbm, 370, rfl⟩
abbrev main_v199 : Ref sig .tc := ⟨.hbm, 371, rfl⟩
abbrev main_v200 : Ref sig .tc := ⟨.hbm, 372, rfl⟩
abbrev main_v201 : Ref sig .tc := ⟨.hbm, 373, rfl⟩
abbrev main_cst_50 : Ref sig .tc := ⟨.hbm, 374, rfl⟩
abbrev main_v202 : Ref sig .tc := ⟨.hbm, 375, rfl⟩
abbrev main_v203 : Ref sig .tc := ⟨.hbm, 376, rfl⟩
abbrev main_v204 : Ref sig .tc := ⟨.hbm, 377, rfl⟩
abbrev main_v205 : Ref sig .tc := ⟨.hbm, 378, rfl⟩
abbrev main_v206 : Ref sig .tc := ⟨.hbm, 379, rfl⟩
abbrev main_v207 : Ref sig .tc := ⟨.hbm, 380, rfl⟩
abbrev main_v208 : Ref sig .tc := ⟨.hbm, 381, rfl⟩
abbrev main_v209 : Ref sig .tc := ⟨.hbm, 382, rfl⟩
abbrev main_v210 : Ref sig .tc := ⟨.hbm, 383, rfl⟩
abbrev main_v211 : Ref sig .tc := ⟨.hbm, 384, rfl⟩
abbrev main_cst_51 : Ref sig .tc := ⟨.hbm, 385, rfl⟩
abbrev main_v212 : Ref sig .tc := ⟨.hbm, 386, rfl⟩
abbrev main_v213 : Ref sig .tc := ⟨.hbm, 387, rfl⟩
abbrev main_cst_52 : Ref sig .tc := ⟨.hbm, 388, rfl⟩
abbrev main_v214 : Ref sig .tc := ⟨.hbm, 389, rfl⟩
abbrev main_v215 : Ref sig .tc := ⟨.hbm, 390, rfl⟩
abbrev main_v216 : Ref sig .tc := ⟨.hbm, 391, rfl⟩
abbrev main_v217 : Ref sig .tc := ⟨.hbm, 392, rfl⟩
abbrev main_v218 : Ref sig .tc := ⟨.hbm, 393, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S200x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2048x200_S2048x200_0_0 : ∀ a, (![0, 0] : Fin 2 → Nat) a + S2048x200.size a ≤ S2048x200.size a
  h_S2048x200 : 0 < S2048x200.numel
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  reduces_S2048x128_S128 : S2048x128.Reduces [0] S128
  bcast_S_S1x128 : S_.BroadcastsInDim S1x128 (![] : Fin 0 → Fin S1x128.rank)
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1024x128_S1024x128 : S1024x128.ShapeCasts S1024x128
  broadcasts_S1x128_S1024x128 : S1x128.Broadcasts S1024x128
  inb_S1024x1024_S1024x1024_0_0 : ∀ a, (![0, 0] : Fin 2 → Nat) a + S1024x1024.size a ≤ S1024x1024.size a
  h_S1024x1024 : 0 < S1024x1024.numel
  shapeCasts_S1x1024_S1x1024 : S1x1024.ShapeCasts S1x1024
  reduces_S1024x1024_S1024 : S1024x1024.Reduces [0] S1024
  shapeCasts_S1024_S1x1024 : S1024.ShapeCasts S1x1024
  shapeCasts_S1x1024_S1024x1 : S1x1024.ShapeCasts S1024x1
  bcast_S1024x1_S1024x128_0_1 : S1024x1.BroadcastsInDim S1024x128 (![0, 1] : Fin 2 → Fin S1024x128.rank)
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  reducesTo_S1024x128_S128_d0 : S1024x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  reducesTo_S65536x128_S65536_d1 : S65536x128.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  reducesTo_S65536x128_S128_d0 : S65536x128.ReducesTo [0] S128
  bcast_S1x128_S65536x128_0_1 : S1x128.BroadcastsInDim S65536x128 (![0, 1] : Fin 2 → Fin S65536x128.rank)
  bcast_S_S65536 : S_.BroadcastsInDim S65536 (![] : Fin 0 → Fin S65536.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S65536x128 : S_.BroadcastsInDim S65536x128 (![] : Fin 0 → Fin S65536x128.rank)
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x16_S1024 : S1024x16.Reduces [1] S1024
  shapeCasts_S1024_S1024x1 : S1024.ShapeCasts S1024x1
  broadcasts_S1024x1_S1024x16 : S1024x1.Broadcasts S1024x16
  inb_S1024x16_S1024x16_0_0 : ∀ a, (![0, 0] : Fin 2 → Nat) a + S1024x16.size a ≤ S1024x16.size a
  h_S1024x16 : 0 < S1024x16.numel
  dot_S2048x200_S200x128_S2048x128_1_0_0_1_n_n_wf : DotDims.WF S2048x200 S200x128 S2048x128 [1] [0] [0] [1] [] []
  dot_S1024x1024_S1024x128_S1024x128_0_0_1_1_n_n_wf : DotDims.WF S1024x1024 S1024x128 S1024x128 [0] [0] [1] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S65536x128_S128x128_S65536x128_1_0_0_1_n_n_wf : DotDims.WF S65536x128 S128x128 S65536x128 [1] [0] [0] [1] [] []
  scatter_S65536_S524288x1_S524288_n_0_0_1_wf : ScatterDims.WF S65536 S524288x1 S524288 [] [0] [0] 1
  gather_S65536_S524288x1_S524288_n_0_n_n_0_1_1_wf : GatherDims.WF S65536 S524288x1 S524288 [] [0] [] [0] [] 1 ![1]
  gather_S65536x128_S524288x1_S524288x128_1_0_n_n_0_1_1128_wf : GatherDims.WF S65536x128 S524288x1 S524288x128 [1] [0] [] [0] [] 1 ![1, 128]
  scatter_S65536x128_S524288x1_S524288x128_1_0_0_1_wf : ScatterDims.WF S65536x128 S524288x1 S524288x128 [1] [0] [0] 1
  dot_S1024x128_S128x16_S1024x16_1_0_0_1_n_n_wf : DotDims.WF S1024x128 S128x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x200.size a ≤ S65536x200.size a
  hwx0_0 : ∀ i : grid0.Coords, EltTy.bits .f32 = 32 ∨ (Rect.block (s := S65536x200) S2048x200.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S200x128.size a
  hwx0_1 : ∀ i : grid0.Coords, EltTy.bits .f32 = 32 ∨ (Rect.block (s := S200x128) S200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S65536x128.size a
  hwx0_3 : ∀ i : grid0.Coords, EltTy.bits .f32 = 32 ∨ (Rect.block (s := S65536x128) S2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S65536x128.size a
  hwx1_0 : ∀ i : grid1.Coords, EltTy.bits .f32 = 32 ∨ (Rect.block (s := S65536x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S65536x1024.size a
  hwx1_3 : ∀ i : grid1.Coords, EltTy.bits .f32 = 32 ∨ (Rect.block (s := S65536x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S65536x128.size a
  hwx1_4 : ∀ i : grid1.Coords, EltTy.bits .f32 = 32 ∨ (Rect.block (s := S65536x128) S1024x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .f32 = 32 ∨ (Rect.block (s := S1024x128) S1024x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S65536x1024.size a
  hwx2_0 : ∀ i : grid2.Coords, EltTy.bits .f32 = 32 ∨ (Rect.block (s := S65536x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S65536x128.size a
  hwx2_2 : ∀ i : grid2.Coords, EltTy.bits .f32 = 32 ∨ (Rect.block (s := S65536x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S128x16.size a
  hwx2_3 : ∀ i : grid2.Coords, EltTy.bits .f32 = 32 ∨ (Rect.block (s := S128x16) S128x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x16.size a ≤ S65536x16.size a
  hwx2_5 : ∀ i : grid2.Coords, EltTy.bits .f32 = 32 ∨ (Rect.block (s := S65536x16) S1024x16.size (cc2_transform_5 i) (hinb2_5 i)).WholeWords (EltTy.packing .f32)

variable [Facts₀]

def dot_S2048x200_S200x128_S2048x128_1_0_0_1_n_n : DotDims S2048x200 S200x128 S2048x128 where
  lhsContracting := [1]
  rhsContracting := [0]
  lhsNonContracting := [0]
  rhsNonContracting := [1]
  lhsBatch := []
  rhsBatch := []
  wf := dot_S2048x200_S200x128_S2048x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def gather_S65536_S524288x1_S524288_n_0_n_n_0_1_1 : GatherDims S65536 S524288x1 S524288 where
  offsetDims := []
  collapsedSliceDims := [0]
  operandBatchingDims := []
  startIndicesBatchingDims := []
  startIndexMap := [0]
  indexVectorDim := 1
  sliceSizes := ![1]
  wf := gather_S65536_S524288x1_S524288_n_0_n_n_0_1_1_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S1024x128_S128x16_S1024x16_1_0_0_1_n_n : DotDims S1024x128 S128x16 S1024x16 where
  lhsContracting := [1]
  rhsContracting := [0]
  lhsNonContracting := [0]
  rhsNonContracting := [1]
  lhsBatch := []
  rhsBatch := []
  wf := dot_S1024x128_S128x16_S1024x16_1_0_0_1_n_n_wf

abbrev win0_0 : Pipeline.Window sig grid0 :=
  Pipeline.Window.ofSpec (Memref.whole main_arg0) S2048x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S200x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1_0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_0) S1024x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_1) S1024x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11_2) S1x1024.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v216) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v217) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v218) S1024x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S65536x200 : Shape := ⟨2, ![65536, 200]⟩
abbrev S65536x1024 : Shape := ⟨2, ![65536, 1024]⟩
abbrev S1024x1024 : Shape := ⟨2, ![1024, 1024]⟩
abbrev S2x524288 : Shape := ⟨2, ![2, 524288]⟩
abbrev S200x128 : Shape := ⟨2, ![200, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S65536x128 : Shape := ⟨2, ![65536, 128]⟩
abbrev S1x128 : Shape := ⟨2, ![1, 128]⟩
abbrev S_ : Shape := ⟨0, ![]⟩
abbrev S1024 : Shape := ⟨1, ![1024]⟩
abbrev S1x1024 : Shape := ⟨2, ![1, 1024]⟩
abbrev S1024x65536 : Shape := ⟨2, ![1024, 65536]⟩
abbrev S1024x128 : Shape := ⟨2, ![1024, 128]⟩
abbrev S1024x1 : Shape := ⟨2, ![1024, 1]⟩
abbrev S1x524288 : Shape := ⟨2, ![1, 524288]⟩
abbrev S524288 : Shape := ⟨1, ![524288]⟩
abbrev S65536 : Shape := ⟨1, ![65536]⟩
abbrev S65536x1 : Shape := ⟨2, ![65536, 1]⟩
abbrev S524288x1 : Shape := ⟨2, ![524288, 1]⟩
abbrev S524288x128 : Shape := ⟨2, ![524288, 128]⟩
abbrev S65536x16 : Shape := ⟨2, ![65536, 16]⟩
abbrev S1x16 : Shape := ⟨2, ![1, 16]⟩

abbrev nBuf : Space → Nat
  | .hbm => 439
  | .vmem => 0
  | .smem => 0
  | _ => 0

abbrev hbmTy0_0 (i : Nat) : BufTy := match i % 128 with
  | 0 => ⟨S65536x200, .f32⟩
  | 1 => ⟨S65536x1024, .f32⟩
  | 2 => ⟨S1024x1024, .f32⟩
  | 3 => ⟨S2x524288, .i32⟩
  | 4 => ⟨S200x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x16, .f32⟩
  | 15 => ⟨S16, .f32⟩
  | 16 => ⟨S65536x128, .f32⟩
  | 17 => ⟨S1x128, .f32⟩
  | 18 => ⟨S65536x128, .f32⟩
  | 19 => ⟨S65536x128, .f32⟩
  | 20 => ⟨S_, .f32⟩
  | 21 => ⟨S128, .f32⟩
  | 22 => ⟨S_, .f32⟩
  | 23 => ⟨S128, .f32⟩
  | 24 => ⟨S128, .f32⟩
  | 25 => ⟨S_, .i32⟩
  | 26 => ⟨S_, .f32⟩
  | 27 => ⟨S128, .f32⟩
  | 28 => ⟨S1x128, .f32⟩
  | 29 => ⟨S_, .f32⟩
  | 30 => ⟨S1x128, .f32⟩
  | 31 => ⟨S1x128, .f32⟩
  | 32 => ⟨S65536x128, .f32⟩
  | 33 => ⟨S65536x128, .f32⟩
  | 34 => ⟨S65536x128, .f32⟩
  | 35 => ⟨S_, .f32⟩
  | 36 => ⟨S_, .f32⟩
  | 37 => ⟨S_, .f32⟩
  | 38 => ⟨S_, .f32⟩
  | 39 => ⟨S128, .f32⟩
  | 40 => ⟨S128, .f32⟩
  | 41 => ⟨S128, .f32⟩
  | 42 => ⟨S_, .f32⟩
  | 43 => ⟨S_, .i1⟩
  | 44 => ⟨S_, .f32⟩
  | 45 => ⟨S_, .f32⟩
  | 46 => ⟨S128, .f32⟩
  | 47 => ⟨S128, .f32⟩
  | 48 => ⟨S1x128, .f32⟩
  | 49 => ⟨S65536x128, .f32⟩
  | 50 => ⟨S65536x128, .f32⟩
  | 51 => ⟨S_, .f32⟩
  | 52 => ⟨S128, .f32⟩
  | 53 => ⟨S128, .f32⟩
  | 54 => ⟨S128, .f32⟩
  | 55 => ⟨S1x128, .f32⟩
  | 56 => ⟨S65536x128, .f32⟩
  | 57 => ⟨S65536x128, .f32⟩
  | 58 => ⟨S_, .f32⟩
  | 59 => ⟨S1024, .f32⟩
  | 60 => ⟨S1x1024, .f32⟩
  | 61 => ⟨S65536x1024, .f32⟩
  | 62 => ⟨S65536x1024, .f32⟩
  | 63 => ⟨S1024x65536, .f32⟩
  | 64 => ⟨S1024x128, .f32⟩
  | 65 => ⟨S1024x128, .f32⟩
  | 66 => ⟨S_, .f32⟩
  | 67 => ⟨S1024, .f32⟩
  | 68 => ⟨S1024x1, .f32⟩
  | 69 => ⟨S1024x1, .f32⟩
  | 70 => ⟨S_, .f32⟩
  | 71 => ⟨S1024x1, .f32⟩
  | 72 => ⟨S1024x1, .f32⟩
  | 73 => ⟨S1024x128, .f32⟩
  | 74 => ⟨S1024x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S1024x128, .f32⟩
  | 88 => ⟨S1024x128, .f32⟩
  | 89 => ⟨S1024x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S1024x128, .f32⟩
  | 105 => ⟨S1024x128, .f32⟩
  | 106 => ⟨S_, .f32⟩
  | 107 => ⟨S128, .f32⟩
  | 108 => ⟨S128, .f32⟩
  | 109 => ⟨S128, .f32⟩
  | 110 => ⟨S1x128, .f32⟩
  | 111 => ⟨S1024x128, .f32⟩
  | 112 => ⟨S1024x128, .f32⟩
  | 113 => ⟨S1024x128, .f32⟩
  | 114 => ⟨S1x128, .f32⟩
  | 115 => ⟨S1024x128, .f32⟩
  | 116 => ⟨S1024x128, .f32⟩
  | 117 => ⟨S1024x128, .f32⟩
  | 118 => ⟨S_, .f32⟩
  | 119 => ⟨S1024x128, .f32⟩
  | 120 => ⟨S1024x128, .i1⟩
  | 121 => ⟨S_, .f32⟩
  | 122 => ⟨S1024x128, .f32⟩
  | 123 => ⟨S1024x128, .f32⟩
  | 124 => ⟨S1024x128, .f32⟩
  | 125 => ⟨S1024x128, .f32⟩
  | 126 => ⟨S_, .f32⟩
  | 127 => ⟨S1024, .f32⟩
  | _ => ⟨S65536x200, .f32⟩

abbrev hbmTy0_1 (i : Nat) : BufTy := match i % 128 with
  | 0 => ⟨S1024x1, .f32⟩
  | 1 => ⟨S1024x1, .f32⟩
  | 2 => ⟨S_, .f32⟩
  | 3 => ⟨S1024x1, .f32⟩
  | 4 => ⟨S1024x1, .f32⟩
  | 5 => ⟨S1024x128, .f32⟩
  | 6 => ⟨S1024x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S1024x128, .f32⟩
  | 20 => ⟨S1024x128, .f32⟩
  | 21 => ⟨S1024x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S1024x128, .f32⟩
  | 37 => ⟨S1024x128, .f32⟩
  | 38 => ⟨S_, .f32⟩
  | 39 => ⟨S128, .f32⟩
  | 40 => ⟨S128, .f32⟩
  | 41 => ⟨S128, .f32⟩
  | 42 => ⟨S1x128, .f32⟩
  | 43 => ⟨S1024x128, .f32⟩
  | 44 => ⟨S1024x128, .f32⟩
  | 45 => ⟨S1024x128, .f32⟩
  | 46 => ⟨S1x128, .f32⟩
  | 47 => ⟨S1024x128, .f32⟩
  | 48 => ⟨S1024x128, .f32⟩
  | 49 => ⟨S1024x128, .f32⟩
  | 50 => ⟨S_, .f32⟩
  | 51 => ⟨S1024x128, .f32⟩
  | 52 => ⟨S1024x128, .i1⟩
  | 53 => ⟨S_, .f32⟩
  | 54 => ⟨S1024x128, .f32⟩
  | 55 => ⟨S1024x128, .f32⟩
  | 56 => ⟨S1024x128, .f32⟩
  | 57 => ⟨S65536x128, .f32⟩
  | 58 => ⟨S1x524288, .i32⟩
  | 59 => ⟨S524288, .i32⟩
  | 60 => ⟨S1x524288, .i32⟩
  | 61 => ⟨S524288, .i32⟩
  | 62 => ⟨S65536x128, .f32⟩
  | 63 => ⟨S_, .f32⟩
  | 64 => ⟨S65536, .f32⟩
  | 65 => ⟨S65536x1, .f32⟩
  | 66 => ⟨S65536x1, .f32⟩
  | 67 => ⟨S_, .f32⟩
  | 68 => ⟨S65536x1, .f32⟩
  | 69 => ⟨S65536x1, .f32⟩
  | 70 => ⟨S65536x128, .f32⟩
  | 71 => ⟨S65536x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S65536x128, .f32⟩
  | 85 => ⟨S65536x128, .f32⟩
  | 86 => ⟨S65536x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S65536x128, .f32⟩
  | 102 => ⟨S65536x128, .f32⟩
  | 103 => ⟨S_, .f32⟩
  | 104 => ⟨S128, .f32⟩
  | 105 => ⟨S128, .f32⟩
  | 106 => ⟨S128, .f32⟩
  | 107 => ⟨S1x128, .f32⟩
  | 108 => ⟨S65536x128, .f32⟩
  | 109 => ⟨S65536x128, .f32⟩
  | 110 => ⟨S65536x128, .f32⟩
  | 111 => ⟨S_, .f32⟩
  | 112 => ⟨S65536, .f32⟩
  | 113 => ⟨S_, .i32⟩
  | 114 => ⟨S524288, .i32⟩
  | 115 => ⟨S524288, .i1⟩
  | 116 => ⟨S_, .i32⟩
  | 117 => ⟨S524288, .i32⟩
  | 118 => ⟨S524288, .i32⟩
  | 119 => ⟨S524288, .i32⟩
  | 120 => ⟨S524288x1, .i32⟩
  | 121 => ⟨S_, .f32⟩
  | 122 => ⟨S524288, .f32⟩
  | 123 => ⟨S65536, .f32⟩
  | 124 => ⟨S_, .f32⟩
  | 125 => ⟨S65536, .f32⟩
  | 126 => ⟨S65536, .f32⟩
  | 127 => ⟨S65536, .f32⟩
  | _ => ⟨S65536x200, .f32⟩

abbrev hbmTy0_2 (i : Nat) : BufTy := match i % 128 with
  | 0 => ⟨S_, .i32⟩
  | 1 => ⟨S524288, .i32⟩
  | 2 => ⟨S524288, .i1⟩
  | 3 => ⟨S_, .i32⟩
  | 4 => ⟨S524288, .i32⟩
  | 5 => ⟨S524288, .i32⟩
  | 6 => ⟨S524288, .i32⟩
  | 7 => ⟨S524288x1, .i32⟩
  | 8 => ⟨S524288, .f32⟩
  | 9 => ⟨S_, .i32⟩
  | 10 => ⟨S524288, .i32⟩
  | 11 => ⟨S524288, .i1⟩
  | 12 => ⟨S_, .i32⟩
  | 13 => ⟨S524288, .i32⟩
  | 14 => ⟨S524288, .i32⟩
  | 15 => ⟨S524288, .i32⟩
  | 16 => ⟨S524288x1, .i32⟩
  | 17 => ⟨S524288, .f32⟩
  | 18 => ⟨S524288, .f32⟩
  | 19 => ⟨S_, .i32⟩
  | 20 => ⟨S524288, .i32⟩
  | 21 => ⟨S524288, .i1⟩
  | 22 => ⟨S_, .i32⟩
  | 23 => ⟨S524288, .i32⟩
  | 24 => ⟨S524288, .i32⟩
  | 25 => ⟨S524288, .i32⟩
  | 26 => ⟨S524288x1, .i32⟩
  | 27 => ⟨S524288x128, .f32⟩
  | 28 => ⟨S524288x1, .f32⟩
  | 29 => ⟨S524288x128, .f32⟩
  | 30 => ⟨S524288x128, .f32⟩
  | 31 => ⟨S_, .f32⟩
  | 32 => ⟨S65536x128, .f32⟩
  | 33 => ⟨S524288x1, .i32⟩
  | 34 => ⟨S65536x128, .f32⟩
  | 35 => ⟨S65536x1, .f32⟩
  | 36 => ⟨S65536x128, .f32⟩
  | 37 => ⟨S65536x128, .f32⟩
  | 38 => ⟨S65536x128, .f32⟩
  | 39 => ⟨S1x128, .f32⟩
  | 40 => ⟨S65536x128, .f32⟩
  | 41 => ⟨S65536x128, .f32⟩
  | 42 => ⟨S_, .f32⟩
  | 43 => ⟨S65536x128, .f32⟩
  | 44 => ⟨S65536x128, .i1⟩
  | 45 => ⟨S_, .f32⟩
  | 46 => ⟨S65536x128, .f32⟩
  | 47 => ⟨S65536x128, .f32⟩
  | 48 => ⟨S65536x128, .f32⟩
  | 49 => ⟨S65536x128, .f32⟩
  | 50 => ⟨S_, .f32⟩
  | 51 => ⟨S65536, .f32⟩
  | 52 => ⟨S65536x1, .f32⟩
  | 53 => ⟨S65536x1, .f32⟩
  | 54 => ⟨S_, .f32⟩
  | 55 => ⟨S65536x1, .f32⟩
  | 56 => ⟨S65536x1, .f32⟩
  | 57 => ⟨S65536x128, .f32⟩
  | 58 => ⟨S65536x128, .f32⟩
  | 59 => ⟨S_, .f32⟩
  | 60 => ⟨S128, .f32⟩
  | 61 => ⟨S_, .f32⟩
  | 62 => ⟨S128, .f32⟩
  | 63 => ⟨S128, .f32⟩
  | 64 => ⟨S_, .i32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S65536x128, .f32⟩
  | 72 => ⟨S65536x128, .f32⟩
  | 73 => ⟨S65536x128, .f32⟩
  | 74 => ⟨S_, .f32⟩
  | 75 => ⟨S_, .f32⟩
  | 76 => ⟨S_, .f32⟩
  | 77 => ⟨S_, .f32⟩
  | 78 => ⟨S128, .f32⟩
  | 79 => ⟨S128, .f32⟩
  | 80 => ⟨S128, .f32⟩
  | 81 => ⟨S_, .f32⟩
  | 82 => ⟨S_, .i1⟩
  | 83 => ⟨S_, .f32⟩
  | 84 => ⟨S_, .f32⟩
  | 85 => ⟨S128, .f32⟩
  | 86 => ⟨S128, .f32⟩
  | 87 => ⟨S1x128, .f32⟩
  | 88 => ⟨S65536x128, .f32⟩
  | 89 => ⟨S65536x128, .f32⟩
  | 90 => ⟨S_, .f32⟩
  | 91 => ⟨S128, .f32⟩
  | 92 => ⟨S128, .f32⟩
  | 93 => ⟨S128, .f32⟩
  | 94 => ⟨S1x128, .f32⟩
  | 95 => ⟨S65536x128, .f32⟩
  | 96 => ⟨S65536x128, .f32⟩
  | 97 => ⟨S65536x128, .f32⟩
  | 98 => ⟨S_, .f32⟩
  | 99 => ⟨S65536, .f32⟩
  | 100 => ⟨S_, .i32⟩
  | 101 => ⟨S524288, .i32⟩
  | 102 => ⟨S524288, .i1⟩
  | 103 => ⟨S_, .i32⟩
  | 104 => ⟨S524288, .i32⟩
  | 105 => ⟨S524288, .i32⟩
  | 106 => ⟨S524288, .i32⟩
  | 107 => ⟨S524288x1, .i32⟩
  | 108 => ⟨S_, .f32⟩
  | 109 => ⟨S524288, .f32⟩
  | 110 => ⟨S65536, .f32⟩
  | 111 => ⟨S_, .f32⟩
  | 112 => ⟨S65536, .f32⟩
  | 113 => ⟨S65536, .f32⟩
  | 114 => ⟨S65536, .f32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S524288x1, .i32⟩
  | 123 => ⟨S524288, .f32⟩
  | 124 => ⟨S_, .i32⟩
  | 125 => ⟨S524288, .i32⟩
  | 126 => ⟨S524288, .i1⟩
  | 127 => ⟨S_, .i32⟩
  | _ => ⟨S65536x200, .f32⟩

abbrev hbmTy0_3 (i : Nat) : BufTy := match i % 128 with
  | 0 => ⟨S524288, .i32⟩
  | 1 => ⟨S524288, .i32⟩
  | 2 => ⟨S524288, .i32⟩
  | 3 => ⟨S524288x1, .i32⟩
  | 4 => ⟨S524288, .f32⟩
  | 5 => ⟨S524288, .f32⟩
  | 6 => ⟨S_, .i32⟩
  | 7 => ⟨S524288, .i32⟩
  | 8 => ⟨S524288, .i1⟩
  | 9 => ⟨S_, .i32⟩
  | 10 => ⟨S524288, .i32⟩
  | 11 => ⟨S524288, .i32⟩
  | 12 => ⟨S524288, .i32⟩
  | 13 => ⟨S524288x1, .i32⟩
  | 14 => ⟨S524288x128, .f32⟩
  | 15 => ⟨S524288x1, .f32⟩
  | 16 => ⟨S524288x128, .f32⟩
  | 17 => ⟨S524288x128, .f32⟩
  | 18 => ⟨S_, .f32⟩
  | 19 => ⟨S65536x128, .f32⟩
  | 20 => ⟨S524288x1, .i32⟩
  | 21 => ⟨S65536x128, .f32⟩
  | 22 => ⟨S65536x1, .f32⟩
  | 23 => ⟨S65536x128, .f32⟩
  | 24 => ⟨S65536x128, .f32⟩
  | 25 => ⟨S65536x128, .f32⟩
  | 26 => ⟨S1x128, .f32⟩
  | 27 => ⟨S65536x128, .f32⟩
  | 28 => ⟨S65536x128, .f32⟩
  | 29 => ⟨S_, .f32⟩
  | 30 => ⟨S65536x128, .f32⟩
  | 31 => ⟨S65536x128, .i1⟩
  | 32 => ⟨S_, .f32⟩
  | 33 => ⟨S65536x128, .f32⟩
  | 34 => ⟨S65536x128, .f32⟩
  | 35 => ⟨S65536x128, .f32⟩
  | 36 => ⟨S65536x128, .f32⟩
  | 37 => ⟨S65536x16, .f32⟩
  | 38 => ⟨S1x16, .f32⟩
  | 39 => ⟨S65536x16, .f32⟩
  | 40 => ⟨S65536x16, .f32⟩
  | 41 => ⟨S_, .f32⟩
  | 42 => ⟨S65536, .f32⟩
  | 43 => ⟨S_, .f32⟩
  | 44 => ⟨S65536, .f32⟩
  | 45 => ⟨S65536, .f32⟩
  | 46 => ⟨S65536x1, .f32⟩
  | 47 => ⟨S65536x16, .f32⟩
  | 48 => ⟨S65536x16, .f32⟩
  | 49 => ⟨S65536x16, .f32⟩
  | 50 => ⟨S_, .f32⟩
  | 51 => ⟨S65536, .f32⟩
  | 52 => ⟨S65536x1, .f32⟩
  | 53 => ⟨S65536x16, .f32⟩
  | 54 => ⟨S65536x16, .f32⟩
  | _ => ⟨S65536x200, .f32⟩

abbrev hbmTy (i : Nat) : BufTy := match i / 128 with
  | 0 => hbmTy0_0 i
  | 1 => hbmTy0_1 i
  | 2 => hbmTy0_2 i
  | 3 => hbmTy0_3 i
  | _ => ⟨S65536x200, .f32⟩

abbrev bufTy : (tb : Table) → Fin (tcTables nBuf tb) → BufTy
  | .hbm, ⟨i, _⟩ => hbmTy i
  | _, _ => ⟨S65536x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_3 : Ref sig .tc := ⟨.hbm, 42, rfl⟩
abbrev main_call0_v12 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_2 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_call1_v0 : Ref sig .tc := ⟨.hbm, 65, rfl⟩
abbrev main_call1_cst : Ref sig .tc := ⟨.hbm, 66, rfl⟩
abbrev main_call1_v1 : Ref sig .tc := ⟨.hbm, 67, rfl⟩
abbrev main_call1_v2 : Ref sig .tc := ⟨.hbm, 68, rfl⟩
abbrev main_v23 : Ref sig .tc := ⟨.hbm, 69, rfl⟩
abbrev main_cst_3 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_4 : Ref sig .tc := ⟨.hbm, 75, rfl⟩
abbrev main_v28 : Ref sig .tc := ⟨.hbm, 76, rfl⟩
abbrev main_cst_5 : Ref sig .tc := ⟨.hbm, 77, rfl⟩
abbrev main_v29 : Ref sig .tc := ⟨.hbm, 78, rfl⟩
abbrev main_v30 : Ref sig .tc := ⟨.hbm, 79, rfl⟩
abbrev main_c_6 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_cst_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_cst_1 : Ref sig .tc := ⟨.hbm, 91, rfl⟩
abbrev main_call2_v8 : Ref sig .tc := ⟨.hbm, 92, rfl⟩
abbrev main_call2_cst_2 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_cst_3 : Ref sig .tc := ⟨.hbm, 97, rfl⟩
abbrev main_call2_v12 : Ref sig .tc := ⟨.hbm, 98, rfl⟩
abbrev main_call2_cst_4 : Ref sig .tc := ⟨.hbm, 99, rfl⟩
abbrev main_call2_call0_v0 : Ref sig .tc := ⟨.hbm, 100, rfl⟩
abbrev main_call2_call0_v1 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_cst_7 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_cst_8 : Ref sig .tc := ⟨.hbm, 118, rfl⟩
abbrev main_v46 : Ref sig .tc := ⟨.hbm, 119, rfl⟩
abbrev main_v47 : Ref sig .tc := ⟨.hbm, 120, rfl⟩
abbrev main_cst_9 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_call4_v0 : Ref sig .tc := ⟨.hbm, 125, rfl⟩
abbrev main_call4_cst : Ref sig .tc := ⟨.hbm, 126, rfl⟩
abbrev main_call4_v1 : Ref sig .tc := ⟨.hbm, 127, rfl⟩
abbrev main_call4_v2 : Ref sig .tc := ⟨.hbm, 128, rfl⟩
abbrev main_v51 : Ref sig .tc := ⟨.hbm, 129, rfl⟩
abbrev main_cst_10 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_cst_11 : Ref sig .tc := ⟨.hbm, 135, rfl⟩
abbrev main_v56 : Ref sig .tc := ⟨.hbm, 136, rfl⟩
abbrev main_cst_12 : Ref sig .tc := ⟨.hbm, 137, rfl⟩
abbrev main_v57 : Ref sig .tc := ⟨.hbm, 138, rfl⟩
abbrev main_v58 : Ref sig .tc := ⟨.hbm, 139, rfl⟩
abbrev main_c_13 : Ref sig .tc := ⟨.hbm, 140, rfl⟩
abbrev main_call5_cst : Ref sig .tc := ⟨.hbm, 141, rfl⟩
abbrev main_call5_v0 : Ref sig .tc := ⟨.hbm, 142, rfl⟩
abbrev main_call5_v1 : Ref sig .tc := ⟨.hbm, 143, rfl⟩
abbrev main_call5_cst_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_v7 : Ref sig .tc := ⟨.hbm, 150, rfl⟩
abbrev main_call5_cst_1 : Ref sig .tc := ⟨.hbm, 151, rfl⟩
abbrev main_call5_v8 : Ref sig .tc := ⟨.hbm, 152, rfl⟩
abbrev main_call5_cst_2 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_cst_3 : Ref sig .tc := ⟨.hbm, 157, rfl⟩
abbrev main_call5_v12 : Ref sig .tc := ⟨.hbm, 158, rfl⟩
abbrev main_call5_cst_4 : Ref sig .tc := ⟨.hbm, 159, rfl⟩
abbrev main_call5_call0_v0 : Ref sig .tc := ⟨.hbm, 160, rfl⟩
abbrev main_call5_call0_v1 : Ref sig .tc := ⟨.hbm, 161, rfl⟩
abbrev main_v59 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_cst_14 : Ref sig .tc := ⟨.hbm, 166, rfl⟩
abbrev main_v63 : Ref sig .tc := ⟨.hbm, 167, rfl⟩
abbrev main_v64 : Ref sig .tc := ⟨.hbm, 168, rfl⟩
abbrev main_v65 : Ref sig .tc := ⟨.hbm, 169, rfl⟩
abbrev main_v66 : Ref sig .tc := ⟨.hbm, 170, rfl⟩
abbrev main_v67 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_cst_15 : Ref sig .tc := ⟨.hbm, 178, rfl⟩
abbrev main_v74 : Ref sig .tc := ⟨.hbm, 179, rfl⟩
abbrev main_v75 : Ref sig .tc := ⟨.hbm, 180, rfl⟩
abbrev main_cst_16 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_call7_v0 : Ref sig .tc := ⟨.hbm, 190, rfl⟩
abbrev main_call7_cst : Ref sig .tc := ⟨.hbm, 191, rfl⟩
abbrev main_call7_v1 : Ref sig .tc := ⟨.hbm, 192, rfl⟩
abbrev main_call7_v2 : Ref sig .tc := ⟨.hbm, 193, rfl⟩
abbrev main_v84 : Ref sig .tc := ⟨.hbm, 194, rfl⟩
abbrev main_cst_17 : Ref sig .tc := ⟨.hbm, 195, rfl⟩
abbrev main_v85 : Ref sig .tc := ⟨.hbm, 196, rfl⟩
abbrev main_v86 : Ref sig .tc := ⟨.hbm, 197, rfl⟩
abbrev main_v87 : Ref sig .tc := ⟨.hbm, 198, rfl⟩
abbrev main_v88 : Ref sig .tc := ⟨.hbm, 199, rfl⟩
abbrev main_cst_18 : Ref sig .tc := ⟨.hbm, 200, rfl⟩
abbrev main_v89 : Ref sig .tc := ⟨.hbm, 201, rfl⟩
abbrev main_cst_19 : Ref sig .tc := ⟨.hbm, 202, rfl⟩
abbrev main_v90 : Ref sig .tc := ⟨.hbm, 203, rfl⟩
abbrev main_v91 : Ref sig .tc := ⟨.hbm, 204, rfl⟩
abbrev main_c_20 : Ref sig .tc := ⟨.hbm, 205, rfl⟩
abbrev main_call8_cst : Ref sig .tc := ⟨.hbm, 206, rfl⟩
abbrev main_call8_v0 : Ref sig .tc := ⟨.hbm, 207, rfl⟩
abbrev main_call8_v1 : Ref sig .tc := ⟨.hbm, 208, rfl⟩
abbrev main_call8_cst_0 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_v6 : Ref sig .tc := ⟨.hbm, 214, rfl⟩
abbrev main_call8_v7 : Ref sig .tc := ⟨.hbm, 215, rfl⟩
abbrev main_call8_cst_1 : Ref sig .tc := ⟨.hbm, 216, rfl⟩
abbrev main_call8_v8 : Ref sig .tc := ⟨.hbm, 217, rfl⟩
abbrev main_call8_cst_2 : Ref sig .tc := ⟨.hbm, 218, rfl⟩
abbrev main_call8_v9 : Ref sig .tc := ⟨.hbm, 219, rfl⟩
abbrev main_call8_v10 : Ref sig .tc := ⟨.hbm, 220, rfl⟩
abbrev main_call8_v11 : Ref sig .tc := ⟨.hbm, 221, rfl⟩
abbrev main_call8_cst_3 : Ref sig .tc := ⟨.hbm, 222, rfl⟩
abbrev main_call8_v12 : Ref sig .tc := ⟨.hbm, 223, rfl⟩
abbrev main_call8_cst_4 : Ref sig .tc := ⟨.hbm, 224, rfl⟩
abbrev main_call8_call0_v0 : Ref sig .tc := ⟨.hbm, 225, rfl⟩
abbrev main_call8_call0_v1 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_v95 : Ref sig .tc := ⟨.hbm, 230, rfl⟩
abbrev main_cst_21 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_cst_22 : Ref sig .tc := ⟨.hbm, 239, rfl⟩
abbrev main_v103 : Ref sig .tc := ⟨.hbm, 240, rfl⟩
abbrev main_c_23 : Ref sig .tc := ⟨.hbm, 241, rfl⟩
abbrev main_v104 : Ref sig .tc := ⟨.hbm, 242, rfl⟩
abbrev main_v105 : Ref sig .tc := ⟨.hbm, 243, rfl⟩
abbrev main_c_24 : Ref sig .tc := ⟨.hbm, 244, rfl⟩
abbrev main_v106 : Ref sig .tc := ⟨.hbm, 245, rfl⟩
abbrev main_v107 : Ref sig .tc := ⟨.hbm, 246, rfl⟩
abbrev main_v108 : Ref sig .tc := ⟨.hbm, 247, rfl⟩
abbrev main_v109 : Ref sig .tc := ⟨.hbm, 248, rfl⟩
abbrev main_cst_25 : Ref sig .tc := ⟨.hbm, 249, rfl⟩
abbrev main_v110 : Ref sig .tc := ⟨.hbm, 250, rfl⟩
abbrev main_v111 : Ref sig .tc := ⟨.hbm, 251, rfl⟩
abbrev main_cst_26 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_c_27 : Ref sig .tc := ⟨.hbm, 256, rfl⟩
abbrev main_v115 : Ref sig .tc := ⟨.hbm, 257, rfl⟩
abbrev main_v116 : Ref sig .tc := ⟨.hbm, 258, rfl⟩
abbrev main_c_28 : Ref sig .tc := ⟨.hbm, 259, rfl⟩
abbrev main_v117 : Ref sig .tc := ⟨.hbm, 260, rfl⟩
abbrev main_v118 : Ref sig .tc := ⟨.hbm, 261, rfl⟩
abbrev main_v119 : Ref sig .tc := ⟨.hbm, 262, rfl⟩
abbrev main_v120 : Ref sig .tc := ⟨.hbm, 263, rfl⟩
abbrev main_v121 : Ref sig .tc := ⟨.hbm, 264, rfl⟩
abbrev main_c_29 : Ref sig .tc := ⟨.hbm, 265, rfl⟩
abbrev main_v122 : Ref sig .tc := ⟨.hbm, 266, rfl⟩
abbrev main_v123 : Ref sig .tc := ⟨.hbm, 267, rfl⟩
abbrev main_c_30 : Ref sig .tc := ⟨.hbm, 268, rfl⟩
abbrev main_v124 : Ref sig .tc := ⟨.hbm, 269, rfl⟩
abbrev main_v125 : Ref sig .tc := ⟨.hbm, 270, rfl⟩
abbrev main_v126 : Ref sig .tc := ⟨.hbm, 271, rfl⟩
abbrev main_v127 : Ref sig .tc := ⟨.hbm, 272, rfl⟩
abbrev main_v128 : Ref sig .tc := ⟨.hbm, 273, rfl⟩
abbrev main_v129 : Ref sig .tc := ⟨.hbm, 274, rfl⟩
abbrev main_c_31 : Ref sig .tc := ⟨.hbm, 275, rfl⟩
abbrev main_v130 : Ref sig .tc := ⟨.hbm, 276, rfl⟩
abbrev main_v131 : Ref sig .tc := ⟨.hbm, 277, rfl⟩
abbrev main_c_32 : Ref sig .tc := ⟨.hbm, 278, rfl⟩
abbrev main_v132 : Ref sig .tc := ⟨.hbm, 279, rfl⟩
abbrev main_v133 : Ref sig .tc := ⟨.hbm, 280, rfl⟩
abbrev main_v134 : Ref sig .tc := ⟨.hbm, 281, rfl⟩
abbrev main_v135 : Ref sig .tc := ⟨.hbm, 282, rfl⟩
abbrev main_v136 : Ref sig .tc := ⟨.hbm, 283, rfl⟩
abbrev main_v137 : Ref sig .tc := ⟨.hbm, 284, rfl⟩
abbrev main_v138 : Ref sig .tc := ⟨.hbm, 285, rfl⟩
abbrev main_v139 : Ref sig .tc := ⟨.hbm, 286, rfl⟩
abbrev main_cst_33 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_v143 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_cst_34 : Ref sig .tc := ⟨.hbm, 298, rfl⟩
abbrev main_v150 : Ref sig .tc := ⟨.hbm, 299, rfl⟩
abbrev main_v151 : Ref sig .tc := ⟨.hbm, 300, rfl⟩
abbrev main_cst_35 : Ref sig .tc := ⟨.hbm, 301, rfl⟩
abbrev main_v152 : Ref sig .tc := ⟨.hbm, 302, rfl⟩
abbrev main_v153 : Ref sig .tc := ⟨.hbm, 303, rfl⟩
abbrev main_v154 : Ref sig .tc := ⟨.hbm, 304, rfl⟩
abbrev main_call10_v0 : Ref sig .tc := ⟨.hbm, 305, rfl⟩
abbrev main_call10_cst : Ref sig .tc := ⟨.hbm, 306, rfl⟩
abbrev main_call10_v1 : Ref sig .tc := ⟨.hbm, 307, rfl⟩
abbrev main_call10_v2 : Ref sig .tc := ⟨.hbm, 308, rfl⟩
abbrev main_v155 : Ref sig .tc := ⟨.hbm, 309, rfl⟩
abbrev main_cst_36 : Ref sig .tc := ⟨.hbm, 310, rfl⟩
abbrev main_v156 : Ref sig .tc := ⟨.hbm, 311, rfl⟩
abbrev main_v157 : Ref sig .tc := ⟨.hbm, 312, rfl⟩
abbrev main_v158 : Ref sig .tc := ⟨.hbm, 313, rfl⟩
abbrev main_v159 : Ref sig .tc := ⟨.hbm, 314, rfl⟩
abbrev main_cst_37 : Ref sig .tc := ⟨.hbm, 315, rfl⟩
abbrev main_v160 : Ref sig .tc := ⟨.hbm, 316, rfl⟩
abbrev main_cst_38 : Ref sig .tc := ⟨.hbm, 317, rfl⟩
abbrev main_v161 : Ref sig .tc := ⟨.hbm, 318, rfl⟩
abbrev main_v162 : Ref sig .tc := ⟨.hbm, 319, rfl⟩
abbrev main_c_39 : Ref sig .tc := ⟨.hbm, 320, rfl⟩
abbrev main_call11_cst : Ref sig .tc := ⟨.hbm, 321, rfl⟩
abbrev main_call11_v0 : Ref sig .tc := ⟨.hbm, 322, rfl⟩
abbrev main_call11_v1 : Ref sig .tc := ⟨.hbm, 323, rfl⟩
abbrev main_call11_cst_0 : Ref sig .tc := ⟨.hbm, 324, rfl⟩
abbrev main_call11_v2 : Ref sig .tc := ⟨.hbm, 325, rfl⟩
abbrev main_call11_v3 : Ref sig .tc := ⟨.hbm, 326, rfl⟩
abbrev main_call11_v4 : Ref sig .tc := ⟨.hbm, 327, rfl⟩
abbrev main_call11_v5 : Ref sig .tc := ⟨.hbm, 328, rfl⟩
abbrev main_call11_v6 : Ref sig .tc := ⟨.hbm, 329, rfl⟩
abbrev main_call11_v7 : Ref sig .tc := ⟨.hbm, 330, rfl⟩
abbrev main_call11_cst_1 : Ref sig .tc := ⟨.hbm, 331, rfl⟩
abbrev main_call11_v8 : Ref sig .tc := ⟨.hbm, 332, rfl⟩
abbrev main_call11_cst_2 : Ref sig .tc := ⟨.hbm, 333, rfl⟩
abbrev main_call11_v9 : Ref sig .tc := ⟨.hbm, 334, rfl⟩
abbrev main_call11_v10 : Ref sig .tc := ⟨.hbm, 335, rfl⟩
abbrev main_call11_v11 : Ref sig .tc := ⟨.hbm, 336, rfl⟩
abbrev main_call11_cst_3 : Ref sig .tc := ⟨.hbm, 337, rfl⟩
abbrev main_call11_v12 : Ref sig .tc := ⟨.hbm, 338, rfl⟩
abbrev main_call11_cst_4 : Ref sig .tc := ⟨.hbm, 339, rfl⟩
abbrev main_call11_call0_v0 : Ref sig .tc := ⟨.hbm, 340, rfl⟩
abbrev main_call11_call0_v1 : Ref sig .tc := ⟨.hbm, 341, rfl⟩
abbrev main_v163 : Ref sig .tc := ⟨.hbm, 342, rfl⟩
abbrev main_v164 : Ref sig .tc := ⟨.hbm, 343, rfl⟩
abbrev main_v165 : Ref sig .tc := ⟨.hbm, 344, rfl⟩
abbrev main_v166 : Ref sig .tc := ⟨.hbm, 345, rfl⟩
abbrev main_cst_40 : Ref sig .tc := ⟨.hbm, 346, rfl⟩
abbrev main_v167 : Ref sig .tc := ⟨.hbm, 347, rfl⟩
abbrev main_v168 : Ref sig .tc := ⟨.hbm, 348, rfl⟩
abbrev main_v169 : Ref sig .tc := ⟨.hbm, 349, rfl⟩
abbrev main_v170 : Ref sig .tc := ⟨.hbm, 350, rfl⟩
abbrev main_v171 : Ref sig .tc := ⟨.hbm, 351, rfl⟩
abbrev main_v172 : Ref sig .tc := ⟨.hbm, 352, rfl⟩
abbrev main_v173 : Ref sig .tc := ⟨.hbm, 353, rfl⟩
abbrev main_cst_41 : Ref sig .tc := ⟨.hbm, 354, rfl⟩
abbrev main_v174 : Ref sig .tc := ⟨.hbm, 355, rfl⟩
abbrev main_c_42 : Ref sig .tc := ⟨.hbm, 356, rfl⟩
abbrev main_v175 : Ref sig .tc := ⟨.hbm, 357, rfl⟩
abbrev main_v176 : Ref sig .tc := ⟨.hbm, 358, rfl⟩
abbrev main_c_43 : Ref sig .tc := ⟨.hbm, 359, rfl⟩
abbrev main_v177 : Ref sig .tc := ⟨.hbm, 360, rfl⟩
abbrev main_v178 : Ref sig .tc := ⟨.hbm, 361, rfl⟩
abbrev main_v179 : Ref sig .tc := ⟨.hbm, 362, rfl⟩
abbrev main_v180 : Ref sig .tc := ⟨.hbm, 363, rfl⟩
abbrev main_cst_44 : Ref sig .tc := ⟨.hbm, 364, rfl⟩
abbrev main_v181 : Ref sig .tc := ⟨.hbm, 365, rfl⟩
abbrev main_v182 : Ref sig .tc := ⟨.hbm, 366, rfl⟩
abbrev main_cst_45 : Ref sig .tc := ⟨.hbm, 367, rfl⟩
abbrev main_v183 : Ref sig .tc := ⟨.hbm, 368, rfl⟩
abbrev main_v184 : Ref sig .tc := ⟨.hbm, 369, rfl⟩
abbrev main_v185 : Ref sig .tc := ⟨.hbm, 370, rfl⟩
abbrev main_c_46 : Ref sig .tc := ⟨.hbm, 371, rfl⟩
abbrev main_v186 : Ref sig .tc := ⟨.hbm, 372, rfl⟩
abbrev main_v187 : Ref sig .tc := ⟨.hbm, 373, rfl⟩
abbrev main_c_47 : Ref sig .tc := ⟨.hbm, 374, rfl⟩
abbrev main_v188 : Ref sig .tc := ⟨.hbm, 375, rfl⟩
abbrev main_v189 : Ref sig .tc := ⟨.hbm, 376, rfl⟩
abbrev main_v190 : Ref sig .tc := ⟨.hbm, 377, rfl⟩
abbrev main_v191 : Ref sig .tc := ⟨.hbm, 378, rfl⟩
abbrev main_v192 : Ref sig .tc := ⟨.hbm, 379, rfl⟩
abbrev main_c_48 : Ref sig .tc := ⟨.hbm, 380, rfl⟩
abbrev main_v193 : Ref sig .tc := ⟨.hbm, 381, rfl⟩
abbrev main_v194 : Ref sig .tc := ⟨.hbm, 382, rfl⟩
abbrev main_c_49 : Ref sig .tc := ⟨.hbm, 383, rfl⟩
abbrev main_v195 : Ref sig .tc := ⟨.hbm, 384, rfl⟩
abbrev main_v196 : Ref sig .tc := ⟨.hbm, 385, rfl⟩
abbrev main_v197 : Ref sig .tc := ⟨.hbm, 386, rfl⟩
abbrev main_v198 : Ref sig .tc := ⟨.hbm, 387, rfl⟩
abbrev main_v199 : Ref sig .tc := ⟨.hbm, 388, rfl⟩
abbrev main_v200 : Ref sig .tc := ⟨.hbm, 389, rfl⟩
abbrev main_c_50 : Ref sig .tc := ⟨.hbm, 390, rfl⟩
abbrev main_v201 : Ref sig .tc := ⟨.hbm, 391, rfl⟩
abbrev main_v202 : Ref sig .tc := ⟨.hbm, 392, rfl⟩
abbrev main_c_51 : Ref sig .tc := ⟨.hbm, 393, rfl⟩
abbrev main_v203 : Ref sig .tc := ⟨.hbm, 394, rfl⟩
abbrev main_v204 : Ref sig .tc := ⟨.hbm, 395, rfl⟩
abbrev main_v205 : Ref sig .tc := ⟨.hbm, 396, rfl⟩
abbrev main_v206 : Ref sig .tc := ⟨.hbm, 397, rfl⟩
abbrev main_v207 : Ref sig .tc := ⟨.hbm, 398, rfl⟩
abbrev main_v208 : Ref sig .tc := ⟨.hbm, 399, rfl⟩
abbrev main_v209 : Ref sig .tc := ⟨.hbm, 400, rfl⟩
abbrev main_v210 : Ref sig .tc := ⟨.hbm, 401, rfl⟩
abbrev main_cst_52 : Ref sig .tc := ⟨.hbm, 402, rfl⟩
abbrev main_v211 : Ref sig .tc := ⟨.hbm, 403, rfl⟩
abbrev main_v212 : Ref sig .tc := ⟨.hbm, 404, rfl⟩
abbrev main_v213 : Ref sig .tc := ⟨.hbm, 405, rfl⟩
abbrev main_v214 : Ref sig .tc := ⟨.hbm, 406, rfl⟩
abbrev main_v215 : Ref sig .tc := ⟨.hbm, 407, rfl⟩
abbrev main_v216 : Ref sig .tc := ⟨.hbm, 408, rfl⟩
abbrev main_v217 : Ref sig .tc := ⟨.hbm, 409, rfl⟩
abbrev main_v218 : Ref sig .tc := ⟨.hbm, 410, rfl⟩
abbrev main_v219 : Ref sig .tc := ⟨.hbm, 411, rfl⟩
abbrev main_v220 : Ref sig .tc := ⟨.hbm, 412, rfl⟩
abbrev main_cst_53 : Ref sig .tc := ⟨.hbm, 413, rfl⟩
abbrev main_v221 : Ref sig .tc := ⟨.hbm, 414, rfl⟩
abbrev main_v222 : Ref sig .tc := ⟨.hbm, 415, rfl⟩
abbrev main_cst_54 : Ref sig .tc := ⟨.hbm, 416, rfl⟩
abbrev main_v223 : Ref sig .tc := ⟨.hbm, 417, rfl⟩
abbrev main_v224 : Ref sig .tc := ⟨.hbm, 418, rfl⟩
abbrev main_v225 : Ref sig .tc := ⟨.hbm, 419, rfl⟩
abbrev main_v226 : Ref sig .tc := ⟨.hbm, 420, rfl⟩
abbrev main_v227 : Ref sig .tc := ⟨.hbm, 421, rfl⟩
abbrev main_v228 : Ref sig .tc := ⟨.hbm, 422, rfl⟩
abbrev main_v229 : Ref sig .tc := ⟨.hbm, 423, rfl⟩
abbrev main_v230 : Ref sig .tc := ⟨.hbm, 424, rfl⟩
abbrev main_cst_55 : Ref sig .tc := ⟨.hbm, 425, rfl⟩
abbrev main_v231 : Ref sig .tc := ⟨.hbm, 426, rfl⟩
abbrev main_cst_56 : Ref sig .tc := ⟨.hbm, 427, rfl⟩
abbrev main_v232 : Ref sig .tc := ⟨.hbm, 428, rfl⟩
abbrev main_v233 : Ref sig .tc := ⟨.hbm, 429, rfl⟩
abbrev main_v234 : Ref sig .tc := ⟨.hbm, 430, rfl⟩
abbrev main_v235 : Ref sig .tc := ⟨.hbm, 431, rfl⟩
abbrev main_v236 : Ref sig .tc := ⟨.hbm, 432, rfl⟩
abbrev main_v237 : Ref sig .tc := ⟨.hbm, 433, rfl⟩
abbrev main_cst_57 : Ref sig .tc := ⟨.hbm, 434, rfl⟩
abbrev main_v238 : Ref sig .tc := ⟨.hbm, 435, rfl⟩
abbrev main_v239 : Ref sig .tc := ⟨.hbm, 436, rfl⟩
abbrev main_v240 : Ref sig .tc := ⟨.hbm, 437, rfl⟩
abbrev main_v241 : Ref sig .tc := ⟨.hbm, 438, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  reducesTo_S65536x128_S128_d0 : S65536x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S65536x1024_S1024_d0 : S65536x1024.ReducesTo [0] S1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  transposes_S65536x1024_S1024x65536_1_0 : S65536x1024.Transposes [1, 0] S1024x65536
  reducesTo_S1024x128_S1024_d1 : S1024x128.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  reducesTo_S1024x128_S128_d0 : S1024x128.ReducesTo [0] S128
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  reducesTo_S65536x128_S65536_d1 : S65536x128.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x128_0_1 : S65536x1.BroadcastsInDim S65536x128 (![0, 1] : Fin 2 → Fin S65536x128.rank)
  bcast_S_S65536 : S_.BroadcastsInDim S65536 (![] : Fin 0 → Fin S65536.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x128_0_1 : S524288x1.BroadcastsInDim S524288x128 (![0, 1] : Fin 2 → Fin S524288x128.rank)
  bcast_S_S65536x128 : S_.BroadcastsInDim S65536x128 (![] : Fin 0 → Fin S65536x128.rank)
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  reducesTo_S65536x16_S65536_d1 : S65536x16.ReducesTo [1] S65536
  bcast_S65536x1_S65536x16_0_1 : S65536x1.BroadcastsInDim S65536x16 (![0, 1] : Fin 2 → Fin S65536x16.rank)
  dot_S65536x200_S200x128_S65536x128_1_0_0_1_n_n_wf : DotDims.WF S65536x200 S200x128 S65536x128 [1] [0] [0] [1] [] []
  dot_S1024x65536_S65536x128_S1024x128_1_0_0_1_n_n_wf : DotDims.WF S1024x65536 S65536x128 S1024x128 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S65536x1024_S1024x128_S65536x128_1_0_0_1_n_n_wf : DotDims.WF S65536x1024 S1024x128 S65536x128 [1] [0] [0] [1] [] []
  dot_S65536x128_S128x128_S65536x128_1_0_0_1_n_n_wf : DotDims.WF S65536x128 S128x128 S65536x128 [1] [0] [0] [1] [] []
  scatter_S65536_S524288x1_S524288_n_0_0_1_wf : ScatterDims.WF S65536 S524288x1 S524288 [] [0] [0] 1
  gather_S65536_S524288x1_S524288_n_0_n_n_0_1_1_wf : GatherDims.WF S65536 S524288x1 S524288 [] [0] [] [0] [] 1 ![1]
  gather_S65536x128_S524288x1_S524288x128_1_0_n_n_0_1_1128_wf : GatherDims.WF S65536x128 S524288x1 S524288x128 [1] [0] [] [0] [] 1 ![1, 128]
  scatter_S65536x128_S524288x1_S524288x128_1_0_0_1_wf : ScatterDims.WF S65536x128 S524288x1 S524288x128 [1] [0] [0] 1
  dot_S65536x128_S128x16_S65536x16_1_0_0_1_n_n_wf : DotDims.WF S65536x128 S128x16 S65536x16 [1] [0] [0] [1] [] []

variable [Facts₀]

def dot_S65536x200_S200x128_S65536x128_1_0_0_1_n_n : DotDims S65536x200 S200x128 S65536x128 where
  lhsContracting := [1]
  rhsContracting := [0]
  lhsNonContracting := [0]
  rhsNonContracting := [1]
  lhsBatch := []
  rhsBatch := []
  wf := dot_S65536x200_S200x128_S65536x128_1_0_0_1_n_n_wf
def dot_S1024x65536_S65536x128_S1024x128_1_0_0_1_n_n : DotDims S1024x65536 S65536x128 S1024x128 where
  lhsContracting := [1]
  rhsContracting := [0]
  lhsNonContracting := [0]
  rhsNonContracting := [1]
  lhsBatch := []
  rhsBatch := []
  wf := dot_S1024x65536_S65536x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def gather_S65536_S524288x1_S524288_n_0_n_n_0_1_1 : GatherDims S65536 S524288x1 S524288 where
  offsetDims := []
  collapsedSliceDims := [0]
  operandBatchingDims := []
  startIndicesBatchingDims := []
  startIndexMap := [0]
  indexVectorDim := 1
  sliceSizes := ![1]
  wf := gather_S65536_S524288x1_S524288_n_0_n_n_0_1_1_wf
def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S65536x128_S128x16_S65536x16_1_0_0_1_n_n : DotDims S65536x128 S128x16 S65536x16 where
  lhsContracting := [1]
  rhsContracting := [0]
  lhsNonContracting := [0]
  rhsNonContracting := [1]
  lhsBatch := []
  rhsBatch := []
  wf := dot_S65536x128_S128x16_S65536x16_1_0_0_1_n_n_wf

class Facts : Prop extends Facts₀ where

variable [Facts]
-- ==== Proof.ROps.lean ====
import proofs.«179512_j35983236006070_1_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem

variable {F : FTy → Type} [FloatOps F]

abbrev ops0 : List (HloOp τ sig (Elt F)) :=
  [ StableHlo.binary main_arg0 main_arg4 main_v0 (fun l r => Host.dotGeneral dot_S65536x200_S200x128_S65536x128_1_0_0_1_n_n none l r),
    StableHlo.unary main_arg5 main_v1 (broadcastInDim S1x128 ![1] bcast_S128_S1x128_1),
    StableHlo.unary main_v1 main_v2 (broadcastInDim S65536x128 ![0, 1] bcast_S1x128_S65536x128_0_1),
    StableHlo.binary main_v0 main_v2 main_v3 addf,
    StableHlo.nullary main_cst (constant S_ .f32 0x00000000#32),
    StableHlo.binary main_v3 main_cst main_v4 (fun x v => Host.reduceAdd x v reducesTo_S65536x128_S128_d0 h_S_),
    StableHlo.nullary main_cst_0 (constant S_ .f32 0x47800000#32),
    StableHlo.unary main_cst_0 main_v5 (broadcastInDim S128 ![] bcast_S_S128),
    StableHlo.binary main_v4 main_v5 main_v6 Host.divf,
    StableHlo.nullary main_c (constantI S_ 32 0#32),
    StableHlo.TRef.nullary (.of main_call0_cst : StableHlo.TRef sig ⟨S_, .f32⟩) (constant S_ .f32 0x00000000#32),
    StableHlo.TRef.binary (.of main_v3 : StableHlo.TRef sig ⟨S65536x128, .f32⟩) (.of main_call0_cst : StableHlo.TRef sig ⟨S_, .f32⟩) (.of main_call0_v0 : StableHlo.TRef sig ⟨S128, .f32⟩) (fun x v => Host.reduceAdd x v reducesTo_S65536x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47800000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S65536x128, .f32⟩) (broadcastInDim S65536x128 ![0, 1] bcast_S1x128_S65536x128_0_1),
    StableHlo.TRef.binary (.of main_v3 : StableHlo.TRef sig ⟨S65536x128, .f32⟩) (.of main_call0_v4 : StableHlo.TRef sig ⟨S65536x128, .f32⟩) (.of main_call0_v5 : StableHlo.TRef sig ⟨S65536x128, .f32⟩) subf,
    StableHlo.TRef.binary (.of main_call0_v5 : StableHlo.TRef sig ⟨S65536x128, .f32⟩) (.of main_call0_v5 : StableHlo.TRef sig ⟨S65536x128, .f32⟩) (.of main_call0_v6 : StableHlo.TRef sig ⟨S65536x128, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S65536x128, .f32⟩) (.of main_call0_cst_2 : StableHlo.TRef sig ⟨S_, .f32⟩) (.of main_call0_v9 : StableHlo.TRef sig ⟨S128, .f32⟩) (fun x v => Host.reduceAdd x v reducesTo_S65536x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v7 : StableHlo.TRef sig ⟨S128, .f32⟩) (fun p a b => select (broadcastInDim S128 ![] bcast_S_S128 p) a b),
    StableHlo.unary main_v6 main_v8 (broadcastInDim S1x128 ![1] bcast_S128_S1x128_1),
    StableHlo.unary main_v8 main_v9 (broadcastInDim S65536x128 ![0, 1] bcast_S1x128_S65536x128_0_1),
    StableHlo.binary main_v3 main_v9 main_v10 subf,
    StableHlo.nullary main_cst_1 (constant S_ .f32 0x3727C5AC#32),
    StableHlo.unary main_cst_1 main_v11 (broadcastInDim S128 ![] bcast_S_S128),
    StableHlo.binary main_v7 main_v11 main_v12 addf,
    StableHlo.unary main_v12 main_v13 Host.rsqrt,
    StableHlo.unary main_v13 main_v14 (broadcastInDim S1x128 ![1] bcast_S128_S1x128_1),
    StableHlo.unary main_v14 main_v15 (broadcastInDim S65536x128 ![0, 1] bcast_S1x128_S65536x128_0_1),
    StableHlo.binary main_v10 main_v15 main_v16 mulf,
    StableHlo.nullary main_cst_2 (constant S_ .f32 0x00000000#32),
    StableHlo.binary main_arg1 main_cst_2 main_v17 (fun x v => Host.reduceAdd x v reducesTo_S65536x1024_S1024_d0 h_S_),
    StableHlo.unary main_v17 main_v18 (broadcastInDim S1x1024 ![1] bcast_S1024_S1x1024_1),
    StableHlo.unary main_v18 main_v19 (broadcastInDim S65536x1024 ![0, 1] bcast_S1x1024_S65536x1024_0_1),
    StableHlo.binary main_arg1 main_v19 main_v20 Host.divf,
    StableHlo.unary main_v20 main_v21 (transpose S1024x65536 [1, 0] · transposes_S65536x1024_S1024x65536_1_0),
    StableHlo.binary main_v21 main_v16 main_v22 (fun l r => Host.dotGeneral dot_S1024x65536_S65536x128_S1024x128_1_0_0_1_n_n none l r),
    StableHlo.TRef.binary (.of main_v22 : StableHlo.TRef sig ⟨S1024x128, .f32⟩) (.of main_v22 : StableHlo.TRef sig ⟨S1024x128, .f32⟩) (.of main_call1_v0 : StableHlo.TRef sig ⟨S1024x128, .f32⟩) mulf,
    StableHlo.TRef.nullary (.of main_call1_cst : StableHlo.TRef sig ⟨S_, .f32⟩) (constant S_ .f32 0x00000000#32),
    StableHlo.TRef.binary (.of main_call1_v0 : StableHlo.TRef sig ⟨S1024x128, .f32⟩) (.of main_call1_cst : StableHlo.TRef sig ⟨S_, .f32⟩) (.of main_call1_v1 : StableHlo.TRef sig ⟨S1024, .f32⟩) (fun x v => Host.reduceAdd x v reducesTo_S1024x128_S1024_d1 h_S_),
    StableHlo.TRef.unary (.of main_call1_v1 : StableHlo.TRef sig ⟨S1024, .f32⟩) (.of main_call1_v2 : StableHlo.TRef sig ⟨S1024x1, .f32⟩) (broadcastInDim S1024x1 ![0] bcast_S1024_S1024x1_0),
    StableHlo.TRef.unary (.of main_call1_v2 : StableHlo.TRef sig ⟨S1024x1, .f32⟩) (.of main_v23 : StableHlo.TRef sig ⟨S1024x1, .f32⟩) Host.sqrt,
    StableHlo.nullary main_cst_3 (constant S_ .f32 0x2B8CBCCC#32),
    StableHlo.unary main_cst_3 main_v24 (broadcastInDim S1024x1 ![] bcast_S_S1024x1),
    StableHlo.binary main_v23 main_v24 main_v25 maximumf,
    StableHlo.unary main_v25 main_v26 (broadcastInDim S1024x128 ![0, 1] bcast_S1024x1_S1024x128_0_1),
    StableHlo.binary main_v22 main_v26 main_v27 Host.divf,
    StableHlo.nullary main_cst_4 (constant S_ .f32 0x00000000#32),
    StableHlo.binary main_v27 main_cst_4 main_v28 (fun x v => Host.reduceAdd x v reducesTo_S1024x128_S128_d0 h_S_),
    StableHlo.nullary main_cst_5 (constant S_ .f32 0x44800000#32),
    StableHlo.unary main_cst_5 main_v29 (broadcastInDim S128 ![] bcast_S_S128),
    StableHlo.binary main_v28 main_v29 main_v30 Host.divf,
    StableHlo.nullary main_c_6 (constantI S_ 32 0#32),
    StableHlo.TRef.nullary (.of main_call2_cst : StableHlo.TRef sig ⟨S_, .f32⟩) (constant S_ .f32 0x00000000#32),
    StableHlo.TRef.binary (.of main_v27 : StableHlo.TRef sig ⟨S1024x128, .f32⟩) (.of main_call2_cst : StableHlo.TRef sig ⟨S_, .f32⟩) (.of main_call2_v0 : StableHlo.TRef sig ⟨S128, .f32⟩) (fun x v => Host.reduceAdd x v reducesTo_S1024x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x44800000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S1024x128, .f32⟩) (broadcastInDim S1024x128 ![0, 1] bcast_S1x128_S1024x128_0_1),
    StableHlo.TRef.binary (.of main_v27 : StableHlo.TRef sig ⟨S1024x128, .f32⟩) (.of main_call2_v4 : StableHlo.TRef sig ⟨S1024x128, .f32⟩) (.of main_call2_v5 : StableHlo.TRef sig ⟨S1024x128, .f32⟩) subf,
    StableHlo.TRef.binary (.of main_call2_v5 : StableHlo.TRef sig ⟨S1024x128, .f32⟩) (.of main_call2_v5 : StableHlo.TRef sig ⟨S1024x128, .f32⟩) (.of main_call2_v6 : StableHlo.TRef sig ⟨S1024x128, .f32⟩) mulf,
    StableHlo.TRef.unary (.of main_c_6 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x44800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S1024x128, .f32⟩) (.of main_call2_cst_2 : StableHlo.TRef sig ⟨S_, .f32⟩) (.of main_call2_v9 : StableHlo.TRef sig ⟨S128, .f32⟩) (fun x v => Host.reduceAdd x v reducesTo_S1024x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v31 : StableHlo.TRef sig ⟨S128, .f32⟩) (fun p a b => select (broadcastInDim S128 ![] bcast_S_S128 p) a b),
    StableHlo.unary main_v30 main_v32 (broadcastInDim S1x128 ![1] bcast_S128_S1x128_1),
    StableHlo.unary main_v32 main_v33 (broadcastInDim S1024x128 ![0, 1] bcast_S1x128_S1024x128_0_1),
    StableHlo.binary main_v27 main_v33 main_v34 subf,
    StableHlo.nullary main_cst_7 (constant S_ .f32 0x3727C5AC#32),
    StableHlo.unary main_cst_7 main_v35 (broadcastInDim S128 ![] bcast_S_S128),
    StableHlo.binary main_v31 main_v35 main_v36 addf,
    StableHlo.unary main_v36 main_v37 Host.rsqrt,
    StableHlo.unary main_v37 main_v38 (broadcastInDim S1x128 ![1] bcast_S128_S1x128_1),
    StableHlo.unary main_v38 main_v39 (broadcastInDim S1024x128 ![0, 1] bcast_S1x128_S1024x128_0_1),
    StableHlo.binary main_v34 main_v39 main_v40 mulf,
    StableHlo.binary main_v40 main_arg6 main_v41 (fun l r => Host.dotGeneral dot_S1024x128_S128x128_S1024x128_1_0_0_1_n_n none l r),
    StableHlo.unary main_arg7 main_v42 (broadcastInDim S1x128 ![1] bcast_S128_S1x128_1),
    StableHlo.unary main_v42 main_v43 (broadcastInDim S1024x128 ![0, 1] bcast_S1x128_S1024x128_0_1),
    StableHlo.binary main_v41 main_v43 main_v44 addf,
    StableHlo.binary main_arg2 main_v44 main_v45 (fun l r => Host.dotGeneral dot_S1024x1024_S1024x128_S1024x128_1_0_0_1_n_n none l r),
    StableHlo.nullary main_cst_8 (constant S_ .f32 0x00000000#32),
    StableHlo.unary main_cst_8 main_v46 (broadcastInDim S1024x128 ![] bcast_S_S1024x128),
    StableHlo.binary main_v45 main_v46 main_v47 (cmpf .oge),
    StableHlo.nullary main_cst_9 (constant S_ .f32 0x3C23D70A#32) ]

abbrev ops1 : List (HloOp τ sig (Elt F)) :=
  [ StableHlo.unary main_cst_9 main_v48 (broadcastInDim S1024x128 ![] bcast_S_S1024x128),
    StableHlo.binary main_v48 main_v45 main_v49 mulf,
    StableHlo.TRef.ternary (.of main_v47 : StableHlo.TRef sig ⟨S1024x128, .i1⟩) (.of main_v45 : StableHlo.TRef sig ⟨S1024x128, .f32⟩) (.of main_v49 : StableHlo.TRef sig ⟨S1024x128, .f32⟩) (.of main_v50 : StableHlo.TRef sig ⟨S1024x128, .f32⟩) select,
    StableHlo.TRef.binary (.of main_v50 : StableHlo.TRef sig ⟨S1024x128, .f32⟩) (.of main_v50 : StableHlo.TRef sig ⟨S1024x128, .f32⟩) (.of main_call4_v0 : StableHlo.TRef sig ⟨S1024x128, .f32⟩) mulf,
    StableHlo.TRef.nullary (.of main_call4_cst : StableHlo.TRef sig ⟨S_, .f32⟩) (constant S_ .f32 0x00000000#32),
    StableHlo.TRef.binary (.of main_call4_v0 : StableHlo.TRef sig ⟨S1024x128, .f32⟩) (.of main_call4_cst : StableHlo.TRef sig ⟨S_, .f32⟩) (.of main_call4_v1 : StableHlo.TRef sig ⟨S1024, .f32⟩) (fun x v => Host.reduceAdd x v reducesTo_S1024x128_S1024_d1 h_S_),
    StableHlo.TRef.unary (.of main_call4_v1 : StableHlo.TRef sig ⟨S1024, .f32⟩) (.of main_call4_v2 : StableHlo.TRef sig ⟨S1024x1, .f32⟩) (broadcastInDim S1024x1 ![0] bcast_S1024_S1024x1_0),
    StableHlo.TRef.unary (.of main_call4_v2 : StableHlo.TRef sig ⟨S1024x1, .f32⟩) (.of main_v51 : StableHlo.TRef sig ⟨S1024x1, .f32⟩) Host.sqrt,
    StableHlo.nullary main_cst_10 (constant S_ .f32 0x2B8CBCCC#32),
    StableHlo.unary main_cst_10 main_v52 (broadcastInDim S1024x1 ![] bcast_S_S1024x1),
    StableHlo.binary main_v51 main_v52 main_v53 maximumf,
    StableHlo.unary main_v53 main_v54 (broadcastInDim S1024x128 ![0, 1] bcast_S1024x1_S1024x128_0_1),
    StableHlo.binary main_v50 main_v54 main_v55 Host.divf,
    StableHlo.nullary main_cst_11 (constant S_ .f32 0x00000000#32),
    StableHlo.binary main_v55 main_cst_11 main_v56 (fun x v => Host.reduceAdd x v reducesTo_S1024x128_S128_d0 h_S_),
    StableHlo.nullary main_cst_12 (constant S_ .f32 0x44800000#32),
    StableHlo.unary main_cst_12 main_v57 (broadcastInDim S128 ![] bcast_S_S128),
    StableHlo.binary main_v56 main_v57 main_v58 Host.divf,
    StableHlo.nullary main_c_13 (constantI S_ 32 0#32),
    StableHlo.TRef.nullary (.of main_call5_cst : StableHlo.TRef sig ⟨S_, .f32⟩) (constant S_ .f32 0x00000000#32),
    StableHlo.TRef.binary (.of main_v55 : StableHlo.TRef sig ⟨S1024x128, .f32⟩) (.of main_call5_cst : StableHlo.TRef sig ⟨S_, .f32⟩) (.of main_call5_v0 : StableHlo.TRef sig ⟨S128, .f32⟩) (fun x v => Host.reduceAdd x v reducesTo_S1024x128_S128_d0 h_S_),
    StableHlo.TRef.unary (.of main_call5_v0 : StableHlo.TRef sig ⟨S128, .f32⟩) (.of main_call5_v1 : StableHlo.TRef sig ⟨S1x128, .f32⟩) (broadcastInDim S1x128 ![1] bcast_S128_S1x128_1),
    StableHlo.TRef.nullary (.of main_call5_cst_0 : StableHlo.TRef sig ⟨S_, .f32⟩) (constant S_ .f32 0x44800000#32),
    StableHlo.TRef.unary (.of main_call5_cst_0 : StableHlo.TRef sig ⟨S_, .f32⟩) (.of main_call5_v2 : StableHlo.TRef sig ⟨S1x128, .f32⟩) (broadcastInDim S1x128 ![] bcast_S_S1x128),
    StableHlo.TRef.binary (.of main_call5_v1 : StableHlo.TRef sig ⟨S1x128, .f32⟩) (.of main_call5_v2 : StableHlo.TRef sig ⟨S1x128, .f32⟩) (.of main_call5_v3 : StableHlo.TRef sig ⟨S1x128, .f32⟩) Host.divf,
    StableHlo.TRef.unary (.of main_call5_v3 : StableHlo.TRef sig ⟨S1x128, .f32⟩) (.of main_call5_v4 : StableHlo.TRef sig ⟨S1024x128, .f32⟩) (broadcastInDim S1024x128 ![0, 1] bcast_S1x128_S1024x128_0_1),
    StableHlo.TRef.binary (.of main_v55 : StableHlo.TRef sig ⟨S1024x128, .f32⟩) (.of main_call5_v4 : StableHlo.TRef sig ⟨S1024x128, .f32⟩) (.of main_call5_v5 : StableHlo.TRef sig ⟨S1024x128, .f32⟩) subf,
    StableHlo.TRef.binary (.of main_call5_v5 : StableHlo.TRef sig ⟨S1024x128, .f32⟩) (.of main_call5_v5 : StableHlo.TRef sig ⟨S1024x128, .f32⟩) (.of main_call5_v6 : StableHlo.TRef sig ⟨S1024x128, .f32⟩) mulf,
    StableHlo.TRef.unary (.of main_c_13 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x44800000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S1024x128, .f32⟩) (.of main_call5_cst_2 : StableHlo.TRef sig ⟨S_, .f32⟩) (.of main_call5_v9 : StableHlo.TRef sig ⟨S128, .f32⟩) (fun x v => Host.reduceAdd x v reducesTo_S1024x128_S128_d0 h_S_),
    StableHlo.TRef.unary (.of main_call5_v8 : StableHlo.TRef sig ⟨S_, .f32⟩) (.of main_call5_v10 : StableHlo.TRef sig ⟨S128, .f32⟩) (broadcastInDim S128 ![] bcast_S_S128),
    StableHlo.TRef.binary (.of main_call5_v9 : StableHlo.TRef sig ⟨S128, .f32⟩) (.of main_call5_v10 : StableHlo.TRef sig ⟨S128, .f32⟩) (.of main_call5_v11 : StableHlo.TRef sig ⟨S128, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S128, .f32⟩) (broadcastInDim S128 ![] bcast_S_S128),
    StableHlo.TRef.ternary (.of main_call5_v12 : StableHlo.TRef sig ⟨S_, .i1⟩) (.of main_call5_v11 : StableHlo.TRef sig ⟨S128, .f32⟩) (.of main_call5_call0_v1 : StableHlo.TRef sig ⟨S128, .f32⟩) (.of main_v59 : StableHlo.TRef sig ⟨S128, .f32⟩) (fun p a b => select (broadcastInDim S128 ![] bcast_S_S128 p) a b),
    StableHlo.unary main_v58 main_v60 (broadcastInDim S1x128 ![1] bcast_S128_S1x128_1),
    StableHlo.unary main_v60 main_v61 (broadcastInDim S1024x128 ![0, 1] bcast_S1x128_S1024x128_0_1),
    StableHlo.binary main_v55 main_v61 main_v62 subf,
    StableHlo.nullary main_cst_14 (constant S_ .f32 0x3727C5AC#32),
    StableHlo.unary main_cst_14 main_v63 (broadcastInDim S128 ![] bcast_S_S128),
    StableHlo.binary main_v59 main_v63 main_v64 addf,
    StableHlo.unary main_v64 main_v65 Host.rsqrt,
    StableHlo.unary main_v65 main_v66 (broadcastInDim S1x128 ![1] bcast_S128_S1x128_1),
    StableHlo.unary main_v66 main_v67 (broadcastInDim S1024x128 ![0, 1] bcast_S1x128_S1024x128_0_1),
    StableHlo.binary main_v62 main_v67 main_v68 mulf,
    StableHlo.binary main_v68 main_arg8 main_v69 (fun l r => Host.dotGeneral dot_S1024x128_S128x128_S1024x128_1_0_0_1_n_n none l r),
    StableHlo.unary main_arg9 main_v70 (broadcastInDim S1x128 ![1] bcast_S128_S1x128_1),
    StableHlo.unary main_v70 main_v71 (broadcastInDim S1024x128 ![0, 1] bcast_S1x128_S1024x128_0_1),
    StableHlo.binary main_v69 main_v71 main_v72 addf,
    StableHlo.binary main_arg2 main_v72 main_v73 (fun l r => Host.dotGeneral dot_S1024x1024_S1024x128_S1024x128_1_0_0_1_n_n none l r),
    StableHlo.nullary main_cst_15 (constant S_ .f32 0x00000000#32),
    StableHlo.unary main_cst_15 main_v74 (broadcastInDim S1024x128 ![] bcast_S_S1024x128),
    StableHlo.binary main_v73 main_v74 main_v75 (cmpf .oge),
    StableHlo.nullary main_cst_16 (constant S_ .f32 0x3C23D70A#32),
    StableHlo.unary main_cst_16 main_v76 (broadcastInDim S1024x128 ![] bcast_S_S1024x128),
    StableHlo.binary main_v76 main_v73 main_v77 mulf,
    StableHlo.TRef.ternary (.of main_v75 : StableHlo.TRef sig ⟨S1024x128, .i1⟩) (.of main_v73 : StableHlo.TRef sig ⟨S1024x128, .f32⟩) (.of main_v77 : StableHlo.TRef sig ⟨S1024x128, .f32⟩) (.of main_v78 : StableHlo.TRef sig ⟨S1024x128, .f32⟩) select,
    StableHlo.binary main_arg1 main_v78 main_v79 (fun l r => Host.dotGeneral dot_S65536x1024_S1024x128_S65536x128_1_0_0_1_n_n none l r),
    StableHlo.unary main_arg3 main_v80 (extractStridedSlice S1x524288 ![0, 0] · slices_S2x524288_S1x524288_0_0),
    StableHlo.reshape main_v80 main_v81 rfl shapeCasts_S1x524288_S524288,
    StableHlo.unary main_arg3 main_v82 (extractStridedSlice S1x524288 ![1, 0] · slices_S2x524288_S1x524288_1_0),
    StableHlo.reshape main_v82 main_v83 rfl shapeCasts_S1x524288_S524288,
    StableHlo.TRef.binary (.of main_v16 : StableHlo.TRef sig ⟨S65536x128, .f32⟩) (.of main_v16 : StableHlo.TRef sig ⟨S65536x128, .f32⟩) (.of main_call7_v0 : StableHlo.TRef sig ⟨S65536x128, .f32⟩) mulf,
    StableHlo.TRef.nullary (.of main_call7_cst : StableHlo.TRef sig ⟨S_, .f32⟩) (constant S_ .f32 0x00000000#32),
    StableHlo.TRef.binary (.of main_call7_v0 : StableHlo.TRef sig ⟨S65536x128, .f32⟩) (.of main_call7_cst : StableHlo.TRef sig ⟨S_, .f32⟩) (.of main_call7_v1 : StableHlo.TRef sig ⟨S65536, .f32⟩) (fun x v => Host.reduceAdd x v reducesTo_S65536x128_S65536_d1 h_S_),
    StableHlo.TRef.unary (.of main_call7_v1 : StableHlo.TRef sig ⟨S65536, .f32⟩) (.of main_call7_v2 : StableHlo.TRef sig ⟨S65536x1, .f32⟩) (broadcastInDim S65536x1 ![0] bcast_S65536_S65536x1_0),
    StableHlo.TRef.unary (.of main_call7_v2 : StableHlo.TRef sig ⟨S65536x1, .f32⟩) (.of main_v84 : StableHlo.TRef sig ⟨S65536x1, .f32⟩) Host.sqrt,
    StableHlo.nullary main_cst_17 (constant S_ .f32 0x2B8CBCCC#32),
    StableHlo.unary main_cst_17 main_v85 (broadcastInDim S65536x1 ![] bcast_S_S65536x1),
    StableHlo.binary main_v84 main_v85 main_v86 maximumf,
    StableHlo.unary main_v86 main_v87 (broadcastInDim S65536x128 ![0, 1] bcast_S65536x1_S65536x128_0_1),
    StableHlo.binary main_v16 main_v87 main_v88 Host.divf,
    StableHlo.nullary main_cst_18 (constant S_ .f32 0x00000000#32),
    StableHlo.binary main_v88 main_cst_18 main_v89 (fun x v => Host.reduceAdd x v reducesTo_S65536x128_S128_d0 h_S_),
    StableHlo.nullary main_cst_19 (constant S_ .f32 0x47800000#32),
    StableHlo.unary main_cst_19 main_v90 (broadcastInDim S128 ![] bcast_S_S128),
    StableHlo.binary main_v89 main_v90 main_v91 Host.divf,
    StableHlo.nullary main_c_20 (constantI S_ 32 0#32),
    StableHlo.TRef.nullary (.of main_call8_cst : StableHlo.TRef sig ⟨S_, .f32⟩) (constant S_ .f32 0x00000000#32),
    StableHlo.TRef.binary (.of main_v88 : StableHlo.TRef sig ⟨S65536x128, .f32⟩) (.of main_call8_cst : StableHlo.TRef sig ⟨S_, .f32⟩) (.of main_call8_v0 : StableHlo.TRef sig ⟨S128, .f32⟩) (fun x v => Host.reduceAdd x v reducesTo_S65536x128_S128_d0 h_S_),
    StableHlo.TRef.unary (.of main_call8_v0 : StableHlo.TRef sig ⟨S128, .f32⟩) (.of main_call8_v1 : StableHlo.TRef sig ⟨S1x128, .f32⟩) (broadcastInDim S1x128 ![1] bcast_S128_S1x128_1),
    StableHlo.TRef.nullary (.of main_call8_cst_0 : StableHlo.TRef sig ⟨S_, .f32⟩) (constant S_ .f32 0x47800000#32),
    StableHlo.TRef.unary (.of main_call8_cst_0 : StableHlo.TRef sig ⟨S_, .f32⟩) (.of main_call8_v2 : StableHlo.TRef sig ⟨S1x128, .f32⟩) (broadcastInDim S1x128 ![] bcast_S_S1x128),
    StableHlo.TRef.binary (.of main_call8_v1 : StableHlo.TRef sig ⟨S1x128, .f32⟩) (.of main_call8_v2 : StableHlo.TRef sig ⟨S1x128, .f32⟩) (.of main_call8_v3 : StableHlo.TRef sig ⟨S1x128, .f32⟩) Host.divf,
    StableHlo.TRef.unary (.of main_call8_v3 : StableHlo.TRef sig ⟨S1x128, .f32⟩) (.of main_call8_v4 : StableHlo.TRef sig ⟨S65536x128, .f32⟩) (broadcastInDim S65536x128 ![0, 1] bcast_S1x128_S65536x128_0_1),
    StableHlo.TRef.binary (.of main_v88 : StableHlo.TRef sig ⟨S65536x128, .f32⟩) (.of main_call8_v4 : StableHlo.TRef sig ⟨S65536x128, .f32⟩) (.of main_call8_v5 : StableHlo.TRef sig ⟨S65536x128, .f32⟩) subf,
    StableHlo.TRef.binary (.of main_call8_v5 : StableHlo.TRef sig ⟨S65536x128, .f32⟩) (.of main_call8_v5 : StableHlo.TRef sig ⟨S65536x128, .f32⟩) (.of main_call8_v6 : StableHlo.TRef sig ⟨S65536x128, .f32⟩) mulf,
    StableHlo.TRef.unary (.of main_c_20 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47800000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S65536x128, .f32⟩) (.of main_call8_cst_2 : StableHlo.TRef sig ⟨S_, .f32⟩) (.of main_call8_v9 : StableHlo.TRef sig ⟨S128, .f32⟩) (fun x v => Host.reduceAdd x v reducesTo_S65536x128_S128_d0 h_S_),
    StableHlo.TRef.unary (.of main_call8_v8 : StableHlo.TRef sig ⟨S_, .f32⟩) (.of main_call8_v10 : StableHlo.TRef sig ⟨S128, .f32⟩) (broadcastInDim S128 ![] bcast_S_S128),
    StableHlo.TRef.binary (.of main_call8_v9 : StableHlo.TRef sig ⟨S128, .f32⟩) (.of main_call8_v10 : StableHlo.TRef sig ⟨S128, .f32⟩) (.of main_call8_v11 : StableHlo.TRef sig ⟨S128, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S128, .f32⟩) (broadcastInDim S128 ![] bcast_S_S128),
    StableHlo.TRef.ternary (.of main_call8_v12 : StableHlo.TRef sig ⟨S_, .i1⟩) (.of main_call8_v11 : StableHlo.TRef sig ⟨S128, .f32⟩) (.of main_call8_call0_v1 : StableHlo.TRef sig ⟨S128, .f32⟩) (.of main_v92 : StableHlo.TRef sig ⟨S128, .f32⟩) (fun p a b => select (broadcastInDim S128 ![] bcast_S_S128 p) a b),
    StableHlo.unary main_v91 main_v93 (broadcastInDim S1x128 ![1] bcast_S128_S1x128_1),
    StableHlo.unary main_v93 main_v94 (broadcastInDim S65536x128 ![0, 1] bcast_S1x128_S65536x128_0_1),
    StableHlo.binary main_v88 main_v94 main_v95 subf,
    StableHlo.nullary main_cst_21 (constant S_ .f32 0x3727C5AC#32) ]

abbrev ops2 : List (HloOp τ sig (Elt F)) :=
  [ StableHlo.unary main_cst_21 main_v96 (broadcastInDim S128 ![] bcast_S_S128),
    StableHlo.binary main_v92 main_v96 main_v97 addf,
    StableHlo.unary main_v97 main_v98 Host.rsqrt,
    StableHlo.unary main_v98 main_v99 (broadcastInDim S1x128 ![1] bcast_S128_S1x128_1),
    StableHlo.unary main_v99 main_v100 (broadcastInDim S65536x128 ![0, 1] bcast_S1x128_S65536x128_0_1),
    StableHlo.binary main_v95 main_v100 main_v101 mulf,
    StableHlo.binary main_v101 main_arg10 main_v102 (fun l r => Host.dotGeneral dot_S65536x128_S128x128_S65536x128_1_0_0_1_n_n none l r),
    StableHlo.nullary main_cst_22 (constant S_ .f32 0x00000000#32),
    StableHlo.unary main_cst_22 main_v103 (broadcastInDim S65536 ![] bcast_S_S65536),
    StableHlo.nullary main_c_23 (constantI S_ 32 0#32),
    StableHlo.unary main_c_23 main_v104 (broadcastInDim S524288 ![] bcast_S_S524288),
    StableHlo.binary main_v83 main_v104 main_v105 (cmpi .slt),
    StableHlo.nullary main_c_24 (constantI S_ 32 65536#32),
    StableHlo.unary main_c_24 main_v106 (broadcastInDim S524288 ![] bcast_S_S524288),
    StableHlo.binary main_v83 main_v106 main_v107 addi,
    StableHlo.ternary main_v105 main_v107 main_v83 main_v108 select,
    StableHlo.unary main_v108 main_v109 (broadcastInDim S524288x1 ![0] bcast_S524288_S524288x1_0),
    StableHlo.nullary main_cst_25 (constant S_ .f32 0x3F800000#32),
    StableHlo.unary main_cst_25 main_v110 (broadcastInDim S524288 ![] bcast_S_S524288),
    StableHlo.ternary main_v103 main_v109 main_v110 main_v111 (fun x i u => Host.scatterAdd scatter_S65536_S524288x1_S524288_n_0_0_1 x i u),
    StableHlo.nullary main_cst_26 (constant S_ .f32 0x3F800000#32),
    StableHlo.unary main_cst_26 main_v112 (broadcastInDim S65536 ![] bcast_S_S65536),
    StableHlo.binary main_v111 main_v112 main_v113 addf,
    StableHlo.unary main_v113 main_v114 Host.rsqrt,
    StableHlo.nullary main_c_27 (constantI S_ 32 0#32),
    StableHlo.unary main_c_27 main_v115 (broadcastInDim S524288 ![] bcast_S_S524288),
    StableHlo.binary main_v81 main_v115 main_v116 (cmpi .slt),
    StableHlo.nullary main_c_28 (constantI S_ 32 65536#32),
    StableHlo.unary main_c_28 main_v117 (broadcastInDim S524288 ![] bcast_S_S524288),
    StableHlo.binary main_v81 main_v117 main_v118 addi,
    StableHlo.ternary main_v116 main_v118 main_v81 main_v119 select,
    StableHlo.unary main_v119 main_v120 (broadcastInDim S524288x1 ![0] bcast_S524288_S524288x1_0),
    StableHlo.binary main_v114 main_v120 main_v121 (fun x i => Host.gather gather_S65536_S524288x1_S524288_n_0_n_n_0_1_1 x i),
    StableHlo.nullary main_c_29 (constantI S_ 32 0#32),
    StableHlo.unary main_c_29 main_v122 (broadcastInDim S524288 ![] bcast_S_S524288),
    StableHlo.binary main_v83 main_v122 main_v123 (cmpi .slt),
    StableHlo.nullary main_c_30 (constantI S_ 32 65536#32),
    StableHlo.unary main_c_30 main_v124 (broadcastInDim S524288 ![] bcast_S_S524288),
    StableHlo.binary main_v83 main_v124 main_v125 addi,
    StableHlo.ternary main_v123 main_v125 main_v83 main_v126 select,
    StableHlo.unary main_v126 main_v127 (broadcastInDim S524288x1 ![0] bcast_S524288_S524288x1_0),
    StableHlo.binary main_v114 main_v127 main_v128 (fun x i => Host.gather gather_S65536_S524288x1_S524288_n_0_n_n_0_1_1 x i),
    StableHlo.binary main_v121 main_v128 main_v129 mulf,
    StableHlo.nullary main_c_31 (constantI S_ 32 0#32),
    StableHlo.unary main_c_31 main_v130 (broadcastInDim S524288 ![] bcast_S_S524288),
    StableHlo.binary main_v81 main_v130 main_v131 (cmpi .slt),
    StableHlo.nullary main_c_32 (constantI S_ 32 65536#32),
    StableHlo.unary main_c_32 main_v132 (broadcastInDim S524288 ![] bcast_S_S524288),
    StableHlo.binary main_v81 main_v132 main_v133 addi,
    StableHlo.ternary main_v131 main_v133 main_v81 main_v134 select,
    StableHlo.unary main_v134 main_v135 (broadcastInDim S524288x1 ![0] bcast_S524288_S524288x1_0),
    StableHlo.binary main_v102 main_v135 main_v136 (fun x i => Host.gather gather_S65536x128_S524288x1_S524288x128_1_0_n_n_0_1_1128 x i),
    StableHlo.unary main_v129 main_v137 (broadcastInDim S524288x1 ![0] bcast_S524288_S524288x1_0),
    StableHlo.unary main_v137 main_v138 (broadcastInDim S524288x128 ![0, 1] bcast_S524288x1_S524288x128_0_1),
    StableHlo.binary main_v136 main_v138 main_v139 mulf,
    StableHlo.nullary main_cst_33 (constant S_ .f32 0x00000000#32),
    StableHlo.unary main_cst_33 main_v140 (broadcastInDim S65536x128 ![] bcast_S_S65536x128),
    StableHlo.unary main_v83 main_v141 (broadcastInDim S524288x1 ![0] bcast_S524288_S524288x1_0),
    StableHlo.ternary main_v140 main_v141 main_v139 main_v142 (fun x i u => Host.scatterAdd scatter_S65536x128_S524288x1_S524288x128_1_0_0_1 x i u),
    StableHlo.unary main_v113 main_v143 (broadcastInDim S65536x1 ![0] bcast_S65536_S65536x1_0) ]

abbrev ops3 : List (HloOp τ sig (Elt F)) :=
  [ StableHlo.unary main_v143 main_v144 (broadcastInDim S65536x128 ![0, 1] bcast_S65536x1_S65536x128_0_1),
    StableHlo.binary main_v102 main_v144 main_v145 Host.divf,
    StableHlo.binary main_v142 main_v145 main_v146 addf,
    StableHlo.unary main_arg11 main_v147 (broadcastInDim S1x128 ![1] bcast_S128_S1x128_1),
    StableHlo.unary main_v147 main_v148 (broadcastInDim S65536x128 ![0, 1] bcast_S1x128_S65536x128_0_1),
    StableHlo.binary main_v146 main_v148 main_v149 addf,
    StableHlo.nullary main_cst_34 (constant S_ .f32 0x00000000#32),
    StableHlo.unary main_cst_34 main_v150 (broadcastInDim S65536x128 ![] bcast_S_S65536x128),
    StableHlo.binary main_v149 main_v150 main_v151 (cmpf .oge),
    StableHlo.nullary main_cst_35 (constant S_ .f32 0x3C23D70A#32),
    StableHlo.unary main_cst_35 main_v152 (broadcastInDim S65536x128 ![] bcast_S_S65536x128),
    StableHlo.binary main_v152 main_v149 main_v153 mulf,
    StableHlo.TRef.ternary (.of main_v151 : StableHlo.TRef sig ⟨S65536x128, .i1⟩) (.of main_v149 : StableHlo.TRef sig ⟨S65536x128, .f32⟩) (.of main_v153 : StableHlo.TRef sig ⟨S65536x128, .f32⟩) (.of main_v154 : StableHlo.TRef sig ⟨S65536x128, .f32⟩) select,
    StableHlo.TRef.binary (.of main_v154 : StableHlo.TRef sig ⟨S65536x128, .f32⟩) (.of main_v154 : StableHlo.TRef sig ⟨S65536x128, .f32⟩) (.of main_call10_v0 : StableHlo.TRef sig ⟨S65536x128, .f32⟩) mulf,
    StableHlo.TRef.nullary (.of main_call10_cst : StableHlo.TRef sig ⟨S_, .f32⟩) (constant S_ .f32 0x00000000#32),
    StableHlo.TRef.binary (.of main_call10_v0 : StableHlo.TRef sig ⟨S65536x128, .f32⟩) (.of main_call10_cst : StableHlo.TRef sig ⟨S_, .f32⟩) (.of main_call10_v1 : StableHlo.TRef sig ⟨S65536, .f32⟩) (fun x v => Host.reduceAdd x v reducesTo_S65536x128_S65536_d1 h_S_),
    StableHlo.TRef.unary (.of main_call10_v1 : StableHlo.TRef sig ⟨S65536, .f32⟩) (.of main_call10_v2 : StableHlo.TRef sig ⟨S65536x1, .f32⟩) (broadcastInDim S65536x1 ![0] bcast_S65536_S65536x1_0),
    StableHlo.TRef.unary (.of main_call10_v2 : StableHlo.TRef sig ⟨S65536x1, .f32⟩) (.of main_v155 : StableHlo.TRef sig ⟨S65536x1, .f32⟩) Host.sqrt,
    StableHlo.nullary main_cst_36 (constant S_ .f32 0x2B8CBCCC#32),
    StableHlo.unary main_cst_36 main_v156 (broadcastInDim S65536x1 ![] bcast_S_S65536x1),
    StableHlo.binary main_v155 main_v156 main_v157 maximumf,
    StableHlo.unary main_v157 main_v158 (broadcastInDim S65536x128 ![0, 1] bcast_S65536x1_S65536x128_0_1),
    StableHlo.binary main_v154 main_v158 main_v159 Host.divf,
    StableHlo.nullary main_cst_37 (constant S_ .f32 0x00000000#32),
    StableHlo.binary main_v159 main_cst_37 main_v160 (fun x v => Host.reduceAdd x v reducesTo_S65536x128_S128_d0 h_S_),
    StableHlo.nullary main_cst_38 (constant S_ .f32 0x47800000#32),
    StableHlo.unary main_cst_38 main_v161 (broadcastInDim S128 ![] bcast_S_S128),
    StableHlo.binary main_v160 main_v161 main_v162 Host.divf,
    StableHlo.nullary main_c_39 (constantI S_ 32 0#32),
    StableHlo.TRef.nullary (.of main_call11_cst : StableHlo.TRef sig ⟨S_, .f32⟩) (constant S_ .f32 0x00000000#32),
    StableHlo.TRef.binary (.of main_v159 : StableHlo.TRef sig ⟨S65536x128, .f32⟩) (.of main_call11_cst : StableHlo.TRef sig ⟨S_, .f32⟩) (.of main_call11_v0 : StableHlo.TRef sig ⟨S128, .f32⟩) (fun x v => Host.reduceAdd x v reducesTo_S65536x128_S128_d0 h_S_),
    StableHlo.TRef.unary (.of main_call11_v0 : StableHlo.TRef sig ⟨S128, .f32⟩) (.of main_call11_v1 : StableHlo.TRef sig ⟨S1x128, .f32⟩) (broadcastInDim S1x128 ![1] bcast_S128_S1x128_1),
    StableHlo.TRef.nullary (.of main_call11_cst_0 : StableHlo.TRef sig ⟨S_, .f32⟩) (constant S_ .f32 0x47800000#32),
    StableHlo.TRef.unary (.of main_call11_cst_0 : StableHlo.TRef sig ⟨S_, .f32⟩) (.of main_call11_v2 : StableHlo.TRef sig ⟨S1x128, .f32⟩) (broadcastInDim S1x128 ![] bcast_S_S1x128),
    StableHlo.TRef.binary (.of main_call11_v1 : StableHlo.TRef sig ⟨S1x128, .f32⟩) (.of main_call11_v2 : StableHlo.TRef sig ⟨S1x128, .f32⟩) (.of main_call11_v3 : StableHlo.TRef sig ⟨S1x128, .f32⟩) Host.divf,
    StableHlo.TRef.unary (.of main_call11_v3 : StableHlo.TRef sig ⟨S1x128, .f32⟩) (.of main_call11_v4 : StableHlo.TRef sig ⟨S65536x128, .f32⟩) (broadcastInDim S65536x128 ![0, 1] bcast_S1x128_S65536x128_0_1),
    StableHlo.TRef.binary (.of main_v159 : StableHlo.TRef sig ⟨S65536x128, .f32⟩) (.of main_call11_v4 : StableHlo.TRef sig ⟨S65536x128, .f32⟩) (.of main_call11_v5 : StableHlo.TRef sig ⟨S65536x128, .f32⟩) subf,
    StableHlo.TRef.binary (.of main_call11_v5 : StableHlo.TRef sig ⟨S65536x128, .f32⟩) (.of main_call11_v5 : StableHlo.TRef sig ⟨S65536x128, .f32⟩) (.of main_call11_v6 : StableHlo.TRef sig ⟨S65536x128, .f32⟩) mulf,
    StableHlo.TRef.unary (.of main_c_39 : StableHlo.TRef sig ⟨S_, .i32⟩) (.of main_call11_v7 : StableHlo.TRef sig ⟨S_, .f32⟩) (sitofp .f32),
    StableHlo.TRef.nullary (.of main_call11_cst_1 : StableHlo.TRef sig ⟨S_, .f32⟩) (constant S_ .f32 0x47800000#32),
    StableHlo.TRef.binary (.of main_call11_cst_1 : StableHlo.TRef sig ⟨S_, .f32⟩) (.of main_call11_v7 : StableHlo.TRef sig ⟨S_, .f32⟩) (.of main_call11_v8 : StableHlo.TRef sig ⟨S_, .f32⟩) subf,
    StableHlo.TRef.nullary (.of main_call11_cst_2 : StableHlo.TRef sig ⟨S_, .f32⟩) (constant S_ .f32 0x00000000#32),
    StableHlo.TRef.binary (.of main_call11_v6 : StableHlo.TRef sig ⟨S65536x128, .f32⟩) (.of main_call11_cst_2 : StableHlo.TRef sig ⟨S_, .f32⟩) (.of main_call11_v9 : StableHlo.TRef sig ⟨S128, .f32⟩) (fun x v => Host.reduceAdd x v reducesTo_S65536x128_S128_d0 h_S_),
    StableHlo.TRef.unary (.of main_call11_v8 : StableHlo.TRef sig ⟨S_, .f32⟩) (.of main_call11_v10 : StableHlo.TRef sig ⟨S128, .f32⟩) (broadcastInDim S128 ![] bcast_S_S128),
    StableHlo.TRef.binary (.of main_call11_v9 : StableHlo.TRef sig ⟨S128, .f32⟩) (.of main_call11_v10 : StableHlo.TRef sig ⟨S128, .f32⟩) (.of main_call11_v11 : StableHlo.TRef sig ⟨S128, .f32⟩) Host.divf,
    StableHlo.TRef.nullary (.of main_call11_cst_3 : StableHlo.TRef sig ⟨S_, .f32⟩) (constant S_ .f32 0x00000000#32),
    StableHlo.TRef.binary (.of main_call11_v8 : StableHlo.TRef sig ⟨S_, .f32⟩) (.of main_call11_cst_3 : StableHlo.TRef sig ⟨S_, .f32⟩) (.of main_call11_v12 : StableHlo.TRef sig ⟨S_, .i1⟩) (cmpf .ogt),
    StableHlo.TRef.nullary (.of main_call11_cst_4 : StableHlo.TRef sig ⟨S_, .f32⟩) (constant S_ .f32 0x7FC00000#32),
    StableHlo.TRef.unary (.of main_call11_cst_4 : StableHlo.TRef sig ⟨S_, .f32⟩) (.of main_call11_call0_v0 : StableHlo.TRef sig ⟨S_, .f32⟩) id,
    StableHlo.TRef.unary (.of main_call11_call0_v0 : StableHlo.TRef sig ⟨S_, .f32⟩) (.of main_call11_call0_v1 : StableHlo.TRef sig ⟨S128, .f32⟩) (broadcastInDim S128 ![] bcast_S_S128),
    StableHlo.TRef.ternary (.of main_call11_v12 : StableHlo.TRef sig ⟨S_, .i1⟩) (.of main_call11_v11 : StableHlo.TRef sig ⟨S128, .f32⟩) (.of main_call11_call0_v1 : StableHlo.TRef sig ⟨S128, .f32⟩) (.of main_v163 : StableHlo.TRef sig ⟨S128, .f32⟩) (fun p a b => select (broadcastInDim S128 ![] bcast_S_S128 p) a b),
    StableHlo.unary main_v162 main_v164 (broadcastInDim S1x128 ![1] bcast_S128_S1x128_1),
    StableHlo.unary main_v164 main_v165 (broadcastInDim S65536x128 ![0, 1] bcast_S1x128_S65536x128_0_1),
    StableHlo.binary main_v159 main_v165 main_v166 subf,
    StableHlo.nullary main_cst_40 (constant S_ .f32 0x3727C5AC#32),
    StableHlo.unary main_cst_40 main_v167 (broadcastInDim S128 ![] bcast_S_S128),
    StableHlo.binary main_v163 main_v167 main_v168 addf,
    StableHlo.unary main_v168 main_v169 Host.rsqrt,
    StableHlo.unary main_v169 main_v170 (broadcastInDim S1x128 ![1] bcast_S128_S1x128_1),
    StableHlo.unary main_v170 main_v171 (broadcastInDim S65536x128 ![0, 1] bcast_S1x128_S65536x128_0_1),
    StableHlo.binary main_v166 main_v171 main_v172 mulf,
    StableHlo.binary main_v172 main_arg12 main_v173 (fun l r => Host.dotGeneral dot_S65536x128_S128x128_S65536x128_1_0_0_1_n_n none l r),
    StableHlo.nullary main_cst_41 (constant S_ .f32 0x00000000#32),
    StableHlo.unary main_cst_41 main_v174 (broadcastInDim S65536 ![] bcast_S_S65536),
    StableHlo.nullary main_c_42 (constantI S_ 32 0#32),
    StableHlo.unary main_c_42 main_v175 (broadcastInDim S524288 ![] bcast_S_S524288),
    StableHlo.binary main_v83 main_v175 main_v176 (cmpi .slt),
    StableHlo.nullary main_c_43 (constantI S_ 32 65536#32),
    StableHlo.unary main_c_43 main_v177 (broadcastInDim S524288 ![] bcast_S_S524288),
    StableHlo.binary main_v83 main_v177 main_v178 addi,
    StableHlo.ternary main_v176 main_v178 main_v83 main_v179 select,
    StableHlo.unary main_v179 main_v180 (broadcastInDim S524288x1 ![0] bcast_S524288_S524288x1_0),
    StableHlo.nullary main_cst_44 (constant S_ .f32 0x3F800000#32),
    StableHlo.unary main_cst_44 main_v181 (broadcastInDim S524288 ![] bcast_S_S524288),
    StableHlo.ternary main_v174 main_v180 main_v181 main_v182 (fun x i u => Host.scatterAdd scatter_S65536_S524288x1_S524288_n_0_0_1 x i u),
    StableHlo.nullary main_cst_45 (constant S_ .f32 0x3F800000#32),
    StableHlo.unary main_cst_45 main_v183 (broadcastInDim S65536 ![] bcast_S_S65536),
    StableHlo.binary main_v182 main_v183 main_v184 addf,
    StableHlo.unary main_v184 main_v185 Host.rsqrt,
    StableHlo.nullary main_c_46 (constantI S_ 32 0#32),
    StableHlo.unary main_c_46 main_v186 (broadcastInDim S524288 ![] bcast_S_S524288),
    StableHlo.binary main_v81 main_v186 main_v187 (cmpi .slt),
    StableHlo.nullary main_c_47 (constantI S_ 32 65536#32),
    StableHlo.unary main_c_47 main_v188 (broadcastInDim S524288 ![] bcast_S_S524288),
    StableHlo.binary main_v81 main_v188 main_v189 addi ]

abbrev ops4 : List (HloOp τ sig (Elt F)) :=
  [ StableHlo.ternary main_v187 main_v189 main_v81 main_v190 select,
    StableHlo.unary main_v190 main_v191 (broadcastInDim S524288x1 ![0] bcast_S524288_S524288x1_0),
    StableHlo.binary main_v185 main_v191 main_v192 (fun x i => Host.gather gather_S65536_S524288x1_S524288_n_0_n_n_0_1_1 x i),
    StableHlo.nullary main_c_48 (constantI S_ 32 0#32),
    StableHlo.unary main_c_48 main_v193 (broadcastInDim S524288 ![] bcast_S_S524288),
    StableHlo.binary main_v83 main_v193 main_v194 (cmpi .slt),
    StableHlo.nullary main_c_49 (constantI S_ 32 65536#32),
    StableHlo.unary main_c_49 main_v195 (broadcastInDim S524288 ![] bcast_S_S524288),
    StableHlo.binary main_v83 main_v195 main_v196 addi,
    StableHlo.ternary main_v194 main_v196 main_v83 main_v197 select,
    StableHlo.unary main_v197 main_v198 (broadcastInDim S524288x1 ![0] bcast_S524288_S524288x1_0),
    StableHlo.binary main_v185 main_v198 main_v199 (fun x i => Host.gather gather_S65536_S524288x1_S524288_n_0_n_n_0_1_1 x i),
    StableHlo.binary main_v192 main_v199 main_v200 mulf,
    StableHlo.nullary main_c_50 (constantI S_ 32 0#32),
    StableHlo.unary main_c_50 main_v201 (broadcastInDim S524288 ![] bcast_S_S524288),
    StableHlo.binary main_v81 main_v201 main_v202 (cmpi .slt),
    StableHlo.nullary main_c_51 (constantI S_ 32 65536#32),
    StableHlo.unary main_c_51 main_v203 (broadcastInDim S524288 ![] bcast_S_S524288),
    StableHlo.binary main_v81 main_v203 main_v204 addi,
    StableHlo.ternary main_v202 main_v204 main_v81 main_v205 select,
    StableHlo.unary main_v205 main_v206 (broadcastInDim S524288x1 ![0] bcast_S524288_S524288x1_0),
    StableHlo.binary main_v173 main_v206 main_v207 (fun x i => Host.gather gather_S65536x128_S524288x1_S524288x128_1_0_n_n_0_1_1128 x i),
    StableHlo.unary main_v200 main_v208 (broadcastInDim S524288x1 ![0] bcast_S524288_S524288x1_0),
    StableHlo.unary main_v208 main_v209 (broadcastInDim S524288x128 ![0, 1] bcast_S524288x1_S524288x128_0_1),
    StableHlo.binary main_v207 main_v209 main_v210 mulf,
    StableHlo.nullary main_cst_52 (constant S_ .f32 0x00000000#32),
    StableHlo.unary main_cst_52 main_v211 (broadcastInDim S65536x128 ![] bcast_S_S65536x128),
    StableHlo.unary main_v83 main_v212 (broadcastInDim S524288x1 ![0] bcast_S524288_S524288x1_0),
    StableHlo.ternary main_v211 main_v212 main_v210 main_v213 (fun x i u => Host.scatterAdd scatter_S65536x128_S524288x1_S524288x128_1_0_0_1 x i u),
    StableHlo.unary main_v184 main_v214 (broadcastInDim S65536x1 ![0] bcast_S65536_S65536x1_0),
    StableHlo.unary main_v214 main_v215 (broadcastInDim S65536x128 ![0, 1] bcast_S65536x1_S65536x128_0_1),
    StableHlo.binary main_v173 main_v215 main_v216 Host.divf,
    StableHlo.binary main_v213 main_v216 main_v217 addf,
    StableHlo.unary main_arg13 main_v218 (broadcastInDim S1x128 ![1] bcast_S128_S1x128_1),
    StableHlo.unary main_v218 main_v219 (broadcastInDim S65536x128 ![0, 1] bcast_S1x128_S65536x128_0_1),
    StableHlo.binary main_v217 main_v219 main_v220 addf,
    StableHlo.nullary main_cst_53 (constant S_ .f32 0x00000000#32),
    StableHlo.unary main_cst_53 main_v221 (broadcastInDim S65536x128 ![] bcast_S_S65536x128),
    StableHlo.binary main_v220 main_v221 main_v222 (cmpf .oge),
    StableHlo.nullary main_cst_54 (constant S_ .f32 0x3C23D70A#32),
    StableHlo.unary main_cst_54 main_v223 (broadcastInDim S65536x128 ![] bcast_S_S65536x128),
    StableHlo.binary main_v223 main_v220 main_v224 mulf,
    StableHlo.TRef.ternary (.of main_v222 : StableHlo.TRef sig ⟨S65536x128, .i1⟩) (.of main_v220 : StableHlo.TRef sig ⟨S65536x128, .f32⟩) (.of main_v224 : StableHlo.TRef sig ⟨S65536x128, .f32⟩) (.of main_v225 : StableHlo.TRef sig ⟨S65536x128, .f32⟩) select,
    StableHlo.binary main_v225 main_v79 main_v226 addf,
    StableHlo.binary main_v226 main_arg14 main_v227 (fun l r => Host.dotGeneral dot_S65536x128_S128x16_S65536x16_1_0_0_1_n_n none l r),
    StableHlo.unary main_arg15 main_v228 (broadcastInDim S1x16 ![1] bcast_S16_S1x16_1),
    StableHlo.unary main_v228 main_v229 (broadcastInDim S65536x16 ![0, 1] bcast_S1x16_S65536x16_0_1),
    StableHlo.binary main_v227 main_v229 main_v230 addf,
    StableHlo.nullary main_cst_55 (constant S_ .f32 0xFF800000#32),
    StableHlo.binary main_v230 main_cst_55 main_v231 (fun x v => Host.reduce FloatOps.maximumf x v reducesTo_S65536x16_S65536_d1 h_S_),
    StableHlo.nullary main_cst_56 (constant S_ .f32 0xFF800000#32),
    StableHlo.unary main_cst_56 main_v232 (broadcastInDim S65536 ![] bcast_S_S65536),
    StableHlo.binary main_v232 main_v231 main_v233 maximumf,
    StableHlo.unary main_v233 main_v234 (broadcastInDim S65536x1 ![0] bcast_S65536_S65536x1_0),
    StableHlo.unary main_v234 main_v235 (broadcastInDim S65536x16 ![0, 1] bcast_S65536x1_S65536x16_0_1),
    StableHlo.binary main_v230 main_v235 main_v236 subf,
    StableHlo.unary main_v236 main_v237 Host.exp,
    StableHlo.nullary main_cst_57 (constant S_ .f32 0x00000000#32),
    StableHlo.binary main_v237 main_cst_57 main_v238 (fun x v => Host.reduceAdd x v reducesTo_S65536x16_S65536_d1 h_S_),
    StableHlo.unary main_v238 main_v239 (broadcastInDim S65536x1 ![0] bcast_S65536_S65536x1_0) ]

abbrev ops5 : List (HloOp τ sig (Elt F)) :=
  [ StableHlo.unary main_v239 main_v240 (broadcastInDim S65536x16 ![0, 1] bcast_S65536x1_S65536x16_0_1),
    StableHlo.binary main_v237 main_v240 main_v241 Host.divf ]

abbrev ops : List (HloOp τ sig (Elt F)) := ops0 ++ ops1 ++ ops2 ++ ops3 ++ ops4 ++ ops5

abbrev written : List (Ref sig .tc) :=
  [main_v0, main_v1, main_v2, main_v3, main_cst, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7, main_v8, main_v9, main_v10, main_cst_1, main_v11, main_v12, main_v13, main_v14, main_v15, main_v16, main_cst_2, main_v17, main_v18, main_v19, main_v20, main_v21, main_v22, main_call1_v0, main_call1_cst, main_call1_v1, main_call1_v2, main_v23, main_cst_3, main_v24, main_v25, main_v26, main_v27, main_cst_4, main_v28, main_cst_5, main_v29, main_v30, main_c_6, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v31, main_v32, main_v33, main_v34, main_cst_7, main_v35, main_v36, main_v37, main_v38, main_v39, main_v40, main_v41, main_v42, main_v43, main_v44, main_v45, main_cst_8, main_v46, main_v47, main_cst_9, main_v48, main_v49, main_v50, main_call4_v0, main_call4_cst, main_call4_v1, main_call4_v2, main_v51, main_cst_10, main_v52, main_v53, main_v54, main_v55, main_cst_11, main_v56, main_cst_12, main_v57, main_v58, main_c_13, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v59, main_v60, main_v61, main_v62, main_cst_14, main_v63, main_v64, main_v65, main_v66, main_v67, main_v68, main_v69, main_v70, main_v71, main_v72, main_v73, main_cst_15, main_v74, main_v75, main_cst_16, main_v76, main_v77, main_v78, main_v79, main_v80, main_v81, main_v82, main_v83, main_call7_v0, main_call7_cst, main_call7_v1, main_call7_v2, main_v84, main_cst_17, main_v85, main_v86, main_v87, main_v88, main_cst_18, main_v89, main_cst_19, main_v90, main_v91, main_c_20, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v92, main_v93, main_v94, main_v95, main_cst_21, main_v96, main_v97, main_v98, main_v99, main_v100, main_v101, main_v102, main_cst_22, main_v103, main_c_23, main_v104, main_v105, main_c_24, main_v106, main_v107, main_v108, main_v109, main_cst_25, main_v110, main_v111, main_cst_26, main_v112, main_v113, main_v114, main_c_27, main_v115, main_v116, main_c_28, main_v117, main_v118, main_v119, main_v120, main_v121, main_c_29, main_v122, main_v123, main_c_30, main_v124, main_v125, main_v126, main_v127, main_v128, main_v129, main_c_31, main_v130, main_v131, main_c_32, main_v132, main_v133, main_v134, main_v135, main_v136, main_v137, main_v138, main_v139, main_cst_33, main_v140, main_v141, main_v142, main_v143, main_v144, main_v145, main_v146, main_v147, main_v148, main_v149, main_cst_34, main_v150, main_v151, main_cst_35, main_v152, main_v153, main_v154, main_call10_v0, main_call10_cst, main_call10_v1, main_call10_v2, main_v155, main_cst_36, main_v156, main_v157, main_v158, main_v159, main_cst_37, main_v160, main_cst_38, main_v161, main_v162, main_c_39, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v163, main_v164, main_v165, main_v166, main_cst_40, main_v167, main_v168, main_v169, main_v170, main_v171, main_v172, main_v173, main_cst_41, main_v174, main_c_42, main_v175, main_v176, main_c_43, main_v177, main_v178, main_v179, main_v180, main_cst_44, main_v181, main_v182, main_cst_45, main_v183, main_v184, main_v185, main_c_46, main_v186, main_v187, main_c_47, main_v188, main_v189, main_v190, main_v191, main_v192, main_c_48, main_v193, main_v194, main_c_49, main_v195, main_v196, main_v197, main_v198, main_v199, main_v200, main_c_50, main_v201, main_v202, main_c_51, main_v203, main_v204, main_v205, main_v206, main_v207, main_v208, main_v209, main_v210, main_cst_52, main_v211, main_v212, main_v213, main_v214, main_v215, main_v216, main_v217, main_v218, main_v219, main_v220, main_cst_53, main_v221, main_v222, main_cst_54, main_v223, main_v224, main_v225, main_v226, main_v227, main_v228, main_v229, main_v230, main_cst_55, main_v231, main_cst_56, main_v232, main_v233, main_v234, main_v235, main_v236, main_v237, main_cst_57, main_v238, main_v239, main_v240, main_v241]

end Cert.ReferenceIdeal.RRun

end
-- ==== Proof.RRun.lean ====
import proofs.«179512_j35983236006070_1_alg».proof.Proof.ROps

noncomputable section

namespace Cert.ReferenceIdeal.RRun

open Cert.ReferenceIdeal Cert.ReferenceIdeal.Gen Idealize.ShloMosaic Idealize.ShloMosaic.TcCoe Idealize.SL.Sem
open Idealize.ShloMosaic.StableHlo

variable {F : FTy → Type} [FloatOps F]

theorem main_part0_eq (c : Dev nD) : main_part0 (F := F) c = seq ops0 := rfl

theorem main_part1_eq (c : Dev nD) : main_part1 (F := F) c = seq ops1 := rfl

theorem main_part2_eq (c : Dev nD) : main_part2 (F := F) c = seq ops2 := rfl

theorem main_part3_eq (c : Dev nD) : main_part3 (F := F) c = seq ops3 := rfl

theorem main_part4_eq (c : Dev nD) : main_part4 (F := F) c = seq ops4 := rfl

theorem main_part5_eq (c : Dev nD) : main_part5 (F := F) c = seq ops5 := rfl

theorem ops_assoc : (ops : List (HloOp τ sig (Elt F))) = ops0 ++ (ops1 ++ (ops2 ++ (ops3 ++ (ops4 ++ ops5)))) := by
  simp only [ops, List.append_assoc]

theorem main_eq (c : Dev nD) : main (F := F) c = seq ops := by
  rw [ops_assoc, seq_append, seq_append, seq_append, seq_append, seq_append,
    ← main_part0_eq c, ← main_part1_eq c, ← main_part2_eq c, ← main_part3_eq c, ← main_part4_eq c, ← main_part5_eq c]
  rfl

theorem scopedRefs_eq : (Finset.univ.filter fun b : Ref sig .tc => b.isScoped) = ∅ := by decide

theorem scopedSems_eq : (Finset.univ.filter fun sm : SemLoc sig => sm.isScoped .tc) = ∅ := by decide

theorem forall_mem_ops {P : HloOp τ sig (Elt F) → Prop}
    (h0 : ∀ op ∈ (ops0 : List (HloOp τ sig (Elt F))), P op) (h1 : ∀ op ∈ (ops1 : List (HloOp τ sig (Elt F))), P op)
    (h2 : ∀ op ∈ (ops2 : List (HloOp τ sig (Elt F))), P op) (h3 : ∀ op ∈ (ops3 : List (HloOp τ sig (Elt F))), P op)
    (h4 : ∀ op ∈ (ops4 : List (HloOp τ sig (Elt F))), P op) (h5 : ∀ op ∈ (ops5 : List (HloOp τ sig (Elt F))), P op) :
    ∀ op ∈ (ops : List (HloOp τ sig (Elt F))), P op := by
  intro op h
  rw [ops_assoc] at h
  rcases List.mem_append.mp h with h | h
  · exact h0 op h
  rcases List.mem_append.mp h with h | h
  · exact h1 op h
  rcases List.mem_append.mp h with h | h
  · exact h2 op h
  rcases List.mem_append.mp h with h | h
  · exact h3 op h
  rcases List.mem_append.mp h with h | h
  · exact h4 op h
  · exact h5 op h

theorem ops0_sub : (ops0 : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    nullary_bufs_sub .., binary_bufs_sub .., unary_bufs_sub .., unary_bufs_sub .., binary_bufs_sub .., unary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., binary_bufs_sub .., unary_bufs_sub .., unary_bufs_sub .., binary_bufs_sub .., binary_bufs_sub ..,
    nullary_bufs_sub .., unary_bufs_sub .., binary_bufs_sub .., nullary_bufs_sub ..⟩

theorem ops1_sub : (ops1 : List (HloOp τ sig (Elt F))).Forall fun op => op.bufs ⊆ tcRefs τ sig :=
  ⟨unary_bufs_sub .., binary_bufs_sub .., ternary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., binary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., binary_bufs_sub .., unary_bufs_sub .., reshape_bufs_sub ..,
    unary_bufs_sub .., reshape_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub ..⟩

theorem ops2_sub : (ops2 : List (HloOp τ sig (Elt F))).Forall fun op => op.bufs ⊆ tcRefs τ sig :=
  ⟨unary_bufs_sub .., binary_bufs_sub .., unary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..⟩

theorem ops3_sub : (ops3 : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    nullary_bufs_sub .., unary_bufs_sub .., ternary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub ..⟩

theorem ops4_sub : (ops4 : List (HloOp τ sig (Elt F))).Forall fun op => op.bufs ⊆ tcRefs τ sig :=
  ⟨ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..⟩

theorem ops5_sub : (ops5 : List (HloOp τ sig (Elt F))).Forall fun op => op.bufs ⊆ tcRefs τ sig :=
  ⟨unary_bufs_sub .., binary_bufs_sub ..⟩

theorem ops_sub : (ops : List (HloOp τ sig (Elt F))).Forall fun op => op.bufs ⊆ tcRefs τ sig :=
  List.forall_iff_forall_mem.mpr (forall_mem_ops
    (List.forall_iff_forall_mem.mp ops0_sub) (List.forall_iff_forall_mem.mp ops1_sub)
    (List.forall_iff_forall_mem.mp ops2_sub) (List.forall_iff_forall_mem.mp ops3_sub)
    (List.forall_iff_forall_mem.mp ops4_sub) (List.forall_iff_forall_mem.mp ops5_sub))

theorem ops_fresh : ∀ op ∈ (ops : List (HloOp τ sig (Elt F))), op.fresh = ∅ :=
  List.map_inj_left.mp (rfl : (ops (F := F)).map (fun op => op.fresh) = (ops (F := F)).map fun _ => ∅)

/-- The reference runs to the end and leaves every buffer at the fold of its operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RRun

end
-- ==== Proof.LibSsa.lean ====
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` lists, in order, the one buffer each operation of the line writes. -/
def WritesOnly (ops : List (HloOp τ sig Val)) (W : List (Ref sig .tc)) : Prop :=
  ops.map (fun op => op.writes) = W.map fun w => {Proc.devRef .tc w}

theorem WritesOnly.drop {ops : List (HloOp τ sig Val)} {W : List (Ref sig .tc)} (h : WritesOnly ops W) (k : Nat) :
    WritesOnly (ops.drop k) (W.drop k) := by
  unfold WritesOnly at h ⊢
  rw [List.map_drop, List.map_drop, h]

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], _, _, _, _, _ => rfl
  | _ :: _, [], _, _, h, _ => absurd h (List.cons_ne_nil _ _)
  | op :: ops, w :: W, V, r, h, hr => by
    have h1 : op.writes = {Proc.devRef .tc w} := (List.cons.inj h).1
    have h2 : WritesOnly ops W := (List.cons.inj h).2
    have hrw : r ≠ w := fun e => hr (e ▸ List.mem_cons_self)
    have hrW : r ∉ W := fun e => hr (List.mem_cons_of_mem _ e)
    rw [after_cons, after_of_not_written ops W _ r h2 hrW, op.result_of_not_mem V]
    rw [h1, Finset.mem_singleton]
    exact devRef_ne_of_ne hrw

variable (ops : List (HloOp τ sig Val)) (W : List (Ref sig .tc)) (hW : WritesOnly ops W) (V : Valuation τ sig Val)
include hW

theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

theorem after_arg (x : Ref sig .tc) (hx : x ∉ W) : after ops V (Proc.devRef .tc x) = V (Proc.devRef .tc x) :=
  after_of_not_written ops W V x hW hx

variable {ops W}

/-- A buffer written once, by an operation whose operands are not written from then on, ends at that operation's function of the final contents. -/
theorem ssa_nullary (k : Nat) {y : Ref sig .tc} {v : y.ty.Contents Val} {hy}
    (hop : ops.drop k = nullary y v hy :: ops.drop (k + 1)) (hy' : y ∉ W.drop (k + 1) := by decide) :
    after ops V (Proc.devRef .tc y) = v := by
  rw [after_at ops W hW V k _ y hop hy']; exact nullary_result y v hy _

theorem ssa_unary (k : Nat) {x y : Ref sig .tc} {f : x.ty.Contents Val → y.ty.Contents Val} {hx hy}
    (hop : ops.drop k = unary x y f hx hy :: ops.drop (k + 1)) (hy' : y ∉ W.drop (k + 1) := by decide)
    (hx' : x ∉ W.drop k := by decide) :
    after ops V (Proc.devRef .tc y) = f (after ops V (Proc.devRef .tc x)) := by
  rw [after_at ops W hW V k _ y hop hy', ← after_take ops W hW V k x hx']; exact unary_result x y f hx hy _

theorem ssa_binary (k : Nat) {a b y : Ref sig .tc} {f : a.ty.Contents Val → b.ty.Contents Val → y.ty.Contents Val} {ha hb hy}
    (hop : ops.drop k = binary a b y f ha hb hy :: ops.drop (k + 1)) (hy' : y ∉ W.drop (k + 1) := by decide)
    (ha' : a ∉ W.drop k := by decide) (hb' : b ∉ W.drop k := by decide) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) {c a b y : Ref sig .tc}
    {f : c.ty.Contents Val → a.ty.Contents Val → b.ty.Contents Val → y.ty.Contents Val} {hc ha hb hy}
    (hop : ops.drop k = ternary c a b y f hc ha hb hy :: ops.drop (k + 1)) (hy' : y ∉ W.drop (k + 1) := by decide)
    (hc' : c ∉ W.drop k := by decide) (ha' : a ∉ W.drop k := by decide) (hb' : b ∉ W.drop k := by decide) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) {x y : Ref sig .tc} {he : x.ty.elt = y.ty.elt} {hn : x.ty.shape.ShapeCasts y.ty.shape} {hx hy}
    (hop : ops.drop k = reshape (Val := Val) x y he hn hx hy :: ops.drop (k + 1)) (hy' : y ∉ W.drop (k + 1) := by decide)
    (hx' : x ∉ W.drop k := by decide) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

end Idealize.ShloMosaic.StableHlo.Ssa

end
-- ==== Proof.KSsaBase.lean ====
import proofs.«179512_j35983236006070_1_alg».proof.Proof.Gen.KernelIdeal.Launch
import proofs.«179512_j35983236006070_1_alg».proof.Proof.LibSsa

noncomputable section

namespace Cert.KernelIdeal.KSsa

open Cert.KernelIdeal Cert.KernelIdeal.Gen Idealize.ShloMosaic Idealize.ShloMosaic.TcCoe Idealize.SL.Sem

variable {F : FTy → Type} [FloatOps F]

abbrev chain : List (HloOp τ sig (Elt F)) :=
  hostOps2 ++ (hostOps2_1 ++ (hostOps2_2 ++ (hostOps2_3 ++ (hostOps2_4 ++ (hostOps2_5 ++ (hostOps2_6 ++ (hostOps2_7 ++ (hostOps2_8 ++ (hostOps2_9 ++ (hostOps2_10 ++ (hostOps2_11 ++ (hostOps2_12 ++ (hostOps2_13 ++ (hostOps2_14 ++ (hostOps2_15 ++ (hostOps2_16 ++ (hostOps2_17 ++ (hostOps2_18 ++ (hostOps2_19 ++ (hostOps2_20 ++ (hostOps2_21 ++ (hostOps2_22))))))))))))))))))))))

abbrev chainW : List (Ref sig .tc) :=
  [main_v12, main_v13, main_v14, main_call0_v0, main_call0_cst, main_call0_v1, main_call0_v2, main_v15, main_cst_2, main_v16, main_v17, main_v18, main_v19, main_cst_3, main_v20, main_cst_4, main_v21, main_v22, main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v23, main_v24, main_v25, main_v26, main_cst_5, main_v27, main_v28, main_v29, main_v30, main_v31, main_v32, main_v33, main_v34, main_v35, main_v36, main_v37, main_cst_6, main_v38, main_v39, main_cst_7, main_v40, main_v41, main_v42, main_call3_v0, main_call3_cst, main_call3_v1, main_call3_v2, main_v43, main_cst_8, main_v44, main_v45, main_v46, main_v47, main_cst_9, main_v48, main_cst_10, main_v49, main_v50, main_c_11, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v51, main_v52, main_v53, main_v54, main_cst_12, main_v55, main_v56, main_v57, main_v58, main_v59, main_v60, main_v61, main_v62, main_v63, main_v64, main_v65, main_cst_13, main_v66, main_v67, main_cst_14, main_v68, main_v69, main_v70, main_v71, main_v72, main_v73, main_v74, main_call6_v0, main_call6_cst, main_call6_v1, main_call6_v2, main_v75, main_cst_15, main_v76, main_v77, main_v78, main_v79, main_cst_16, main_v80, main_cst_17, main_v81, main_v82, main_c_18, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v83, main_v84, main_v85, main_v86, main_cst_19, main_v87, main_v88, main_v89, main_v90, main_v91, main_v92, main_v93, main_cst_20, main_v94, main_c_21, main_v95, main_v96, main_c_22, main_v97, main_v98, main_v99, main_v100, main_cst_23, main_v101, main_v102, main_cst_24, main_v103, main_v104, main_v105, main_c_25, main_v106, main_v107, main_c_26, main_v108, main_v109, main_v110, main_v111, main_v112, main_c_27, main_v113, main_v114, main_c_28, main_v115, main_v116, main_v117, main_v118, main_v119, main_v120, main_c_29, main_v121, main_v122, main_c_30, main_v123, main_v124, main_v125, main_v126, main_v127, main_v128, main_v129, main_v130, main_cst_31, main_v131, main_v132, main_v133, main_v134, main_v135, main_v136, main_v137, main_v138, main_v139, main_v140, main_cst_32, main_v141, main_v142, main_cst_33, main_v143, main_v144, main_v145, main_call9_v0, main_call9_cst, main_call9_v1, main_call9_v2, main_v146, main_cst_34, main_v147, main_v148, main_v149, main_v150, main_cst_35, main_v151, main_cst_36, main_v152, main_v153, main_c_37, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v154, main_v155, main_v156, main_v157, main_cst_38, main_v158, main_v159, main_v160, main_v161, main_v162, main_v163, main_v164, main_cst_39, main_v165, main_c_40, main_v166, main_v167, main_c_41, main_v168, main_v169, main_v170, main_v171, main_cst_42, main_v172, main_v173, main_cst_43, main_v174, main_v175, main_v176, main_c_44, main_v177, main_v178, main_c_45, main_v179, main_v180, main_v181, main_v182, main_v183, main_c_46, main_v184, main_v185, main_c_47, main_v186, main_v187, main_v188, main_v189, main_v190, main_v191, main_c_48, main_v192, main_v193, main_c_49, main_v194, main_v195, main_v196, main_v197, main_v198, main_v199, main_v200, main_v201, main_cst_50, main_v202, main_v203, main_v204, main_v205, main_v206, main_v207, main_v208, main_v209, main_v210, main_v211, main_cst_51, main_v212, main_v213, main_cst_52, main_v214, main_v215, main_v216, main_v217]
theorem hChain : StableHlo.Ssa.WritesOnly (chain (F := F)) chainW := rfl

abbrev host1W : List (Ref sig .tc) := [main_cst, main_v2, main_v3, main_cst_0, main_v4, main_v5, main_v6, main_v7, main_cst_1, main_v8, main_v9, main_v10]
theorem hHost1 : StableHlo.Ssa.WritesOnly (hostOps1 (F := F)) host1W := rfl
abbrev host0W : List (Ref sig .tc) := [main_v0]
theorem hHost0 : StableHlo.Ssa.WritesOnly (hostOps0 (F := F)) host0W := rfl

end Cert.KernelIdeal.KSsa

end
-- ==== Proof.LibDot.lean ====
import Idealize.ShloMosaic.Lib.StackMember
import Idealize.ShloMosaic.PureOps.Ideal.Laws

noncomputable section

open Idealize.ShloMosaic Idealize.ShloMosaic.ValueIdx

namespace Cert.Dot

variable {M K N : Nat} {φ₁ φ₂ : FTy}

theorem dotGeneral_plain_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  exact StackMember.dotGeneral_plain_apply prec l r p q

/-- Into a zero accumulator the kernel's product is the same sum over the contracted index as the host's. -/
theorem matmul_plain_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant (F := Ideal) ⟨2, ![M, N]⟩ .f32 0x00000000#32) (ix2 p q) = ∑ k : Fin K, l (ix2 p k) * r (ix2 k q) :=
  (Ideal.matmul_constant_zero_apply d prec l r (ix2 p q)).trans
    ((Ideal.dotGeneral_apply d prec .single l r (ix2 p q)).symm.trans (dotGeneral_plain_apply d hd prec l r p q))

end Cert.Dot

end
-- ==== Proof.Reg0.lean ====
import proofs.«179512_j35983236006070_1_alg».proof.Proof.Gen.KernelIdeal.Frame
import proofs.«179512_j35983236006070_1_alg».proof.Proof.LibDot
import Idealize.ShloMosaic.Lib.ValueIdx
import Idealize.ShloMosaic.Lib.Pipeline.Value
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Reg0

open Cert.KernelIdeal Cert.KernelIdeal.Gen

def xwF (X : Vec Ideal S65536x200 .f32) (Wt : Vec Ideal S200x128 .f32) (B2 : Vec Ideal S1x128 .f32) : Vec Ideal S65536x128 .f32 :=
  fun j => (∑ k : Fin 200, X (ix2 (j 0) k) * Wt (ix2 k (j 1))) + B2 (ix2 0 (j 1))

theorem add_congr' {a a' b b' : EReal} (h1 : a = a') (h2 : b = b') : a + b = a' + b' := by rw [h1, h2]
theorem mul_congr' {a a' b b' : EReal} (h1 : a = a') (h2 : b = b') : a * b = a' * b' := by rw [h1, h2]

theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨q, hq⟩ := ih (fun i hi => hf i (Finset.mem_insert_of_mem hi))
    exact ⟨r + q, by rw [Finset.sum_insert ha, hr, hq, EReal.coe_add]⟩

theorem xwF_real (X : Vec Ideal S65536x200 .f32) (Wt : Vec Ideal S200x128 .f32) (B2 : Vec Ideal S1x128 .f32)
    (hX : ∀ j, ∃ r : ℝ, X j = (r : EReal)) (hW : ∀ j, ∃ r : ℝ, Wt j = (r : EReal)) (hB : ∀ j, ∃ r : ℝ, B2 j = (r : EReal)) :
    ∀ j, ∃ r : ℝ, xwF X Wt B2 j = (r : EReal) := by
  intro j
  have hs : ∃ s : ℝ, (∑ k : Fin 200, X (ix2 (j 0) k) * Wt (ix2 k (j 1))) = (s : EReal) :=
    sum_real Finset.univ _ fun k _ => by
      obtain ⟨a, ha⟩ := hX (ix2 (j 0) k)
      obtain ⟨b, hb⟩ := hW (ix2 k (j 1))
      exact ⟨a * b, by rw [ha, hb, EReal.coe_mul]⟩
  obtain ⟨s, hs⟩ := hs
  obtain ⟨b, hb⟩ := hB (ix2 0 (j 1))
  refine ⟨s + b, ?_⟩
  unfold xwF
  rw [hs, hb, EReal.coe_add]

def rowN (g : Fin 65536 → EReal) (i : ℕ) : EReal := if h : i < 65536 then g ⟨i, h⟩ else 0

theorem rowN_of_lt (g : Fin 65536 → EReal) (i : ℕ) (h : i < 65536) : rowN g i = g ⟨i, h⟩ := dif_pos h

def blockN (g : Fin 65536 → EReal) (t : ℕ) : EReal := ∑ r : Fin 2048, rowN g (2048 * t + r.val)

def accN (g : Fin 65536 → EReal) (n : ℕ) : EReal := ∑ t ∈ Finset.range (n + 1), blockN g t

theorem accN_zero (g : Fin 65536 → EReal) : accN g 0 = blockN g 0 := by
  unfold accN; rw [Finset.sum_range_one]

theorem accN_succ (g : Fin 65536 → EReal) (n : ℕ) : accN g (n + 1) = accN g n + blockN g (n + 1) := by
  unfold accN; rw [Finset.sum_range_succ]

/-- The 32 block sums of 2048 rows regroup into the sum over all 65536 rows. -/
theorem accN_last (g : Fin 65536 → EReal) : accN g 31 = ∑ i : Fin 65536, g i := by
  unfold accN blockN
  rw [Finset.sum_range (fun t => ∑ r : Fin 2048, rowN g (2048 * t + r.val))]
  rw [← Fintype.sum_prod_type' (fun (t : Fin 32) (r : Fin 2048) => rowN g (2048 * t.val + r.val))]
  refine Fintype.sum_equiv (finProdFinEquiv (m := 32) (n := 2048)) _ g (fun p => ?_)
  have h : 2048 * p.1.val + p.2.val < 65536 := by have := p.1.isLt; have := p.2.isLt; omega
  rw [rowN_of_lt g _ h]
  exact congrArg g (Fin.ext (by show 2048 * p.1.val + p.2.val = p.2.val + 2048 * p.1.val; omega))

section Pieces
variable {F : FTy → Type} [FloatOps F]

theorem zero_off : (![0, 0] : Fin 2 → Nat) = fun _ => 0 := funext fun a => by fin_cases a <;> rfl

variable (c : Dev nD) (i : grid0.Coords) (a1 : Memref sig .tc .vmem S2048x200 .f32) (h1 : a1.IsWhole) (a2 : Memref sig .tc .vmem S200x128 .f32) (h2 : a2.IsWhole) (a3 : Memref sig .tc .vmem S1x128 .f32) (h3 : a3.IsWhole) (a4 : Memref sig .tc .vmem S2048x128 .f32) (h4 : a4.IsWhole) (a5 : Memref sig .tc .vmem S1x128 .f32) (h5 : a5.IsWhole) (a6 : Memref sig .tc .vmem S1x128 .f32) (h6 : a6.IsWhole)

theorem out_A_3 (hc : cond0_0 i)
    (x0 : Vec F S2048x200 .f32) (x1 : Vec F S200x128 .f32) (x2 : Vec F S1x128 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero zero_off]
  simp only [View.readAt_eq_ld, h1.read_unread, h2.read_unread, h3.read_unread, View.ld_unit_zero (S := S2048x200) zero_off,
    View.ld_unit_zero (S := S200x128) zero_off, View.ld_unit_zero (S := S1x128) zero_off]

theorem out_A_4 (hc : cond0_0 i)
    (x0 : Vec F S2048x200 .f32) (x1 : Vec F S200x128 .f32) (x2 : Vec F S1x128 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) zero_off, View.readCov_unit_zero (S := S1x128) _ zero_off]
  simp only [View.readAt_eq_ld, h1.read_unread, h2.read_unread, h3.read_unread, View.ld_unit_zero (S := S2048x200) zero_off,
    View.ld_unit_zero (S := S200x128) zero_off, View.ld_unit_zero (S := S1x128) zero_off]

theorem out_A_5 (hc : cond0_0 i)
    (x0 : Vec F S2048x200 .f32) (x1 : Vec F S200x128 .f32) (x2 : Vec F S1x128 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) zero_off, View.readCov_unit_zero (S := S1x128) _ zero_off]
  simp only [View.readAt_eq_ld, h1.read_unread, h2.read_unread, h3.read_unread, View.ld_unit_zero (S := S2048x200) zero_off,
    View.ld_unit_zero (S := S200x128) zero_off, View.ld_unit_zero (S := S1x128) zero_off]

theorem out_B_3 (hc : ¬cond0_0 i)
    (x0 : Vec F S2048x200 .f32) (x1 : Vec F S200x128 .f32) (x2 : Vec F S1x128 .f32) (xo4 xo5 : Vec F S1x128 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero zero_off]
  simp only [View.readAt_eq_ld, h1.read_unread, h2.read_unread, h3.read_unread, h5.read_unread, h6.read_unread,
    View.ld_unit_zero (S := S2048x200) zero_off, View.ld_unit_zero (S := S200x128) zero_off, View.ld_unit_zero (S := S1x128) zero_off]

theorem out_B_4 (hc : ¬cond0_0 i)
    (x0 : Vec F S2048x200 .f32) (x1 : Vec F S200x128 .f32) (x2 : Vec F S1x128 .f32) (xo4 xo5 : Vec F S1x128 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero zero_off]
  simp only [View.readAt_eq_ld, h1.read_unread, h2.read_unread, h3.read_unread, h5.read_unread, h6.read_unread,
    View.ld_unit_zero (S := S2048x200) zero_off, View.ld_unit_zero (S := S200x128) zero_off, View.ld_unit_zero (S := S1x128) zero_off]

theorem out_B_5 (hc : ¬cond0_0 i)
    (x0 : Vec F S2048x200 .f32) (x1 : Vec F S200x128 .f32) (x2 : Vec F S1x128 .f32) (xo4 xo5 : Vec F S1x128 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero zero_off]
  simp only [View.readAt_eq_ld, h1.read_unread, h2.read_unread, h3.read_unread, h5.read_unread, h6.read_unread,
    View.ld_unit_zero (S := S2048x200) zero_off, View.ld_unit_zero (S := S200x128) zero_off, View.ld_unit_zero (S := S1x128) zero_off]

end Pieces

theorem pay1_apply (j : S1x128.Idx) : (k0_pay1 (F := Ideal)) j = 0 := by
  unfold k0_pay1
  exact Ideal.ofBits_zero_f32

theorem pay2_apply (j : S1x128.Idx) : (k0_pay2 (F := Ideal)) j = 0 := by
  unfold k0_pay2
  exact Ideal.ofBits_zero_f32

theorem mm_apply (l : FVec Ideal S2048x200 .bf16) (r : FVec Ideal S200x128 .bf16) (p : Fin 2048) (q : Fin 128) :
    matmul dot_S2048x200_S200x128_S2048x128_1_0_0_1_n_n none l r (constant S2048x128 .f32 0x00000000#32) (ix2 p q)
      = ∑ k : Fin 200, l (ix2 p k) * r (ix2 k q) :=
  Cert.Dot.matmul_plain_apply (M := 2048) (K := 200) (N := 128) _ rfl none l r p q

theorem bias_apply (x2 : Vec Ideal S1x128 .f32) (hs : S1x128.ShapeCasts S1x128) (hb : S1x128.Broadcasts S2048x128) (p : Fin 2048) (q : Fin 128) :
    broadcastTo S2048x128 (shapeCast S1x128 x2 hs) hb (ix2 p q) = x2 (ix2 0 q) := by
  rw [shapeCast_self]
  refine broadcastTo_apply x2 hb (ix2 p q) (ix2 0 q) fun a => ?_
  match a with
  | ⟨0, _⟩ => rfl
  | ⟨1, _⟩ => rfl

theorem pay3_apply (x0 : Vec Ideal S2048x200 .f32) (x1 : Vec Ideal S200x128 .f32) (x2 : Vec Ideal S1x128 .f32) (p : Fin 2048) (q : Fin 128) :
    (k0_pay3 (F := Ideal) x0 x1 x2) (ix2 p q) = (∑ k : Fin 200, x0 (ix2 p k) * x1 (ix2 k q)) + x2 (ix2 0 q) := by
  unfold k0_pay3
  refine (addf_apply _ _ _).trans (add_congr' ?_ ?_)
  · exact mm_apply _ _ p q
  · exact bias_apply x2 _ _ p q

theorem rowsum_apply (src : FVec Ideal S2048x128 .f32) (hr : S2048x128.Reduces [0] S128) (hφ : FKind.Formats .f32)
    (hacc : (0x00000000#32 : BitVec 32) = FKind.add.neutral .f32 hφ) (hs : S128.ShapeCasts S1x128) (q : Fin 128) :
    shapeCast S1x128 (multiReduction .add [0] S128 src 0x00000000#32 hr hφ hacc) hs (ix2 0 q) = ∑ r : Fin 2048, src (ix2 r q) := by
  refine (shapeCast_apply _ hs (ix2 (0 : Fin 1) q) (ix1 q) (by
    rw [Shape.rowMajor_val_two, Shape.rowMajor_val_one]; show q.val = 0 * 128 + q.val; omega)).trans ?_
  refine (Ideal.multiReduction_add_single src 0x00000000#32 hr hφ hacc (ix1 q)).trans ?_
  refine Finset.sum_congr rfl fun r _ => congrArg src ?_
  funext a
  match a with
  | ⟨0, _⟩ => rfl
  | ⟨1, _⟩ => rfl

theorem pay4_apply (x0 : Vec Ideal S2048x200 .f32) (x1 : Vec Ideal S200x128 .f32) (x2 : Vec Ideal S1x128 .f32) (acc : Vec Ideal S1x128 .f32) (q : Fin 128) :
    (k0_pay4 (F := Ideal) x0 x1 x2 acc) (ix2 0 q) = acc (ix2 0 q) + ∑ r : Fin 2048, (k0_pay3 (F := Ideal) x0 x1 x2) (ix2 r q) := by
  unfold k0_pay4
  dsimp only
  refine (addf_apply _ _ _).trans (add_congr' ?_ ?_)
  · rw [shapeCast_self]
  · exact rowsum_apply (k0_pay3 (F := Ideal) x0 x1 x2) _ _ _ _ q

theorem pay5_apply (x0 : Vec Ideal S2048x200 .f32) (x1 : Vec Ideal S200x128 .f32) (x2 : Vec Ideal S1x128 .f32) (acc : Vec Ideal S1x128 .f32) (q : Fin 128) :
    (k0_pay5 (F := Ideal) x0 x1 x2 acc) (ix2 0 q)
      = acc (ix2 0 q) + ∑ r : Fin 2048, (k0_pay3 (F := Ideal) x0 x1 x2) (ix2 r q) * (k0_pay3 (F := Ideal) x0 x1 x2) (ix2 r q) := by
  unfold k0_pay5
  dsimp only
  refine (addf_apply _ _ _).trans (add_congr' ?_ ?_)
  · rw [shapeCast_self]
  · exact rowsum_apply (mulf (k0_pay3 (F := Ideal) x0 x1 x2) (k0_pay3 (F := Ideal) x0 x1 x2)) _ _ _ _ q

variable (V : (c : Dev nD) → (b : Ref sig .tc) → Buf (Elt Ideal) ((c : Thread nD τ).loc b))

abbrev xarr (c : Dev nD) : Vec Ideal S65536x200 .f32 := V c main_arg0
abbrev warr (c : Dev nD) : Vec Ideal S200x128 .f32 := V c main_arg4
abbrev barr (c : Dev nD) : Vec Ideal S1x128 .f32 := V c main_v0
abbrev xblk (c : Dev nD) (t : Fin cfg0.N) : Vec Ideal S2048x200 .f32 := iblk0 V c 0 t
abbrev wblk (c : Dev nD) (t : Fin cfg0.N) : Vec Ideal S200x128 .f32 := iblk0 V c 1 t
abbrev bblk (c : Dev nD) (t : Fin cfg0.N) : Vec Ideal S1x128 .f32 := iblk0 V c 2 t

abbrev XW (c : Dev nD) : Vec Ideal S65536x128 .f32 := xwF (xarr V c) (warr V c) (barr V c)

abbrev SUM (c : Dev nD) : Vec Ideal S1x128 .f32 := fun j => ∑ i : Fin 65536, XW V c (ix2 i (j 1))

abbrev SUMSQ (c : Dev nD) : Vec Ideal S1x128 .f32 := fun j => ∑ i : Fin 65536, XW V c (ix2 i (j 1)) * XW V c (ix2 i (j 1))

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem xblk_apply (c : Dev nD) (t : Fin cfg0.N) (r : Fin 2048) (k : Fin 200) (i : Fin 65536) (hi : i.val = 2048 * t.val + r.val) :
    xblk V c t (ix2 r k) = xarr V c (ix2 i k) := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t 0 * 2048 + 1 * r.val = i.val; rw [e0, hi]; omega
  | ⟨1, _⟩ => show win0_0.index t 1 * 200 + 1 * k.val = k.val; rw [e1]; omega

theorem wblk_apply (c : Dev nD) (t : Fin cfg0.N) (k : Fin 200) (d : Fin 128) :
    wblk V c t (ix2 k d) = warr V c (ix2 k d) := by
  obtain ⟨-, -, e0, e1, -⟩ := idx_facts t
  unfold wblk iblk0
  rw [View.read_apply]
  show V c main_arg4 _ = V c main_arg4 _
  congr 1
  funext a
  apply Fin.ext
  match a with
  | ⟨0, _⟩ => show win0_1.index t 0 * 200 + 1 * k.val = k.val; rw [e0]; omega
  | ⟨1, _⟩ => show win0_1.index t 1 * 128 + 1 * d.val = d.val; rw [e1]; omega

theorem bblk_apply (c : Dev nD) (t : Fin cfg0.N) (d : Fin 128) :
    bblk V c t (ix2 0 d) = barr V c (ix2 0 d) := by
  obtain ⟨-, -, -, -, e0, e1, -⟩ := idx_facts t
  unfold bblk iblk0
  rw [View.read_apply]
  show V c main_v0 _ = V c main_v0 _
  congr 1
  funext a
  apply Fin.ext
  match a with
  | ⟨0, _⟩ => show win0_2.index t 0 * 1 + 1 * 0 = 0; rw [e0]
  | ⟨1, _⟩ => show win0_2.index t 1 * 128 + 1 * d.val = d.val; rw [e1]; omega

theorem pay3_point (c : Dev nD) (t : Fin cfg0.N) (r : Fin 2048) (d : Fin 128) (i : Fin 65536) (hi : i.val = 2048 * t.val + r.val) :
    (k0_pay3 (F := Ideal) (xblk V c t) (wblk V c t) (bblk V c t)) (ix2 r d) = XW V c (ix2 i d) := by
  refine (pay3_apply (xblk V c t) (wblk V c t) (bblk V c t) r d).trans ?_
  show _ = (∑ k : Fin 200, xarr V c (ix2 i k) * warr V c (ix2 k d)) + barr V c (ix2 0 d)
  exact add_congr' (Finset.sum_congr rfl fun k _ => mul_congr' (xblk_apply V c t r k i hi) (wblk_apply V c t k d)) (bblk_apply V c t d)

theorem block_sum (c : Dev nD) (t : Fin cfg0.N) (d : Fin 128) :
    ∑ r : Fin 2048, (k0_pay3 (F := Ideal) (xblk V c t) (wblk V c t) (bblk V c t)) (ix2 r d) = blockN (fun i => XW V c (ix2 i d)) t.val := by
  have hN : t.val < 32 := lt_of_lt_of_eq t.isLt (show cfg0.N = 32 from N_0)
  unfold blockN
  refine Finset.sum_congr rfl fun r _ => ?_
  have h : 2048 * t.val + r.val < 65536 := by have := r.isLt; omega
  rw [rowN_of_lt _ _ h]
  exact pay3_point V c t r d ⟨2048 * t.val + r.val, h⟩ rfl

theorem block_sumsq (c : Dev nD) (t : Fin cfg0.N) (d : Fin 128) :
    ∑ r : Fin 2048, (k0_pay3 (F := Ideal) (xblk V c t) (wblk V c t) (bblk V c t)) (ix2 r d) * (k0_pay3 (F := Ideal) (xblk V c t) (wblk V c t) (bblk V c t)) (ix2 r d)
      = blockN (fun i => XW V c (ix2 i d) * XW V c (ix2 i d)) t.val := by
  have hN : t.val < 32 := lt_of_lt_of_eq t.isLt (show cfg0.N = 32 from N_0)
  unfold blockN
  refine Finset.sum_congr rfl fun r _ => ?_
  have h : 2048 * t.val + r.val < 65536 := by have := r.isLt; omega
  rw [rowN_of_lt _ _ h, pay3_point V c t r d ⟨2048 * t.val + r.val, h⟩ rfl]

theorem outsAt_A (c : Dev nD) (t : Fin cfg0.N) (h0 : t.val % 32 = 0) :
    outsAt0 V c t.val t.isLt
      = (k0_pay3 (F := Ideal) (xblk V c t) (wblk V c t) (bblk V c t),
         k0_pay4 (F := Ideal) (xblk V c t) (wblk V c t) (bblk V c t) (k0_pay1 (F := Ideal)),
         k0_pay5 (F := Ideal) (xblk V c t) (wblk V c t) (bblk V c t) (k0_pay2 (F := Ideal))) :=
  (outsAt0_A V c t h0).trans (congrArg₂ Prod.mk
    (out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
    (congrArg₂ Prod.mk
      (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))
      (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t))))

theorem outsAt_B (c : Dev nD) (t : Fin cfg0.N) (h0 : ¬t.val % 32 = 0) :
    outsAt0 V c t.val t.isLt
      = (k0_pay3 (F := Ideal) (xblk V c t) (wblk V c t) (bblk V c t),
         k0_pay4 (F := Ideal) (xblk V c t) (wblk V c t) (bblk V c t) (outsAt0 V c (t.val - 1) (Nat.lt_of_le_of_lt (Nat.sub_le _ _) t.isLt)).2.1,
         k0_pay5 (F := Ideal) (xblk V c t) (wblk V c t) (bblk V c t) (outsAt0 V c (t.val - 1) (Nat.lt_of_le_of_lt (Nat.sub_le _ _) t.isLt)).2.2) :=
  (outsAt0_B V c t h0).trans (congrArg₂ Prod.mk
    (out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk
      (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)
      (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2)))

def Inv (c : Dev nD) (n : ℕ) (o : Vec Ideal S2048x128 .f32 × Vec Ideal S1x128 .f32 × Vec Ideal S1x128 .f32) : Prop :=
  (∀ (r : Fin 2048) (d : Fin 128) (i : Fin 65536), i.val = 2048 * n + r.val → o.1 (ix2 r d) = XW V c (ix2 i d))
  ∧ (∀ d : Fin 128, o.2.1 (ix2 0 d) = accN (fun i => XW V c (ix2 i d)) n)
  ∧ (∀ d : Fin 128, o.2.2 (ix2 0 d) = accN (fun i => XW V c (ix2 i d) * XW V c (ix2 i d)) n)

/-- After point n the first output holds its block of the linear layer and the accumulators the column sums over the rows so far. -/
theorem outsAt_inv (c : Dev nD) : ∀ (n : ℕ) (h : n < cfg0.N), Inv V c n (outsAt0 V c n h)
  | 0, h => by
    have e : outsAt0 V c 0 h = _ := outsAt_A V c ⟨0, h⟩ rfl
    rw [e]
    refine ⟨fun r d i hi => pay3_point V c ⟨0, h⟩ r d i hi, fun d => ?_, fun d => ?_⟩
    · show (k0_pay4 (F := Ideal) (xblk V c ⟨0, h⟩) (wblk V c ⟨0, h⟩) (bblk V c ⟨0, h⟩) (k0_pay1 (F := Ideal))) (ix2 0 d) = _
      rw [pay4_apply, pay1_apply, zero_add, accN_zero]
      exact block_sum V c ⟨0, h⟩ d
    · show (k0_pay5 (F := Ideal) (xblk V c ⟨0, h⟩) (wblk V c ⟨0, h⟩) (bblk V c ⟨0, h⟩) (k0_pay2 (F := Ideal))) (ix2 0 d) = _
      rw [pay5_apply, pay2_apply, zero_add, accN_zero]
      exact block_sumsq V c ⟨0, h⟩ d
  | n + 1, h => by
    have hN : cfg0.N = 32 := N_0
    have hB : ¬(⟨n + 1, h⟩ : Fin cfg0.N).val % 32 = 0 := by dsimp only; omega
    obtain ⟨-, ih4, ih5⟩ := outsAt_inv c n (Nat.lt_of_succ_lt h)
    have e : outsAt0 V c (n + 1) h = _ := outsAt_B V c ⟨n + 1, h⟩ hB
    rw [e]
    refine ⟨fun r d i hi => pay3_point V c ⟨n + 1, h⟩ r d i hi, fun d => ?_, fun d => ?_⟩
    · show (k0_pay4 (F := Ideal) (xblk V c ⟨n + 1, h⟩) (wblk V c ⟨n + 1, h⟩) (bblk V c ⟨n + 1, h⟩) (outsAt0 V c n _).2.1) (ix2 0 d) = _
      rw [pay4_apply, ih4 d, accN_succ]
      exact congrArg _ (block_sum V c ⟨n + 1, h⟩ d)
    · show (k0_pay5 (F := Ideal) (xblk V c ⟨n + 1, h⟩) (wblk V c ⟨n + 1, h⟩) (bblk V c ⟨n + 1, h⟩) (outsAt0 V c n _).2.2) (ix2 0 d) = _
      rw [pay5_apply, ih5 d, accN_succ]
      exact congrArg _ (block_sumsq V c ⟨n + 1, h⟩ d)

theorem blk3_read (t : Fin cfg0.N) (G : Vec Ideal S65536x128 .f32) (r : Fin 2048) (d : Fin 128) (i : Fin 65536) (hi : i.val = 2048 * t.val + r.val) :
    (((cfg0.win 3).blk t).view.read (Elt Ideal) G : Vec Ideal S2048x128 .f32) (ix2 r d) = G (ix2 i d) := by
  obtain ⟨-, -, -, -, -, -, e0, e1, -⟩ := idx_facts t
  rw [View.read_apply]
  show G _ = G _
  congr 1
  funext a
  apply Fin.ext
  match a with
  | ⟨0, _⟩ => show win0_3.index t 0 * 2048 + 1 * r.val = i.val; rw [e0, hi]; omega
  | ⟨1, _⟩ => show win0_3.index t 1 * 128 + 1 * d.val = d.val; rw [e1]; omega

theorem blk4_read (t : Fin cfg0.N) (G : Vec Ideal S1x128 .f32) (d : Fin 128) :
    (((cfg0.win 4).blk t).view.read (Elt Ideal) G : Vec Ideal S1x128 .f32) (ix2 0 d) = G (ix2 0 d) := by
  obtain ⟨-, -, -, -, -, -, -, -, e0, e1, -⟩ := idx_facts t
  rw [View.read_apply]
  show G _ = G _
  congr 1
  funext a
  apply Fin.ext
  match a with
  | ⟨0, _⟩ => show win0_4.index t 0 * 1 + 1 * 0 = 0; rw [e0]
  | ⟨1, _⟩ => show win0_4.index t 1 * 128 + 1 * d.val = d.val; rw [e1]; omega

theorem blk5_read (t : Fin cfg0.N) (G : Vec Ideal S1x128 .f32) (d : Fin 128) :
    (((cfg0.win 5).blk t).view.read (Elt Ideal) G : Vec Ideal S1x128 .f32) (ix2 0 d) = G (ix2 0 d) := by
  obtain ⟨-, -, -, -, -, -, -, -, -, -, e0, e1⟩ := idx_facts t
  rw [View.read_apply]
  show G _ = G _
  congr 1
  funext a
  apply Fin.ext
  match a with
  | ⟨0, _⟩ => show win0_5.index t 0 * 1 + 1 * 0 = 0; rw [e0]
  | ⟨1, _⟩ => show win0_5.index t 1 * 128 + 1 * d.val = d.val; rw [e1]; omega

theorem flushed3_eq (c : Dev nD) (t : Fin cfg0.N) :
    (dat0 V c).flushed 3 t = ((cfg0.win 3).blk t).view.read (Elt Ideal) (XW V c) := by
  show (cfg0.win 3).cut (grid0.coords t) ((dat0 V c).after 3 t) = _
  rw [after0_3]
  show ((outsAt0 V c t.val t.isLt).1 : Vec Ideal S2048x128 .f32) = (((cfg0.win 3).blk t).view.read (Elt Ideal) (XW V c) : Vec Ideal S2048x128 .f32)
  funext j
  obtain ⟨r, d, rfl⟩ : ∃ (r : Fin 2048) (d : Fin 128), j = ix2 r d := ⟨j 0, j 1, eq_ix2 j⟩
  have h : 2048 * t.val + r.val < 65536 := by
    have := lt_of_lt_of_eq t.isLt (show cfg0.N = 32 from N_0); have := r.isLt; omega
  exact ((outsAt_inv V c t.val t.isLt).1 r d ⟨2048 * t.val + r.val, h⟩ rfl).trans
    (blk3_read t (XW V c) r d ⟨2048 * t.val + r.val, h⟩ rfl).symm

theorem flushed4_eq (c : Dev nD) (t : Fin cfg0.N) (hf : (cfg0.win 4).flush t = true) :
    (dat0 V c).flushed 4 t = ((cfg0.win 4).blk t).view.read (Elt Ideal) (SUM V c) := by
  have hN : cfg0.N = 32 := N_0
  have h31 : t.val = 31 := by have := (flush0_4 t).mp hf; have := t.isLt; omega
  show (cfg0.win 4).cut (grid0.coords t) ((dat0 V c).after 4 t) = _
  rw [after0_4]
  show ((outsAt0 V c t.val t.isLt).2.1 : Vec Ideal S1x128 .f32) = (((cfg0.win 4).blk t).view.read (Elt Ideal) (SUM V c) : Vec Ideal S1x128 .f32)
  funext j
  obtain ⟨z, d, rfl⟩ : ∃ (z : Fin 1) (d : Fin 128), j = ix2 z d := ⟨j 0, j 1, eq_ix2 j⟩
  obtain rfl : z = 0 := Subsingleton.elim _ _
  refine ((outsAt_inv V c t.val t.isLt).2.1 d).trans ?_
  rw [h31, accN_last]
  exact (blk4_read t (SUM V c) d).symm

theorem flushed5_eq (c : Dev nD) (t : Fin cfg0.N) (hf : (cfg0.win 5).flush t = true) :
    (dat0 V c).flushed 5 t = ((cfg0.win 5).blk t).view.read (Elt Ideal) (SUMSQ V c) := by
  have hN : cfg0.N = 32 := N_0
  have h31 : t.val = 31 := by have := (flush0_5 t).mp hf; have := t.isLt; omega
  show (cfg0.win 5).cut (grid0.coords t) ((dat0 V c).after 5 t) = _
  rw [after0_5]
  show ((outsAt0 V c t.val t.isLt).2.2 : Vec Ideal S1x128 .f32) = (((cfg0.win 5).blk t).view.read (Elt Ideal) (SUMSQ V c) : Vec Ideal S1x128 .f32)
  funext j
  obtain ⟨z, d, rfl⟩ : ∃ (z : Fin 1) (d : Fin 128), j = ix2 z d := ⟨j 0, j 1, eq_ix2 j⟩
  obtain rfl : z = 0 := Subsingleton.elim _ _
  refine ((outsAt_inv V c t.val t.isLt).2.2 d).trans ?_
  rw [h31, accN_last]
  exact (blk5_read t (SUMSQ V c) d).symm

theorem mem_blk3 (t : Fin cfg0.N) (i : S65536x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v1_0).slice (win0_3.rect t)).set ↔ _
  rw [View.set_slice_whole, Rect.mem_set_unit]
  exact Iff.rfl

theorem mem_blk4 (t : Fin cfg0.N) (i : S1x128.Idx) :
    i ∈ ((cfg0.win 4).blk t).view.set ↔ ∀ a : Fin 2, win0_4.index t a * S1x128.size a ≤ (i a).val ∧ (i a).val < win0_4.index t a * S1x128.size a + S1x128.size a := by
  show i ∈ ((View.whole main_v1_1).slice (win0_4.rect t)).set ↔ _
  rw [View.set_slice_whole, Rect.mem_set_unit]
  exact Iff.rfl

theorem mem_blk5 (t : Fin cfg0.N) (i : S1x128.Idx) :
    i ∈ ((cfg0.win 5).blk t).view.set ↔ ∀ a : Fin 2, win0_5.index t a * S1x128.size a ≤ (i a).val ∧ (i a).val < win0_5.index t a * S1x128.size a + S1x128.size a := by
  show i ∈ ((View.whole main_v1_2).slice (win0_5.rect t)).set ↔ _
  rw [View.set_slice_whole, Rect.mem_set_unit]
  exact Iff.rfl

theorem cover3 (i : S65536x128.Idx) : ∃ t : Fin cfg0.N, (cfg0.win 3).flush t = true ∧ i ∈ ((cfg0.win 3).blk t).view.set := by
  have hN : cfg0.N = 32 := N_0
  have hi0 : (i 0).val < 65536 := (i 0).isLt
  have hi1 : (i 1).val < 128 := (i 1).isLt
  have ht : (i 0).val / 2048 < cfg0.N := by rw [hN]; omega
  refine ⟨⟨(i 0).val / 2048, ht⟩, flush0_3 _, ?_⟩
  rw [mem_blk3]
  obtain ⟨-, -, -, -, -, -, e0, e1, -⟩ := idx_facts ⟨(i 0).val / 2048, ht⟩
  intro a
  match a with
  | ⟨0, _⟩ =>
    show win0_3.index ⟨(i 0).val / 2048, ht⟩ 0 * 2048 ≤ (i 0).val ∧ (i 0).val < win0_3.index ⟨(i 0).val / 2048, ht⟩ 0 * 2048 + 2048
    rw [e0]; dsimp only; omega
  | ⟨1, _⟩ =>
    show win0_3.index ⟨(i 0).val / 2048, ht⟩ 1 * 128 ≤ (i 1).val ∧ (i 1).val < win0_3.index ⟨(i 0).val / 2048, ht⟩ 1 * 128 + 128
    rw [e1]; omega

theorem cover4 (i : S1x128.Idx) : ∃ t : Fin cfg0.N, (cfg0.win 4).flush t = true ∧ i ∈ ((cfg0.win 4).blk t).view.set := by
  have hN : cfg0.N = 32 := N_0
  have hi0 : (i 0).val < 1 := (i 0).isLt
  have hi1 : (i 1).val < 128 := (i 1).isLt
  have ht : 31 < cfg0.N := by rw [hN]; omega
  refine ⟨⟨31, ht⟩, (flush0_4 _).mpr rfl, ?_⟩
  rw [mem_blk4]
  obtain ⟨-, -, -, -, -, -, -, -, e0, e1, -⟩ := idx_facts ⟨31, ht⟩
  intro a
  match a with
  | ⟨0, _⟩ =>
    show win0_4.index ⟨31, ht⟩ 0 * 1 ≤ (i 0).val ∧ (i 0).val < win0_4.index ⟨31, ht⟩ 0 * 1 + 1
    rw [e0]; omega
  | ⟨1, _⟩ =>
    show win0_4.index ⟨31, ht⟩ 1 * 128 ≤ (i 1).val ∧ (i 1).val < win0_4.index ⟨31, ht⟩ 1 * 128 + 128
    rw [e1]; omega

theorem cover5 (i : S1x128.Idx) : ∃ t : Fin cfg0.N, (cfg0.win 5).flush t = true ∧ i ∈ ((cfg0.win 5).blk t).view.set := by
  have hN : cfg0.N = 32 := N_0
  have hi0 : (i 0).val < 1 := (i 0).isLt
  have hi1 : (i 1).val < 128 := (i 1).isLt
  have ht : 31 < cfg0.N := by rw [hN]; omega
  refine ⟨⟨31, ht⟩, (flush0_5 _).mpr rfl, ?_⟩
  rw [mem_blk5]
  obtain ⟨-, -, -, -, -, -, -, -, -, -, e0, e1⟩ := idx_facts ⟨31, ht⟩
  intro a
  match a with
  | ⟨0, _⟩ =>
    show win0_5.index ⟨31, ht⟩ 0 * 1 ≤ (i 0).val ∧ (i 0).val < win0_5.index ⟨31, ht⟩ 0 * 1 + 1
    rw [e0]; omega
  | ⟨1, _⟩ =>
    show win0_5.index ⟨31, ht⟩ 1 * 128 ≤ (i 1).val ∧ (i 1).val < win0_5.index ⟨31, ht⟩ 1 * 128 + 128
    rw [e1]; omega

theorem xw_eq (c : Dev nD) : (Gen.dat0 V c).arrAt 3 cfg0.N = xwF (V c main_arg0) (V c main_arg4) (V c main_v0) :=
  (dat0 V c).arrAt_eq_of_cover 3 (XW V c) (fun t _ => flushed3_eq V c t) cover3

theorem s_eq (c : Dev nD) : (Gen.dat0 V c).arrAt 4 cfg0.N
    = fun j => ∑ i : Fin 65536, xwF (V c main_arg0) (V c main_arg4) (V c main_v0) (ix2 i (j 1)) :=
  (dat0 V c).arrAt_eq_of_cover 4 (SUM V c) (flushed4_eq V c) cover4

theorem ss_eq (c : Dev nD) : (Gen.dat0 V c).arrAt 5 cfg0.N
    = fun j => ∑ i : Fin 65536, xwF (V c main_arg0) (V c main_arg4) (V c main_v0) (ix2 i (j 1)) * xwF (V c main_arg0) (V c main_arg4) (V c main_v0) (ix2 i (j 1)) :=
  (dat0 V c).arrAt_eq_of_cover 5 (SUMSQ V c) (flushed5_eq V c) cover5

end Cert.KernelIdeal.Reg0

end
-- ==== Proof.Reg1.lean ====
import proofs.«179512_j35983236006070_1_alg».proof.Proof.Gen.KernelIdeal.Frame
import Idealize.ShloMosaic.Lib.ValueIdx
import Idealize.ShloMosaic.Lib.ValueLayout
import Idealize.ShloMosaic.Lib.Pipeline.Value
import Idealize.ShloMosaic.Lib.Tactic
import Idealize.ShloMosaic.PureOps.Ideal.Laws
noncomputable section
open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

abbrev rowOf (t : ℕ) (ht : t < 64) (r : Fin 1024) : Fin 65536 := ⟨1024 * t + r.val, by omega⟩

def blockSum {M : Type*} [AddCommMonoid M] (g : Fin 65536 → M) (t : ℕ) : M :=
  if ht : t < 64 then ∑ r : Fin 1024, g (rowOf t ht r) else 0

theorem blockSum_of_lt {M : Type*} [AddCommMonoid M] (g : Fin 65536 → M) (t : ℕ) (ht : t < 64) :
    blockSum g t = ∑ r : Fin 1024, g (rowOf t ht r) := dif_pos ht

def upTo {M : Type*} [AddCommMonoid M] (g : Fin 65536 → M) (n : ℕ) : M := ∑ t ∈ Finset.range (n + 1), blockSum g t

theorem upTo_zero {M : Type*} [AddCommMonoid M] (g : Fin 65536 → M) :
    upTo g 0 = ∑ r : Fin 1024, g (rowOf 0 (by omega) r) := by
  unfold upTo
  rw [Finset.sum_range_one, blockSum_of_lt g 0 (by omega)]

theorem upTo_succ {M : Type*} [AddCommMonoid M] (g : Fin 65536 → M) (n : ℕ) (h : n + 1 < 64) :
    upTo g (n + 1) = upTo g n + ∑ r : Fin 1024, g (rowOf (n + 1) h r) := by
  unfold upTo
  rw [Finset.sum_range_succ _ (n + 1), blockSum_of_lt g (n + 1) h]

/-- The 64 block sums of 1024 rows regroup into the sum over all 65536 rows. -/
theorem upTo_last {M : Type*} [AddCommMonoid M] (g : Fin 65536 → M) : upTo g 63 = ∑ i : Fin 65536, g i := by
  unfold upTo
  rw [Finset.sum_range (fun t => blockSum g t)]
  rw [← Equiv.sum_comp (finProdFinEquiv (m := 64) (n := 1024)) g, Fintype.sum_prod_type]
  refine Finset.sum_congr rfl fun t _ => ?_
  rw [blockSum_of_lt g t.val t.isLt]
  refine Finset.sum_congr rfl fun r _ => congrArg g (Fin.ext ?_)
  show 1024 * t.val + r.val = r.val + 1024 * t.val
  omega

section Pieces

variable {F : FTy → Type} [FloatOps F]

theorem hz : (![0, 0] : Fin 2 → Nat) = fun _ => 0 := funext fun a => by fin_cases a <;> rfl

variable (c : Dev nD) (i : grid1.Coords)
  (a1 : Memref sig .tc .vmem S1024x128 .f32) (h1 : a1.IsWhole) (a2 : Memref sig .tc .vmem S1x128 .f32) (h2 : a2.IsWhole)
  (a3 : Memref sig .tc .vmem S1x128 .f32) (h3 : a3.IsWhole) (a4 : Memref sig .tc .vmem S1024x1024 .f32) (h4 : a4.IsWhole)
  (a5 : Memref sig .tc .vmem S1024x128 .f32) (h5 : a5.IsWhole) (a6 : Memref sig .tc .vmem S1024x128 .f32) (h6 : a6.IsWhole)
  (a7 : Memref sig .tc .vmem S1x1024 .f32) (h7 : a7.IsWhole)

theorem outA4 (hc : cond1_0 i) (x0 : Vec F S1024x128 .f32) (x1 x2 : Vec F S1x128 .f32) (x3 : Vec F S1024x1024 .f32) :
    out1_A_4 c i a1 h1 a2 h2 a3 h3 a4 h4 a5 h5 a6 h6 a7 h7 hc x0 x1 x2 x3 = k1_pay3 x0 x1 x2 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  try sl_unfold_words
  rw [View.canon_unit_zero hz]
  simp only [View.readAt_eq_ld, h1.read_unread, h2.read_unread, h3.read_unread, h4.read_unread, h6.read_unread, h7.read_unread, View.ld_unit_zero (S := S1024x128) hz, View.ld_unit_zero (S := S1x128) hz, View.ld_unit_zero (S := S1024x1024) hz, View.ld_unit_zero (S := S1x1024) hz]

theorem outA5 (hc : cond1_0 i) (x0 : Vec F S1024x128 .f32) (x1 x2 : Vec F S1x128 .f32) (x3 : Vec F S1024x1024 .f32) :
    out1_A_5 c i a1 h1 a2 h2 a3 h3 a4 h4 a5 h5 a6 h6 a7 h7 hc x0 x1 x2 x3 = k1_pay4 x0 x1 x2 x3 (k1_pay1 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  try sl_unfold_words
  rw [View.canon_cons_unit_zero (S := S1024x128) hz, View.readCov_unit_zero (S := S1024x128) _ hz]
  simp only [View.readAt_eq_ld, h1.read_unread, h2.read_unread, h3.read_unread, h4.read_unread, h6.read_unread, h7.read_unread, View.ld_unit_zero (S := S1024x128) hz, View.ld_unit_zero (S := S1x128) hz, View.ld_unit_zero (S := S1024x1024) hz, View.ld_unit_zero (S := S1x1024) hz]

theorem outA6 (hc : cond1_0 i) (x0 : Vec F S1024x128 .f32) (x1 x2 : Vec F S1x128 .f32) (x3 : Vec F S1024x1024 .f32) :
    out1_A_6 c i a1 h1 a2 h2 a3 h3 a4 h4 a5 h5 a6 h6 a7 h7 hc x0 x1 x2 x3 = k1_pay5 x3 (k1_pay2 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  try sl_unfold_words
  rw [View.canon_cons_unit_zero (S := S1x1024) hz, View.readCov_unit_zero (S := S1x1024) _ hz]
  simp only [View.readAt_eq_ld, h1.read_unread, h2.read_unread, h3.read_unread, h4.read_unread, h6.read_unread, h7.read_unread, View.ld_unit_zero (S := S1024x128) hz, View.ld_unit_zero (S := S1x128) hz, View.ld_unit_zero (S := S1024x1024) hz, View.ld_unit_zero (S := S1x1024) hz]

theorem outB4 (hc : ¬cond1_0 i) (x0 : Vec F S1024x128 .f32) (x1 x2 : Vec F S1x128 .f32) (x3 : Vec F S1024x1024 .f32) (xo5 : Vec F S1024x128 .f32) (xo6 : Vec F S1x1024 .f32) :
    out1_B_4 c i a1 h1 a2 h2 a3 h3 a4 h4 a5 h5 a6 h6 a7 h7 hc x0 x1 x2 x3 xo5 xo6 = k1_pay3 x0 x1 x2 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  try sl_unfold_words
  rw [View.canon_unit_zero hz]
  simp only [View.readAt_eq_ld, h1.read_unread, h2.read_unread, h3.read_unread, h4.read_unread, h6.read_unread, h7.read_unread, View.ld_unit_zero (S := S1024x128) hz, View.ld_unit_zero (S := S1x128) hz, View.ld_unit_zero (S := S1024x1024) hz, View.ld_unit_zero (S := S1x1024) hz]

theorem outB5 (hc : ¬cond1_0 i) (x0 : Vec F S1024x128 .f32) (x1 x2 : Vec F S1x128 .f32) (x3 : Vec F S1024x1024 .f32) (xo5 : Vec F S1024x128 .f32) (xo6 : Vec F S1x1024 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  try sl_unfold_words
  rw [View.canon_unit_zero hz]
  simp only [View.readAt_eq_ld, h1.read_unread, h2.read_unread, h3.read_unread, h4.read_unread, h6.read_unread, h7.read_unread, View.ld_unit_zero (S := S1024x128) hz, View.ld_unit_zero (S := S1x128) hz, View.ld_unit_zero (S := S1024x1024) hz, View.ld_unit_zero (S := S1x1024) hz]

theorem outB6 (hc : ¬cond1_0 i) (x0 : Vec F S1024x128 .f32) (x1 x2 : Vec F S1x128 .f32) (x3 : Vec F S1024x1024 .f32) (xo5 : Vec F S1024x128 .f32) (xo6 : Vec F S1x1024 .f32) :
    out1_B_6 c i a1 h1 a2 h2 a3 h3 a4 h4 a5 h5 a6 h6 a7 h7 hc x0 x1 x2 x3 xo5 xo6 = k1_pay5 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  try sl_unfold_words
  rw [View.canon_unit_zero hz]
  simp only [View.readAt_eq_ld, h1.read_unread, h2.read_unread, h3.read_unread, h4.read_unread, h6.read_unread, h7.read_unread, View.ld_unit_zero (S := S1024x128) hz, View.ld_unit_zero (S := S1x128) hz, View.ld_unit_zero (S := S1024x1024) hz, View.ld_unit_zero (S := S1x1024) hz]

end Pieces

theorem pay1_apply (j : S1024x128.Idx) : (k1_pay1 (F := Ideal)) j = 0 := by
  show Ideal.ofBits .f32 0x00000000#32 = 0
  exact Ideal.ofBits_zero_f32

theorem pay2_apply (j : S1x1024.Idx) : (k1_pay2 (F := Ideal)) j = 0 := by
  show Ideal.ofBits .f32 0x00000000#32 = 0
  exact Ideal.ofBits_zero_f32

theorem pay3_apply (x0 : Vec Ideal S1024x128 .f32) (x1 x2 : Vec Ideal S1x128 .f32) (r : Fin 1024) (d : Fin 128) :
    k1_pay3 x0 x1 x2 (ix2 r d) = (x0 (ix2 r d) - x1 (ix2 0 d)) * x2 (ix2 0 d) := by
  unfold k1_pay3
  simp only [shapeCast_self]
  show (x0 (ix2 r d) - broadcastTo S1024x128 x1 _ (ix2 r d)) * broadcastTo S1024x128 x2 _ (ix2 r d) = _
  rw [broadcastTo_1b_ab_apply, broadcastTo_1b_ab_apply]

theorem lhs_0 (j : S1024x128.Idx) (k : dot_S1024x1024_S1024x128_S1024x128_0_0_1_1_n_n.contr.Idx) :
    (dot_S1024x1024_S1024x128_S1024x128_0_0_1_1_n_n.lhsIdx j k 0 : ℕ) = k ⟨0, by decide⟩ :=
  dot_S1024x1024_S1024x128_S1024x128_0_0_1_1_n_n.lhsIdx_val_of_single rfl j k
theorem lhs_1 (j : S1024x128.Idx) (k : dot_S1024x1024_S1024x128_S1024x128_0_0_1_1_n_n.contr.Idx) :
    (dot_S1024x1024_S1024x128_S1024x128_0_0_1_1_n_n.lhsIdx j k 1 : ℕ) = j 0 := by
  simp [DotDims.lhsIdx, dot_S1024x1024_S1024x128_S1024x128_0_0_1_1_n_n]; rfl
theorem rhs_0 (j : S1024x128.Idx) (k : dot_S1024x1024_S1024x128_S1024x128_0_0_1_1_n_n.contr.Idx) :
    (dot_S1024x1024_S1024x128_S1024x128_0_0_1_1_n_n.rhsIdx j k 0 : ℕ) = k ⟨0, by decide⟩ :=
  dot_S1024x1024_S1024x128_S1024x128_0_0_1_1_n_n.rhsIdx_val_of_single rfl j k
theorem rhs_1 (j : S1024x128.Idx) (k : dot_S1024x1024_S1024x128_S1024x128_0_0_1_1_n_n.contr.Idx) :
    (dot_S1024x1024_S1024x128_S1024x128_0_0_1_1_n_n.rhsIdx j k 1 : ℕ) = j 1 := by
  simp [DotDims.rhsIdx, dot_S1024x1024_S1024x128_S1024x128_0_0_1_1_n_n]; rfl

theorem mm_apply (A : FVec Ideal S1024x1024 .bf16) (B : FVec Ideal S1024x128 .bf16) (s : Fin 1024) (d : Fin 128) :
    matmul dot_S1024x1024_S1024x128_S1024x128_0_0_1_1_n_n none A B (constant (F := Ideal) S1024x128 .f32 0x00000000#32) (ix2 s d)
      = ∑ r : Fin 1024, A (ix2 r s) * B (ix2 r d) := by
  refine (Ideal.matmul_constant_zero_apply dot_S1024x1024_S1024x128_S1024x128_0_0_1_1_n_n none A B (ix2 s d)).trans ?_
  rw [← Equiv.sum_comp (contrEquiv1 dot_S1024x1024_S1024x128_S1024x128_0_0_1_1_n_n 1024 rfl rfl).symm]
  refine Finset.sum_congr rfl fun r _ => ?_
  congr 1
  · refine congrArg A (funext fun a => Fin.ext ?_)
    match a with
    | ⟨0, _⟩ => exact (lhs_0 _ _).trans (contrEquiv1_symm_val dot_S1024x1024_S1024x128_S1024x128_0_0_1_1_n_n 1024 rfl rfl r)
    | ⟨1, _⟩ => exact lhs_1 _ _
  · refine congrArg B (funext fun a => Fin.ext ?_)
    match a with
    | ⟨0, _⟩ => exact (rhs_0 _ _).trans (contrEquiv1_symm_val dot_S1024x1024_S1024x128_S1024x128_0_0_1_1_n_n 1024 rfl rfl r)
    | ⟨1, _⟩ => exact rhs_1 _ _

theorem pay4_apply (x0 : Vec Ideal S1024x128 .f32) (x1 x2 : Vec Ideal S1x128 .f32) (x3 : Vec Ideal S1024x1024 .f32)
    (acc : Vec Ideal S1024x128 .f32) (s : Fin 1024) (d : Fin 128) :
    k1_pay4 x0 x1 x2 x3 acc (ix2 s d) = acc (ix2 s d) + ∑ r : Fin 1024, x3 (ix2 r s) * k1_pay3 x0 x1 x2 (ix2 r d) := by
  unfold k1_pay4
  simp only [shapeCast_self]
  show acc (ix2 s d) + matmul dot_S1024x1024_S1024x128_S1024x128_0_0_1_1_n_n none (truncf .bf16 x3 _) (truncf .bf16 (k1_pay3 x0 x1 x2) _)
    (constant (F := Ideal) S1024x128 .f32 0x00000000#32) (ix2 s d) = _
  rw [mm_apply]
  rfl

theorem pay5_apply (x3 : Vec Ideal S1024x1024 .f32) (acc : Vec Ideal S1x1024 .f32) (s : Fin 1024) :
    k1_pay5 x3 acc (ix2 0 s) = acc (ix2 0 s) + ∑ r : Fin 1024, x3 (ix2 r s) := by
  unfold k1_pay5
  simp only [shapeCast_self]
  show acc (ix2 0 s) + (shapeCast S1x1024 (multiReduction (F := Ideal) .add [0] S1024 x3 0x00000000#32 _ _ _ : FVec Ideal S1024 .f32) _ : FVec Ideal S1x1024 .f32) (ix2 (0 : Fin 1) s) = _
  rw [shapeCast_a_1a_apply]
  refine congrArg (acc (ix2 0 s) + ·) ?_
  refine (Ideal.multiReduction_add_single x3 0x00000000#32 _ _ _ (ix1 s)).trans ?_
  refine Finset.sum_congr rfl fun r _ => congrArg x3 (funext fun a => Fin.ext ?_)
  match a with
  | ⟨0, _⟩ => rfl
  | ⟨1, _⟩ => rfl

variable (V : (c : Dev nD) → (b : Ref sig .tc) → Buf (Elt Ideal) ((c : Thread nD τ).loc b))

def hF (XW : Vec Ideal S65536x128 .f32) (Mn Is : Vec Ideal S1x128 .f32) : Vec Ideal S65536x128 .f32 :=
  fun j => (XW j - Mn (ix2 0 (j 1))) * Is (ix2 0 (j 1))

abbrev XW (c : Dev nD) : Vec Ideal S65536x128 .f32 := V c main_v1_0
abbrev Mn (c : Dev nD) : Vec Ideal S1x128 .f32 := V c main_v3
abbrev Is (c : Dev nD) : Vec Ideal S1x128 .f32 := V c main_v10
abbrev Q (c : Dev nD) : Vec Ideal S65536x1024 .f32 := V c main_arg1
abbrev H (c : Dev nD) : Vec Ideal S65536x128 .f32 := hF (XW V c) (Mn V c) (Is V c)

abbrev xwB (c : Dev nD) (t : Fin cfg1.N) : Vec Ideal S1024x128 .f32 := iblk1 V c 0 t
abbrev mnB (c : Dev nD) (t : Fin cfg1.N) : Vec Ideal S1x128 .f32 := iblk1 V c 1 t
abbrev isB (c : Dev nD) (t : Fin cfg1.N) : Vec Ideal S1x128 .f32 := iblk1 V c 2 t
abbrev qB (c : Dev nD) (t : Fin cfg1.N) : Vec Ideal S1024x1024 .f32 := iblk1 V c 3 t

theorem tlt (t : Fin cfg1.N) : t.val < 64 := lt_of_lt_of_eq t.isLt (show cfg1.N = 64 from N_1)

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem xwB_apply (c : Dev nD) (t : Fin cfg1.N) (r : Fin 1024) (d : Fin 128) :
    xwB V c t (ix2 r d) = XW V c (ix2 (rowOf t.val (tlt t) r) d) := by
  obtain ⟨e0, e1, -⟩ := idx_facts t
  unfold xwB iblk1
  rw [View.read_apply]
  show V c main_v1_0 _ = V c main_v1_0 _
  congr 1
  funext a
  apply Fin.ext
  match a with
  | ⟨0, _⟩ => show win1_0.index t (0 : Fin 2) * 1024 + 1 * r.val = 1024 * t.val + r.val; rw [e0]; omega
  | ⟨1, _⟩ => show win1_0.index t (1 : Fin 2) * 128 + 1 * d.val = d.val; rw [e1]; omega

theorem mnB_apply (c : Dev nD) (t : Fin cfg1.N) (d : Fin 128) : mnB V c t (ix2 0 d) = Mn V c (ix2 0 d) := by
  obtain ⟨-, -, e0, e1, -⟩ := idx_facts t
  unfold mnB iblk1
  rw [View.read_apply]
  show V c main_v3 _ = V c main_v3 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * d.val = d.val; rw [e1]; omega

theorem isB_apply (c : Dev nD) (t : Fin cfg1.N) (d : Fin 128) : isB V c t (ix2 0 d) = Is V c (ix2 0 d) := by
  obtain ⟨-, -, -, -, e0, e1, -⟩ := idx_facts t
  unfold isB iblk1
  rw [View.read_apply]
  show V c main_v10 _ = V c main_v10 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * d.val = d.val; rw [e1]; omega

theorem qB_apply (c : Dev nD) (t : Fin cfg1.N) (r s : Fin 1024) :
    qB V c t (ix2 r s) = Q V c (ix2 (rowOf t.val (tlt t) r) s) := by
  obtain ⟨-, -, -, -, -, -, e0, e1, -⟩ := idx_facts t
  unfold qB iblk1
  rw [View.read_apply]
  show V c main_arg1 _ = V c main_arg1 _
  congr 1
  funext a
  apply Fin.ext
  match a with
  | ⟨0, _⟩ => show win1_3.index t (0 : Fin 2) * 1024 + 1 * r.val = 1024 * t.val + r.val; rw [e0]; omega
  | ⟨1, _⟩ => show win1_3.index t (1 : Fin 2) * 1024 + 1 * s.val = s.val; rw [e1]; omega

theorem hB_apply (c : Dev nD) (t : Fin cfg1.N) (r : Fin 1024) (d : Fin 128) :
    k1_pay3 (xwB V c t) (mnB V c t) (isB V c t) (ix2 r d) = H V c (ix2 (rowOf t.val (tlt t) r) d) := by
  rw [pay3_apply, xwB_apply, mnB_apply, isB_apply]
  rfl

theorem outs_A (c : Dev nD) (t : Fin cfg1.N) (h0 : t.val % 64 = 0) :
    outsAt1 V c t.val t.isLt
      = (k1_pay3 (xwB V c t) (mnB V c t) (isB V c t),
         k1_pay4 (xwB V c t) (mnB V c t) (isB V c t) (qB V c t) (k1_pay1 (F := Ideal)),
         k1_pay5 (qB V c t) (k1_pay2 (F := Ideal))) := by
  rw [outsAt1_A V c t h0,
    outA4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t),
    outA5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t),
    outA6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)]

theorem outs_B (c : Dev nD) (t : Fin cfg1.N) (h0 : ¬t.val % 64 = 0) :
    outsAt1 V c t.val t.isLt
      = (k1_pay3 (xwB V c t) (mnB V c t) (isB V c t),
         k1_pay4 (xwB V c t) (mnB V c t) (isB V c t) (qB V c t) (outsAt1 V c (t.val - 1) (Nat.lt_of_le_of_lt (Nat.sub_le _ _) t.isLt)).2.1,
         k1_pay5 (qB V c t) (outsAt1 V c (t.val - 1) (Nat.lt_of_le_of_lt (Nat.sub_le _ _) t.isLt)).2.2) := by
  rw [outsAt1_B V c t h0,
    outB4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
    outB5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2,
    outB6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2]

theorem h_blk (c : Dev nD) (t : Fin cfg1.N) :
    ((outsAt1 V c t.val t.isLt).1 : Vec Ideal S1024x128 .f32) = k1_pay3 (xwB V c t) (mnB V c t) (isB V c t) := by
  by_cases h0 : t.val % 64 = 0
  · exact congrArg Prod.fst (outs_A V c t h0)
  · exact congrArg Prod.fst (outs_B V c t h0)

/-- After block n the pooled products hold the sums over the rows of blocks 0 to n. -/
theorem qh_inv (c : Dev nD) : ∀ (n : ℕ) (hn : n < cfg1.N) (s : Fin 1024) (d : Fin 128),
    ((outsAt1 V c n hn).2.1 : Vec Ideal S1024x128 .f32) (ix2 s d)
      = upTo (fun i => Q V c (ix2 i s) * H V c (ix2 i d)) n
  | 0, hn, s, d => by
    rw [outs_A V c ⟨0, hn⟩ (Nat.zero_mod _)]
    show k1_pay4 (xwB V c ⟨0, hn⟩) (mnB V c ⟨0, hn⟩) (isB V c ⟨0, hn⟩) (qB V c ⟨0, hn⟩) (k1_pay1 (F := Ideal)) (ix2 s d) = _
    rw [pay4_apply, pay1_apply, zero_add, upTo_zero]
    refine Finset.sum_congr rfl fun r _ => ?_
    rw [qB_apply, hB_apply]
  | n + 1, hn, s, d => by
    have hN : cfg1.N = 64 := N_1
    have hB : ¬(⟨n + 1, hn⟩ : Fin cfg1.N).val % 64 = 0 := by dsimp only; omega
    rw [outs_B V c ⟨n + 1, hn⟩ hB]
    show k1_pay4 (xwB V c ⟨n + 1, hn⟩) (mnB V c ⟨n + 1, hn⟩) (isB V c ⟨n + 1, hn⟩) (qB V c ⟨n + 1, hn⟩)
      (outsAt1 V c n (Nat.lt_of_succ_lt hn)).2.1 (ix2 s d) = _
    rw [pay4_apply, qh_inv c n (Nat.lt_of_succ_lt hn) s d, upTo_succ _ n (by omega)]
    refine congrArg (upTo _ n + ·) (Finset.sum_congr rfl fun r _ => ?_)
    rw [qB_apply, hB_apply]

/-- After block n the column sums of Q hold the sums over the rows of blocks 0 to n. -/
theorem cs_inv (c : Dev nD) : ∀ (n : ℕ) (hn : n < cfg1.N) (s : Fin 1024),
    ((outsAt1 V c n hn).2.2 : Vec Ideal S1x1024 .f32) (ix2 0 s) = upTo (fun i => Q V c (ix2 i s)) n
  | 0, hn, s => by
    rw [outs_A V c ⟨0, hn⟩ (Nat.zero_mod _)]
    show k1_pay5 (qB V c ⟨0, hn⟩) (k1_pay2 (F := Ideal)) (ix2 0 s) = _
    rw [pay5_apply, pay2_apply, zero_add, upTo_zero]
    refine Finset.sum_congr rfl fun r _ => ?_
    rw [qB_apply]
  | n + 1, hn, s => by
    have hN : cfg1.N = 64 := N_1
    have hB : ¬(⟨n + 1, hn⟩ : Fin cfg1.N).val % 64 = 0 := by dsimp only; omega
    rw [outs_B V c ⟨n + 1, hn⟩ hB]
    show k1_pay5 (qB V c ⟨n + 1, hn⟩) (outsAt1 V c n (Nat.lt_of_succ_lt hn)).2.2 (ix2 0 s) = _
    rw [pay5_apply, cs_inv c n (Nat.lt_of_succ_lt hn) s, upTo_succ _ n (by omega)]
    refine congrArg (upTo _ n + ·) (Finset.sum_congr rfl fun r _ => ?_)
    rw [qB_apply]

theorem mem_blk4 (t : Fin cfg1.N) (i : S65536x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v11_0).slice (win1_4.rect t)).set ↔ _
  rw [View.set_slice_whole, Rect.mem_set_unit]
  exact Iff.rfl

theorem mem_blk5 (t : Fin cfg1.N) (i : S1024x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v11_1).slice (win1_5.rect t)).set ↔ _
  rw [View.set_slice_whole, Rect.mem_set_unit]
  exact Iff.rfl

theorem mem_blk6 (t : Fin cfg1.N) (i : S1x1024.Idx) :
    i ∈ ((cfg1.win 6).blk t).view.set ↔ ∀ a : Fin 2, win1_6.index t a * S1x1024.size a ≤ (i a).val ∧ (i a).val < win1_6.index t a * S1x1024.size a + S1x1024.size a := by
  show i ∈ ((View.whole main_v11_2).slice (win1_6.rect t)).set ↔ _
  rw [View.set_slice_whole, Rect.mem_set_unit]
  exact Iff.rfl

theorem flushed4_eq (c : Dev nD) (t : Fin cfg1.N) :
    (dat1 V c).flushed 4 t = ((cfg1.win 4).blk t).view.read (Elt Ideal) (H V c) := by
  show (cfg1.win 4).cut (grid1.coords t) ((dat1 V c).after 4 t) = _
  rw [after1_4, h_blk V c t]
  obtain ⟨-, -, -, -, -, -, -, -, e0, e1, -⟩ := idx_facts t
  funext j
  obtain ⟨r, d, rfl⟩ : ∃ (r : Fin 1024) (d : Fin 128), j = ix2 r d := ⟨j 0, j 1, eq_ix2 j⟩
  show k1_pay3 (xwB V c t) (mnB V c t) (isB V c t) (ix2 r d) = H V c (((cfg1.win 4).blk t).view.emb (ix2 r d))
  rw [hB_apply]
  refine congrArg (H V c) (funext fun a => Fin.ext ?_)
  match a with
  | ⟨0, _⟩ => show 1024 * t.val + r.val = win1_4.index t (0 : Fin 2) * 1024 + 1 * r.val; rw [e0]; omega
  | ⟨1, _⟩ => show d.val = win1_4.index t (1 : Fin 2) * 128 + 1 * d.val; rw [e1]; omega

theorem cover4 (i : S65536x128.Idx) :
    ∃ t : Fin cfg1.N, (cfg1.win 4).flush t = true ∧ i ∈ ((cfg1.win 4).blk t).view.set := by
  have h0 : (i 0).val < 65536 := idx2_lt0 i
  have h1 : (i 1).val < 128 := idx2_lt1 i
  have hN : cfg1.N = 64 := N_1
  have ht : (i 0).val / 1024 < cfg1.N := by rw [hN]; omega
  obtain ⟨-, -, -, -, -, -, -, -, e0, e1, -⟩ := idx_facts ⟨(i 0).val / 1024, ht⟩
  refine ⟨⟨(i 0).val / 1024, ht⟩, flush1_4 _, ?_⟩
  rw [mem_blk4]
  intro a
  match a with
  | ⟨0, _⟩ =>
    show win1_4.index ⟨(i 0).val / 1024, ht⟩ (0 : Fin 2) * 1024 ≤ (i 0).val ∧ (i 0).val < win1_4.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win1_4.index ⟨(i 0).val / 1024, ht⟩ (1 : Fin 2) * 128 ≤ (i 1).val ∧ (i 1).val < win1_4.index ⟨(i 0).val / 1024, ht⟩ (1 : Fin 2) * 128 + 128
    rw [e1]; omega

def qhF (c : Dev nD) : Vec Ideal S1024x128 .f32 :=
  fun j => ∑ i : Fin 65536, Q V c (ix2 i (j 0)) * H V c (ix2 i (j 1))

def csF (c : Dev nD) : Vec Ideal S1x1024 .f32 :=
  fun j => ∑ i : Fin 65536, Q V c (ix2 i (j 1))

theorem blk5_read (t : Fin cfg1.N) (G : Vec Ideal S1024x128 .f32) :
    (cfg1.win 5).cut (grid1.coords t) G = ((cfg1.win 5).blk t).view.read (Elt Ideal) G := by
  obtain ⟨-, -, -, -, -, -, -, -, -, -, e0, e1, -⟩ := idx_facts t
  funext j
  obtain ⟨s, d, rfl⟩ : ∃ (s : Fin 1024) (d : Fin 128), j = ix2 s d := ⟨j 0, j 1, eq_ix2 j⟩
  show G (ix2 s d) = G (((cfg1.win 5).blk t).view.emb (ix2 s d))
  refine congrArg G (funext fun a => Fin.ext ?_)
  match a with
  | ⟨0, _⟩ => show s.val = win1_5.index t (0 : Fin 2) * 1024 + 1 * s.val; rw [e0]; omega
  | ⟨1, _⟩ => show d.val = win1_5.index t (1 : Fin 2) * 128 + 1 * d.val; rw [e1]; omega

theorem blk6_read (t : Fin cfg1.N) (G : Vec Ideal S1x1024 .f32) :
    (cfg1.win 6).cut (grid1.coords t) G = ((cfg1.win 6).blk t).view.read (Elt Ideal) G := by
  obtain ⟨-, -, -, -, -, -, -, -, -, -, -, -, e0, e1⟩ := idx_facts t
  funext j
  obtain ⟨u, s, rfl⟩ : ∃ (u : Fin 1) (s : Fin 1024), j = ix2 u s := ⟨j 0, j 1, eq_ix2 j⟩
  show G (ix2 u s) = G (((cfg1.win 6).blk t).view.emb (ix2 u s))
  refine congrArg G (funext fun a => Fin.ext ?_)
  match a with
  | ⟨0, _⟩ => show u.val = win1_6.index t (0 : Fin 2) * 1 + 1 * u.val; rw [e0]; omega
  | ⟨1, _⟩ => show s.val = win1_6.index t (1 : Fin 2) * 1024 + 1 * s.val; rw [e1]; omega

theorem qh_last (c : Dev nD) (t : Fin cfg1.N) (h63 : t.val = 63) :
    ((outsAt1 V c t.val t.isLt).2.1 : Vec Ideal S1024x128 .f32) = qhF V c := by
  funext j
  obtain ⟨s, d, rfl⟩ : ∃ (s : Fin 1024) (d : Fin 128), j = ix2 s d := ⟨j 0, j 1, eq_ix2 j⟩
  rw [qh_inv V c t.val t.isLt s d]
  exact (congrArg (upTo _) h63).trans (upTo_last _)

theorem cs_last (c : Dev nD) (t : Fin cfg1.N) (h63 : t.val = 63) :
    ((outsAt1 V c t.val t.isLt).2.2 : Vec Ideal S1x1024 .f32) = csF V c := by
  funext j
  obtain ⟨u, s, rfl⟩ : ∃ (u : Fin 1) (s : Fin 1024), j = ix2 u s := ⟨j 0, j 1, eq_ix2 j⟩
  obtain rfl : u = 0 := Subsingleton.elim _ _
  rw [cs_inv V c t.val t.isLt s]
  exact (congrArg (upTo _) h63).trans (upTo_last _)

theorem flushed5_eq (c : Dev nD) (t : Fin cfg1.N) (hf : (cfg1.win 5).flush t = true) :
    (dat1 V c).flushed 5 t = ((cfg1.win 5).blk t).view.read (Elt Ideal) (qhF V c) := by
  have h63 : t.val = 63 := by have := (flush1_5 t).mp hf; have := tlt t; omega
  show (cfg1.win 5).cut (grid1.coords t) ((dat1 V c).after 5 t) = _
  rw [after1_5, qh_last V c t h63]
  exact blk5_read t _

theorem flushed6_eq (c : Dev nD) (t : Fin cfg1.N) (hf : (cfg1.win 6).flush t = true) :
    (dat1 V c).flushed 6 t = ((cfg1.win 6).blk t).view.read (Elt Ideal) (csF V c) := by
  have h63 : t.val = 63 := by have := (flush1_6 t).mp hf; have := tlt t; omega
  show (cfg1.win 6).cut (grid1.coords t) ((dat1 V c).after 6 t) = _
  rw [after1_6, cs_last V c t h63]
  exact blk6_read t _

theorem cover5 (i : S1024x128.Idx) :
    ∃ t : Fin cfg1.N, (cfg1.win 5).flush t = true ∧ i ∈ ((cfg1.win 5).blk t).view.set := by
  have h0 : (i 0).val < 1024 := idx2_lt0 i
  have h1 : (i 1).val < 128 := idx2_lt1 i
  have ht : 63 < cfg1.N := by rw [show cfg1.N = 64 from N_1]; omega
  obtain ⟨-, -, -, -, -, -, -, -, -, -, e0, e1, -⟩ := idx_facts ⟨63, ht⟩
  refine ⟨⟨63, ht⟩, (flush1_5 _).mpr rfl, ?_⟩
  rw [mem_blk5]
  intro a
  match a with
  | ⟨0, _⟩ =>
    show win1_5.index ⟨63, ht⟩ (0 : Fin 2) * 1024 ≤ (i 0).val ∧ (i 0).val < win1_5.index ⟨63, ht⟩ (0 : Fin 2) * 1024 + 1024
    rw [e0]; omega
  | ⟨1, _⟩ =>
    show win1_5.index ⟨63, ht⟩ (1 : Fin 2) * 128 ≤ (i 1).val ∧ (i 1).val < win1_5.index ⟨63, ht⟩ (1 : Fin 2) * 128 + 128
    rw [e1]; omega

theorem cover6 (i : S1x1024.Idx) :
    ∃ t : Fin cfg1.N, (cfg1.win 6).flush t = true ∧ i ∈ ((cfg1.win 6).blk t).view.set := by
  have h0 : (i 0).val < 1 := idx2_lt0 i
  have h1 : (i 1).val < 1024 := idx2_lt1 i
  have ht : 63 < cfg1.N := by rw [show cfg1.N = 64 from N_1]; omega
  obtain ⟨-, -, -, -, -, -, -, -, -, -, -, -, e0, e1⟩ := idx_facts ⟨63, ht⟩
  refine ⟨⟨63, ht⟩, (flush1_6 _).mpr rfl, ?_⟩
  rw [mem_blk6]
  intro a
  match a with
  | ⟨0, _⟩ =>
    show win1_6.index ⟨63, ht⟩ (0 : Fin 2) * 1 ≤ (i 0).val ∧ (i 0).val < win1_6.index ⟨63, ht⟩ (0 : Fin 2) * 1 + 1
    rw [e0]; omega
  | ⟨1, _⟩ =>
    show win1_6.index ⟨63, ht⟩ (1 : Fin 2) * 1024 ≤ (i 1).val ∧ (i 1).val < win1_6.index ⟨63, ht⟩ (1 : Fin 2) * 1024 + 1024
    rw [e1]; omega

theorem h_eq (c : Dev nD) : (Gen.dat1 V c).arrAt 4 cfg1.N = hF (V c main_v1_0) (V c main_v3) (V c main_v10) :=
  (dat1 V c).arrAt_eq_of_cover 4 (H V c) (fun t _ => flushed4_eq V c t) cover4

theorem qh_eq (c : Dev nD) : (Gen.dat1 V c).arrAt 5 cfg1.N
    = ((fun j => ∑ i : Fin 65536, Q V c (ix2 i (j 0)) * H V c (ix2 i (j 1))) : Vec Ideal S1024x128 .f32) :=
  (dat1 V c).arrAt_eq_of_cover 5 (qhF V c) (flushed5_eq V c) cover5

theorem colsum_eq (c : Dev nD) : (Gen.dat1 V c).arrAt 6 cfg1.N
    = ((fun j => ∑ i : Fin 65536, Q V c (ix2 i (j 1))) : Vec Ideal S1x1024 .f32) :=
  (dat1 V c).arrAt_eq_of_cover 6 (csF V c) (flushed6_eq V c) cover6

end Cert.KernelIdeal.Reg1

end
-- ==== Proof.Reg2.lean ====
import proofs.«179512_j35983236006070_1_alg».proof.Proof.Gen.KernelIdeal.Frame
import proofs.«179512_j35983236006070_1_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Reg2

open Cert.KernelIdeal Cert.KernelIdeal.Gen

abbrev negInf : EReal := Ideal.ofBits .f32 0xFF800000#32

def rowMax (r : Fin 16 → EReal) : EReal :=
  max negInf ((Finset.univ : Finset (Fin 16)).fold max negInf r)

def rowSm (r : Fin 16 → EReal) (q : Fin 16) : EReal :=
  Ideal.div (Ideal.exp (r q - rowMax r)) (∑ e : Fin 16, Ideal.exp (r e - rowMax r))

section Rows
variable {n : Nat}

theorem lift_row (h : (⟨2, ![n, 16]⟩ : Shape).Reduces [1] ⟨1, ![n]⟩) (p : Fin n) (k : Fin ((⟨2, ![n, 16]⟩ : Shape).size 1)) :
    h.lift (ix1 p) k = ix2 p (⟨k.val, k.isLt⟩ : Fin 16) := by
  funext c; apply Fin.ext
  fin_cases c <;> rfl

theorem kerRowMax_apply (L : FVec Ideal ⟨2, ![n, 16]⟩ .f32) (h : (⟨2, ![n, 16]⟩ : Shape).Reduces [1] ⟨1, ![n]⟩) (hφ : FKind.Formats .f32)
    (hacc : (0xFF800000#32 : BitVec 32) = FKind.maximumf.neutral .f32 hφ) (p : Fin n) :
    multiReduction .maximumf [1] ⟨1, ![n]⟩ L 0xFF800000#32 h hφ hacc (ix1 p)
      = (Finset.univ : Finset (Fin 16)).fold max negInf (fun e => L (ix2 p e)) := by
  refine (Ideal.multiReduction_maximumf_single L _ h hφ hacc (ix1 p)).trans ?_
  have hf : (L ∘ h.lift (ix1 p)) = fun e : Fin 16 => L (ix2 p e) := funext fun k => congrArg L (lift_row h p k)
  exact congrArg (fun f => Finset.fold max negInf f (Finset.univ : Finset (Fin 16))) hf

theorem kerRowSum_apply (E : FVec Ideal ⟨2, ![n, 16]⟩ .f32) (h : (⟨2, ![n, 16]⟩ : Shape).Reduces [1] ⟨1, ![n]⟩) (hφ : FKind.Formats .f32)
    (hacc : (0x00000000#32 : BitVec 32) = FKind.add.neutral .f32 hφ) (p : Fin n) :
    multiReduction .add [1] ⟨1, ![n]⟩ E 0x00000000#32 h hφ hacc (ix1 p) = ∑ e : Fin 16, E (ix2 p e) := by
  refine (Ideal.multiReduction_add_single E _ h hφ hacc (ix1 p)).trans ?_
  exact Finset.sum_congr rfl fun k _ => congrArg E (lift_row h p k)

theorem colBroadcast_apply {α : Type} (v : (⟨1, ![n]⟩ : Shape).Idx → α) (hsc : (⟨1, ![n]⟩ : Shape).ShapeCasts ⟨2, ![n, 1]⟩)
    (hbc : (⟨2, ![n, 1]⟩ : Shape).Broadcasts ⟨2, ![n, 16]⟩) (p : Fin n) (q : Fin 16) :
    broadcastTo ⟨2, ![n, 16]⟩ (shapeCast ⟨2, ![n, 1]⟩ v hsc) hbc (ix2 p q) = v (ix1 p) := by
  refine (broadcastTo_apply _ hbc (ix2 p q) (ix2 p (0 : Fin 1)) fun a => ?_).trans ?_
  · match a with
    | ⟨0, _⟩ =>
      show p.val = if n = 1 then 0 else p.val
      split
      · have := p.isLt; omega
      · rfl
    | ⟨1, _⟩ => rfl
  · exact shapeCast_apply v hsc _ _ (by
      rw [Shape.rowMajor_val_one, Shape.rowMajor_val_two]
      show p.val = p.val * 1 + 0
      omega)

theorem kerSoftmax_apply (L : FVec Ideal ⟨2, ![n, 16]⟩ .f32) (hr : (⟨2, ![n, 16]⟩ : Shape).Reduces [1] ⟨1, ![n]⟩)
    (hφ hφ' : FKind.Formats .f32) (hm : (0xFF800000#32 : BitVec 32) = FKind.maximumf.neutral .f32 hφ)
    (ha : (0x00000000#32 : BitVec 32) = FKind.add.neutral .f32 hφ')
    (hsc : (⟨1, ![n]⟩ : Shape).ShapeCasts ⟨2, ![n, 1]⟩) (hbc : (⟨2, ![n, 1]⟩ : Shape).Broadcasts ⟨2, ![n, 16]⟩) (p : Fin n) (q : Fin 16) :
    divf (exp (subf L (broadcastTo ⟨2, ![n, 16]⟩ (shapeCast ⟨2, ![n, 1]⟩
            (maximumf (broadcast ⟨1, ![n]⟩ (Scalar.ofBits (F := Ideal) .f32 0xFF800000#32))
              (multiReduction .maximumf [1] ⟨1, ![n]⟩ L 0xFF800000#32 hr hφ hm)) hsc) hbc)))
        (broadcastTo ⟨2, ![n, 16]⟩ (shapeCast ⟨2, ![n, 1]⟩
          (multiReduction .add [1] ⟨1, ![n]⟩ (exp (subf L (broadcastTo ⟨2, ![n, 16]⟩ (shapeCast ⟨2, ![n, 1]⟩
            (maximumf (broadcast ⟨1, ![n]⟩ (Scalar.ofBits (F := Ideal) .f32 0xFF800000#32))
              (multiReduction .maximumf [1] ⟨1, ![n]⟩ L 0xFF800000#32 hr hφ hm)) hsc) hbc))) 0x00000000#32 hr hφ' ha) hsc) hbc)
        (ix2 p q)
      = rowSm (fun e => L (ix2 p e)) q := by
  have hmx : ∀ e : Fin 16, (broadcastTo ⟨2, ![n, 16]⟩ (shapeCast ⟨2, ![n, 1]⟩
            (maximumf (broadcast ⟨1, ![n]⟩ (Scalar.ofBits (F := Ideal) .f32 0xFF800000#32))
              (multiReduction .maximumf [1] ⟨1, ![n]⟩ L 0xFF800000#32 hr hφ hm)) hsc) hbc) (ix2 p e)
        = rowMax (fun e => L (ix2 p e)) := fun e => by
    rw [colBroadcast_apply]
    show max negInf (multiReduction .maximumf [1] ⟨1, ![n]⟩ L 0xFF800000#32 hr hφ hm (ix1 p)) = _
    rw [kerRowMax_apply]
    rfl
  show Ideal.div (Ideal.exp (L (ix2 p q) - _)) _ = _
  rw [hmx q, colBroadcast_apply, kerRowSum_apply]
  unfold rowSm
  refine congrArg (Ideal.div _) (Finset.sum_congr rfl fun e _ => ?_)
  show Ideal.exp (L (ix2 p e) - _) = _
  rw [hmx e]

end Rows

def logitsF (Q : Vec Ideal S65536x1024 .f32) (H1 : Vec Ideal S1024x128 .f32) (M : Vec Ideal S65536x128 .f32)
    (OW : Vec Ideal S128x16 .f32) (OB : Vec Ideal S1x16 .f32) : Vec Ideal S65536x16 .f32 :=
  fun j => (∑ k : Fin 128, ((∑ s : Fin 1024, Q (ix2 (j 0) s) * H1 (ix2 s k)) + M (ix2 (j 0) k)) * OW (ix2 k (j 1))) + OB (ix2 0 (j 1))

def smF (L : Vec Ideal S65536x16 .f32) : Vec Ideal S65536x16 .f32 :=
  fun j => rowSm (fun e => L (ix2 (j 0) e)) (j 1)

theorem blockLogits_apply (x0 : FVec Ideal S1024x1024 .f32) (x1 x2 : FVec Ideal S1024x128 .f32) (x3 : FVec Ideal S128x16 .f32)
    (x4 : FVec Ideal S1x16 .f32) (hb : FTy.bits .bf16 < FTy.bits .f32) (hc1 : S1024x128.ShapeCasts S1024x128)
    (hc4 : S1x16.ShapeCasts S1x16) (hbr : S1x16.Broadcasts S1024x16) (p : Fin 1024) (e : Fin 16) :
    addf (matmul dot_S1024x128_S128x16_S1024x16_1_0_0_1_n_n none
            (truncf .bf16 (addf (matmul dot_S1024x1024_S1024x128_S1024x128_1_0_0_1_n_n none (truncf .bf16 x0 hb)
                (truncf .bf16 (shapeCast S1024x128 x1 hc1) hb) (constant (F := Ideal) S1024x128 .f32 0x00000000#32))
              (shapeCast S1024x128 x2 hc1)) hb)
            (truncf .bf16 x3 hb) (constant (F := Ideal) S1024x16 .f32 0x00000000#32))
        (broadcastTo S1024x16 (shapeCast S1x16 x4 hc4) hbr) (ix2 p e)
      = (∑ k : Fin 128, ((∑ s : Fin 1024, x0 (ix2 p s) * x1 (ix2 s k)) + x2 (ix2 p k)) * x3 (ix2 k e)) + x4 (ix2 0 e) := by
  rw [addf_apply, Cert.Dot.matmul_plain_apply dot_S1024x128_S128x16_S1024x16_1_0_0_1_n_n rfl, broadcastTo_1b_ab_apply, shapeCast_self x4 hc4]
  refine congrArg (· + x4 (ix2 0 e)) (Finset.sum_congr rfl fun k _ => ?_)
  rw [truncf_apply, truncf_apply, addf_apply, Cert.Dot.matmul_plain_apply dot_S1024x1024_S1024x128_S1024x128_1_0_0_1_n_n rfl,
    shapeCast_self x1 hc1, shapeCast_self x2 hc1]
  refine congrArg (fun z => (z + x2 (ix2 p k)) * x3 (ix2 k e)) (Finset.sum_congr rfl fun s _ => ?_)
  rw [truncf_apply, truncf_apply]

theorem payload_apply (x0 : FVec Ideal S1024x1024 .f32) (x1 x2 : FVec Ideal S1024x128 .f32) (x3 : FVec Ideal S128x16 .f32)
    (x4 : FVec Ideal S1x16 .f32) (p : Fin 1024) (q : Fin 16) :
    k2_pay1 (F := Ideal) x0 x1 x2 x3 x4 (ix2 p q)
      = rowSm (fun e => (∑ k : Fin 128, ((∑ s : Fin 1024, x0 (ix2 p s) * x1 (ix2 s k)) + x2 (ix2 p k)) * x3 (ix2 k e)) + x4 (ix2 0 e)) q := by
  unfold k2_pay1
  refine (kerSoftmax_apply _ _ _ _ _ _ _ _ p q).trans ?_
  exact congrArg (fun r => rowSm r q) (funext fun e => blockLogits_apply x0 x1 x2 x3 x4 _ _ _ _ p e)

theorem point_eq (x0 : FVec Ideal S1024x1024 .f32) (x1 x2 : FVec Ideal S1024x128 .f32) (x3 : FVec Ideal S128x16 .f32)
    (x4 : FVec Ideal S1x16 .f32) (Q : Vec Ideal S65536x1024 .f32) (H1 : Vec Ideal S1024x128 .f32) (M : Vec Ideal S65536x128 .f32)
    (OW : Vec Ideal S128x16 .f32) (OB : Vec Ideal S1x16 .f32) (p : Fin 1024) (q : Fin 16) (r : Fin 65536)
    (h0 : ∀ s : Fin 1024, x0 (ix2 p s) = Q (ix2 r s)) (h1 : x1 = H1) (h2 : ∀ k : Fin 128, x2 (ix2 p k) = M (ix2 r k))
    (h3 : x3 = OW) (h4 : x4 = OB) :
    k2_pay1 (F := Ideal) x0 x1 x2 x3 x4 (ix2 p q) = smF (logitsF Q H1 M OW OB) (ix2 r q) := by
  subst h1 h3 h4
  rw [payload_apply]
  show rowSm _ q = rowSm (fun e => (∑ k : Fin 128, ((∑ s : Fin 1024, Q (ix2 r s) * x1 (ix2 s k)) + M (ix2 r k)) * x3 (ix2 k e)) + x4 (ix2 0 e)) q
  refine congrArg (fun f => rowSm f q) (funext fun e => ?_)
  refine congrArg (· + x4 (ix2 0 e)) (Finset.sum_congr rfl fun k _ => ?_)
  rw [h2 k]
  refine congrArg (fun z => (z + M (ix2 r k)) * x3 (ix2 k e)) (Finset.sum_congr rfl fun s _ => ?_)
  rw [h0 s]

variable (V : (c : Dev nD) → (b : Ref sig .tc) → Buf (Elt Ideal) ((c : Thread nD τ).loc b))

theorem hz : (![0, 0] : Fin 2 → Nat) = fun _ => 0 := funext fun a => by fin_cases a <;> rfl

theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem blockQ_apply (c : Dev nD) (t : Fin cfg2.N) (p s : Fin 1024) (r : Fin 65536) (hr : r.val = 1024 * t.val + p.val) :
    (iblk2 V c 0 t : Vec Ideal S1024x1024 .f32) (ix2 p s) = (V c main_arg1 : Vec Ideal S65536x1024 .f32) (ix2 r s) := by
  obtain ⟨e0, e1, -⟩ := idx_facts t
  unfold iblk2
  rw [View.read_apply]
  show V c main_arg1 _ = V c main_arg1 _
  congr 1
  funext a; apply Fin.ext
  match a with
  | ⟨0, _⟩ => show win2_0.index t (0 : Fin 2) * 1024 + 1 * p.val = r.val; rw [e0, hr]; omega
  | ⟨1, _⟩ => show win2_0.index t (1 : Fin 2) * 1024 + 1 * s.val = s.val; rw [e1]; omega

theorem blockM_apply (c : Dev nD) (t : Fin cfg2.N) (p : Fin 1024) (k : Fin 128) (r : Fin 65536) (hr : r.val = 1024 * t.val + p.val) :
    (iblk2 V c 2 t : Vec Ideal S1024x128 .f32) (ix2 p k) = (V c main_v216 : Vec Ideal S65536x128 .f32) (ix2 r k) := by
  obtain ⟨-, -, -, -, e0, e1, -⟩ := idx_facts t
  unfold iblk2
  rw [View.read_apply]
  show V c main_v216 _ = V c main_v216 _
  congr 1
  funext a; apply Fin.ext
  match a with
  | ⟨0, _⟩ => show win2_2.index t (0 : Fin 2) * 1024 + 1 * p.val = r.val; rw [e0, hr]; omega
  | ⟨1, _⟩ => show win2_2.index t (1 : Fin 2) * 128 + 1 * k.val = k.val; rw [e1]; omega

theorem blockH_eq (c : Dev nD) (t : Fin cfg2.N) :
    (iblk2 V c 1 t : Vec Ideal S1024x128 .f32) = (V c main_v70 : Vec Ideal S1024x128 .f32) := by
  obtain ⟨-, -, e0, e1, -⟩ := idx_facts t
  funext x
  unfold iblk2
  rw [View.read_apply]
  show V c main_v70 _ = V c main_v70 _
  congr 1
  funext a; apply Fin.ext
  match a with
  | ⟨0, _⟩ => show win2_1.index t (0 : Fin 2) * 1024 + 1 * (x 0).val = (x 0).val; rw [e0]; omega
  | ⟨1, _⟩ => show win2_1.index t (1 : Fin 2) * 128 + 1 * (x 1).val = (x 1).val; rw [e1]; omega

theorem blockW_eq (c : Dev nD) (t : Fin cfg2.N) :
    (iblk2 V c 3 t : Vec Ideal S128x16 .f32) = (V c main_arg14 : Vec Ideal S128x16 .f32) := by
  obtain ⟨-, -, -, -, -, -, e0, e1, -⟩ := idx_facts t
  funext x
  unfold iblk2
  rw [View.read_apply]
  show V c main_arg14 _ = V c main_arg14 _
  congr 1
  funext a; apply Fin.ext
  match a with
  | ⟨0, _⟩ => show win2_3.index t (0 : Fin 2) * 128 + 1 * (x 0).val = (x 0).val; rw [e0]; omega
  | ⟨1, _⟩ => show win2_3.index t (1 : Fin 2) * 16 + 1 * (x 1).val = (x 1).val; rw [e1]; omega

theorem blockB_eq (c : Dev nD) (t : Fin cfg2.N) :
    (iblk2 V c 4 t : Vec Ideal S1x16 .f32) = (V c main_v217 : Vec Ideal S1x16 .f32) := by
  obtain ⟨-, -, -, -, -, -, -, -, e0, e1, -⟩ := idx_facts t
  funext x
  unfold iblk2
  rw [View.read_apply]
  show V c main_v217 _ = V c main_v217 _
  congr 1
  funext a; apply Fin.ext
  match a with
  | ⟨0, _⟩ => show win2_4.index t (0 : Fin 2) * 1 + 1 * (x 0).val = (x 0).val; rw [e0]; omega
  | ⟨1, _⟩ => show win2_4.index t (1 : Fin 2) * 16 + 1 * (x 1).val = (x 1).val; rw [e1]; omega

theorem flushed_eq (c : Dev nD) (t : Fin cfg2.N) :
    (dat2 V c).flushed 5 t = ((cfg2.win 5).blk t).view.read (Elt Ideal)
      (smF (logitsF (V c main_arg1) (V c main_v70) (V c main_v216) (V c main_arg14) (V c main_v217))) := by
  show (cfg2.win 5).cut (grid2.coords t) ((dat2 V c).after 5 t) = _
  rw [after2_5]
  unfold out2_5
  rw [View.canon_unit_zero hz]
  simp only [View.ld_unit_zero (S := S1024x1024) hz, View.ld_unit_zero (S := S1024x128) hz,
    View.ld_unit_zero (S := S128x16) hz, View.ld_unit_zero (S := S1x16) hz]
  refine funext fun (y : S1024x16.Idx) => ?_
  obtain ⟨p, q, rfl⟩ : ∃ (p : Fin 1024) (q : Fin 16), y = ix2 p q := ⟨y 0, y 1, eq_ix2 y⟩
  have hN : cfg2.N = 64 := N_2
  have ht : t.val < 64 := hN ▸ t.isLt
  obtain ⟨-, -, -, -, -, -, -, -, -, -, e0, e1⟩ := idx_facts t
  have hE : ((cfg2.win 5).blk t).view.emb (ix2 p q) = (ix2 (⟨1024 * t.val + p.val, by omega⟩ : Fin 65536) q : S65536x16.Idx) := by
    funext a; apply Fin.ext
    match a with
    | ⟨0, _⟩ => show win2_5.index t (0 : Fin 2) * 1024 + 1 * p.val = 1024 * t.val + p.val; rw [e0]; omega
    | ⟨1, _⟩ => show win2_5.index t (1 : Fin 2) * 16 + 1 * q.val = q.val; rw [e1]; omega
  show k2_pay1 (F := Ideal) (iblk2 V c 0 t) (iblk2 V c 1 t) (iblk2 V c 2 t) (iblk2 V c 3 t) (iblk2 V c 4 t) (ix2 p q)
    = smF (logitsF (V c main_arg1) (V c main_v70) (V c main_v216) (V c main_arg14) (V c main_v217))
        (((cfg2.win 5).blk t).view.emb (ix2 p q))
  rw [hE]
  exact point_eq (iblk2 V c 0 t) (iblk2 V c 1 t) (iblk2 V c 2 t) (iblk2 V c 3 t) (iblk2 V c 4 t)
    (V c main_arg1) (V c main_v70) (V c main_v216) (V c main_arg14) (V c main_v217) p q ⟨1024 * t.val + p.val, by omega⟩
    (fun s => blockQ_apply V c t p s _ rfl) (blockH_eq V c t) (fun k => blockM_apply V c t p k _ rfl) (blockW_eq V c t) (blockB_eq V c t)

theorem mem_blk (t : Fin cfg2.N) (i : S65536x16.Idx) :
    i ∈ ((cfg2.win 5).blk t).view.set ↔ ∀ a : Fin 2, win2_5.index t a * S1024x16.size a ≤ (i a).val
      ∧ (i a).val < win2_5.index t a * S1024x16.size a + S1024x16.size a := by
  show i ∈ ((View.whole main_v218).slice (win2_5.rect t)).set ↔ _
  rw [View.set_slice_whole, Rect.mem_set_unit]
  exact Iff.rfl

theorem cover (i : S65536x16.Idx) : ∃ t : Fin cfg2.N, (cfg2.win 5).flush t = true ∧ i ∈ ((cfg2.win 5).blk t).view.set := by
  have hN : cfg2.N = 64 := N_2
  have hi0 : (i 0).val < 65536 := (i 0).isLt
  have hi1 : (i 1).val < 16 := (i 1).isLt
  have ht : (i 0).val / 1024 < cfg2.N := by rw [hN]; omega
  obtain ⟨-, -, -, -, -, -, -, -, -, -, e0, e1⟩ := idx_facts ⟨(i 0).val / 1024, ht⟩
  refine ⟨⟨(i 0).val / 1024, ht⟩, flush2_5 _, ?_⟩
  rw [mem_blk]
  intro a
  match a with
  | ⟨0, _⟩ =>
    show win2_5.index ⟨(i 0).val / 1024, ht⟩ (0 : Fin 2) * 1024 ≤ (i 0).val
      ∧ (i 0).val < win2_5.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win2_5.index ⟨(i 0).val / 1024, ht⟩ (1 : Fin 2) * 16 ≤ (i 1).val
      ∧ (i 1).val < win2_5.index ⟨(i 0).val / 1024, ht⟩ (1 : Fin 2) * 16 + 16
    rw [e1]
    omega

/-- Every row of the result depends on that row of Q and m alone, so the 64 blocks are restrictions of one array and tile it. -/
theorem out_eq (c : Dev nD) :
    (dat2 V c).arrAt 5 cfg2.N = smF (logitsF (V c main_arg1) (V c main_v70) (V c main_v216) (V c main_arg14) (V c main_v217)) :=
  (dat2 V c).arrAt_eq_of_cover 5 _ (fun t _ => flushed_eq V c t) cover

end Cert.KernelIdeal.Reg2

end
-- ==== Proof.BrK.lean ====
import proofs.«179512_j35983236006070_1_alg».proof.Proof.KRun
import proofs.«179512_j35983236006070_1_alg».proof.Proof.KSsaBase
import proofs.«179512_j35983236006070_1_alg».proof.Proof.Reg0
import proofs.«179512_j35983236006070_1_alg».proof.Proof.Reg1
import proofs.«179512_j35983236006070_1_alg».proof.Proof.Reg2

noncomputable section

namespace Cert.KernelIdeal.BrK

open Cert.KernelIdeal Cert.KernelIdeal.Gen Idealize.ShloMosaic Idealize.ShloMosaic.TcCoe Idealize.SL.Sem
open Idealize.ShloMosaic.ValueIdx Idealize.ShloMosaic.StableHlo

def colSum (XW : Vec Ideal S65536x128 .f32) : Vec Ideal S1x128 .f32 := fun j => ∑ i : Fin 65536, XW (ix2 i (j 1))

def colSumSq (XW : Vec Ideal S65536x128 .f32) : Vec Ideal S1x128 .f32 := fun j => ∑ i : Fin 65536, XW (ix2 i (j 1)) * XW (ix2 i (j 1))

def poolSum (Q : Vec Ideal S65536x1024 .f32) (H : Vec Ideal S65536x128 .f32) : Vec Ideal S1024x128 .f32 :=
  fun j => ∑ i : Fin 65536, Q (ix2 i (j 0)) * H (ix2 i (j 1))

def qColSum (Q : Vec Ideal S65536x1024 .f32) : Vec Ideal S1x1024 .f32 := fun j => ∑ i : Fin 65536, Q (ix2 i (j 1))

def row128 (b : Vec Ideal S128 .f32) : Vec Ideal S1x128 .f32 := fun i => shapeCast S1x128 b shapeCasts_S128_S1x128 i

def row16 (b : Vec Ideal S16 .f32) : Vec Ideal S1x16 .f32 := fun i => shapeCast S1x16 b shapeCasts_S16_S1x16 i

variable (m : (ℓ : Loc nD τ sig) → Buf (Elt Ideal) ℓ) (ρ : Dev nD → PrngReg) (c : Dev nD)

theorem W1_of (b : Ref sig .tc) (hb : b ∉ KSsa.host0W) :
    W1 m ρ c (Proc.devRef .tc b) = m ((c : Thread nD τ).loc b) :=
  Ssa.after_arg (hostOps0 (F := Ideal)) KSsa.host0W KSsa.hHost0 (W0 m ρ c) b hb

theorem W2_of (b : Ref sig .tc) (hne : ∀ w, Pipeline.arrRef spec0 w ≠ b) (hb : b ∉ KSsa.host0W) :
    W2 m ρ c (Proc.devRef .tc b) = m ((c : Thread nD τ).loc b) :=
  (W2_of_ne m ρ c b hne).trans (W1_of m ρ c b hb)

theorem W3_of (b : Ref sig .tc) (hb : b ∉ KSsa.host1W) :
    W3 m ρ c (Proc.devRef .tc b) = W2 m ρ c (Proc.devRef .tc b) :=
  Ssa.after_arg (hostOps1 (F := Ideal)) KSsa.host1W KSsa.hHost1 (W2 m ρ c) b hb

theorem W27_eq : W27 m ρ c = after (KSsa.chain (F := Ideal)) (W4 m ρ c) := by
  simp only [KSsa.chain, Ssa.after_append] <;> rfl

theorem W27_of (b : Ref sig .tc) (hb : b ∉ KSsa.chainW) :
    W27 m ρ c (Proc.devRef .tc b) = W4 m ρ c (Proc.devRef .tc b) := by
  rw [W27_eq]
  exact Ssa.after_arg (KSsa.chain (F := Ideal)) KSsa.chainW KSsa.hChain (W4 m ρ c) b hb

theorem W3_arg1 : W3 m ρ c (Proc.devRef .tc main_arg1) = m ((c : Thread nD τ).loc main_arg1) :=
  (W3_of m ρ c main_arg1 (by decide)).trans (W2_of m ρ c main_arg1 (by decide) (by decide))

theorem W4_arg1 : W4 m ρ c (Proc.devRef .tc main_arg1) = m ((c : Thread nD τ).loc main_arg1) :=
  ((W4_arr m ρ c 3).trans (((dat1 (V3 m ρ) c).arrAt_in 3 rfl _).trans (A_eq1 (V3 m ρ) c 3))).trans (W3_arg1 m ρ c)

theorem W4_of (b : Ref sig .tc) (h1 : ∀ w, Pipeline.arrRef spec1 w ≠ b := by decide) (hh : b ∉ KSsa.host1W := by decide)
    (h0 : ∀ w, Pipeline.arrRef spec0 w ≠ b := by decide) (hb : b ∉ KSsa.host0W := by decide) :
    W4 m ρ c (Proc.devRef .tc b) = m ((c : Thread nD τ).loc b) :=
  (W4_of_ne m ρ c b h1).trans ((W3_of m ρ c b hh).trans (W2_of m ρ c b h0 hb))

theorem bias_row : (W1 m ρ c (Proc.devRef .tc main_v0) : Vec Ideal S1x128 .f32) = row128 (m ((c : Thread nD τ).loc main_arg5)) := by
  have h := Ssa.ssa_reshape KSsa.hHost0 (W0 m ρ c) 0 rfl
  rw [Ssa.after_arg (hostOps0 (F := Ideal)) KSsa.host0W KSsa.hHost0 (W0 m ρ c) main_arg5 (by decide)] at h
  exact h

theorem xw_val : (W2 m ρ c (Proc.devRef .tc main_v1_0) : Vec Ideal S65536x128 .f32)
    = Reg0.xwF (m ((c : Thread nD τ).loc main_arg0)) (m ((c : Thread nD τ).loc main_arg4)) (row128 (m ((c : Thread nD τ).loc main_arg5))) := by
  have e0 : V1 m ρ c main_arg0 = m ((c : Thread nD τ).loc main_arg0) := W1_of m ρ c main_arg0 (by decide)
  have e4 : V1 m ρ c main_arg4 = m ((c : Thread nD τ).loc main_arg4) := W1_of m ρ c main_arg4 (by decide)
  have eb : V1 m ρ c main_v0 = row128 (m ((c : Thread nD τ).loc main_arg5)) := bias_row m ρ c
  refine (W2_arr m ρ c 3).trans ((Reg0.xw_eq (V1 m ρ) c).trans ?_)
  rw [e0, e4, eb]

theorem s_val : (W2 m ρ c (Proc.devRef .tc main_v1_1) : Vec Ideal S1x128 .f32) = colSum (W2 m ρ c (Proc.devRef .tc main_v1_0)) := by
  have h : (W2 m ρ c (Proc.devRef .tc main_v1_0) : Vec Ideal S65536x128 .f32) = Reg0.xwF (V1 m ρ c main_arg0) (V1 m ρ c main_arg4) (V1 m ρ c main_v0) :=
    (W2_arr m ρ c 3).trans (Reg0.xw_eq (V1 m ρ) c)
  rw [h]
  exact (W2_arr m ρ c 4).trans (Reg0.s_eq (V1 m ρ) c)

theorem ss_val : (W2 m ρ c (Proc.devRef .tc main_v1_2) : Vec Ideal S1x128 .f32) = colSumSq (W2 m ρ c (Proc.devRef .tc main_v1_0)) := by
  have h : (W2 m ρ c (Proc.devRef .tc main_v1_0) : Vec Ideal S65536x128 .f32) = Reg0.xwF (V1 m ρ c main_arg0) (V1 m ρ c main_arg4) (V1 m ρ c main_v0) :=
    (W2_arr m ρ c 3).trans (Reg0.xw_eq (V1 m ρ) c)
  rw [h]
  exact (W2_arr m ρ c 5).trans (Reg0.ss_eq (V1 m ρ) c)

theorem W3_xw : W3 m ρ c (Proc.devRef .tc main_v1_0) = W2 m ρ c (Proc.devRef .tc main_v1_0) :=
  W3_of m ρ c main_v1_0 (by decide)

theorem h_val : (W4 m ρ c (Proc.devRef .tc main_v11_0) : Vec Ideal S65536x128 .f32)
    = Reg1.hF (W2 m ρ c (Proc.devRef .tc main_v1_0)) (W3 m ρ c (Proc.devRef .tc main_v3)) (W3 m ρ c (Proc.devRef .tc main_v10)) := by
  have e : V3 m ρ c main_v1_0 = W2 m ρ c (Proc.devRef .tc main_v1_0) := W3_xw m ρ c
  refine (W4_arr m ρ c 4).trans ((Reg1.h_eq (V3 m ρ) c).trans ?_)
  rw [e]

theorem qh_val : (W4 m ρ c (Proc.devRef .tc main_v11_1) : Vec Ideal S1024x128 .f32)
    = poolSum (m ((c : Thread nD τ).loc main_arg1)) (W4 m ρ c (Proc.devRef .tc main_v11_0)) := by
  have hh : (W4 m ρ c (Proc.devRef .tc main_v11_0) : Vec Ideal S65536x128 .f32) = Reg1.hF (V3 m ρ c main_v1_0) (V3 m ρ c main_v3) (V3 m ρ c main_v10) :=
    (W4_arr m ρ c 4).trans (Reg1.h_eq (V3 m ρ) c)
  have eq : m ((c : Thread nD τ).loc main_arg1) = V3 m ρ c main_arg1 := (W3_arg1 m ρ c).symm
  rw [hh, eq]
  exact (W4_arr m ρ c 5).trans (Reg1.qh_eq (V3 m ρ) c)

theorem colsum_val : (W4 m ρ c (Proc.devRef .tc main_v11_2) : Vec Ideal S1x1024 .f32) = qColSum (m ((c : Thread nD τ).loc main_arg1)) := by
  have eq : m ((c : Thread nD τ).loc main_arg1) = V3 m ρ c main_arg1 := (W3_arg1 m ρ c).symm
  rw [eq]
  exact (W4_arr m ρ c 6).trans (Reg1.colsum_eq (V3 m ρ) c)

theorem W27_obrow : (W27 m ρ c (Proc.devRef .tc main_v217) : Vec Ideal S1x16 .f32) = row16 (m ((c : Thread nD τ).loc main_arg15)) := by
  rw [W27_eq]
  have h := Ssa.ssa_reshape KSsa.hChain (W4 m ρ c) 357 rfl
  rw [Ssa.after_arg (KSsa.chain (F := Ideal)) KSsa.chainW KSsa.hChain (W4 m ρ c) main_arg15 (by decide),
    W4_of m ρ c main_arg15] at h
  exact h

theorem result_val : (W28 m ρ c (Proc.devRef .tc main_v218) : Vec Ideal S65536x16 .f32)
    = Reg2.smF (Reg2.logitsF (m ((c : Thread nD τ).loc main_arg1))
        (after (KSsa.chain (F := Ideal)) (W4 m ρ c) (Proc.devRef .tc main_v70))
        (after (KSsa.chain (F := Ideal)) (W4 m ρ c) (Proc.devRef .tc main_v216))
        (m ((c : Thread nD τ).loc main_arg14))
        (row16 (m ((c : Thread nD τ).loc main_arg15)))) := by
  have eq : V27 m ρ c main_arg1 = m ((c : Thread nD τ).loc main_arg1) :=
    (W27_of m ρ c main_arg1 (by decide)).trans (W4_arg1 m ρ c)
  have ew : V27 m ρ c main_arg14 = m ((c : Thread nD τ).loc main_arg14) :=
    (W27_of m ρ c main_arg14 (by decide)).trans (W4_of m ρ c main_arg14)
  have eh : V27 m ρ c main_v70 = after (KSsa.chain (F := Ideal)) (W4 m ρ c) (Proc.devRef .tc main_v70) :=
    congrFun (W27_eq m ρ c) _
  have em : V27 m ρ c main_v216 = after (KSsa.chain (F := Ideal)) (W4 m ρ c) (Proc.devRef .tc main_v216) :=
    congrFun (W27_eq m ρ c) _
  have eo : V27 m ρ c main_v217 = row16 (m ((c : Thread nD τ).loc main_arg15)) := W27_obrow m ρ c
  refine (W28_arr m ρ c 5).trans ((Reg2.out_eq (V27 m ρ) c).trans ?_)
  rw [eq, ew, eh, em, eo]

end Cert.KernelIdeal.BrK

end
-- ==== Proof.RSsaBase.lean ====
import proofs.«179512_j35983236006070_1_alg».proof.Proof.ROps
import proofs.«179512_j35983236006070_1_alg».proof.Proof.LibSsa

noncomputable section

namespace Cert.ReferenceIdeal.RSsa

open Cert.ReferenceIdeal Cert.ReferenceIdeal.Gen Cert.ReferenceIdeal.RRun Idealize.ShloMosaic Idealize.ShloMosaic.TcCoe Idealize.SL.Sem

variable {F : FTy → Type} [FloatOps F]

theorem hW : StableHlo.Ssa.WritesOnly (ops (F := F)) written := rfl

end Cert.ReferenceIdeal.RSsa

end
-- ==== Proof.RHead.lean ====
import proofs.«179512_j35983236006070_1_alg».proof.Proof.Gen.ReferenceIdeal
import proofs.«179512_j35983236006070_1_alg».proof.Proof.LibDot
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open scoped BigOperators

namespace Cert.ReferenceIdeal.RHead

open Cert.ReferenceIdeal Cert.ReferenceIdeal.Gen

theorem add_congr' {a a' b b' : EReal} (h1 : a = a') (h2 : b = b') : a + b = a' + b' := by rw [h1, h2]

theorem dot_apply (x : FVec Ideal S65536x200 .f32) (w : FVec Ideal S200x128 .f32) (p : Fin 65536) (q : Fin 128) :
    Host.dotGeneral dot_S65536x200_S200x128_S65536x128_1_0_0_1_n_n none x w (ix2 p q) = ∑ k : Fin 200, x (ix2 p k) * w (ix2 k q) :=
  Cert.Dot.dotGeneral_plain_apply (M := 65536) (K := 200) (N := 128) _ rfl none x w p q

theorem bias_apply (b : Vec Ideal S128 .f32) (h1 : S128.BroadcastsInDim S1x128 (![1] : Fin 1 → Fin S1x128.rank))
    (h2 : S1x128.BroadcastsInDim S65536x128 (![0, 1] : Fin 2 → Fin S65536x128.rank)) (p : Fin 65536) (q : Fin 128) :
    broadcastInDim S65536x128 ![0, 1] h2 (broadcastInDim S1x128 ![1] h1 b) (ix2 p q) = b (ix1 q) := by
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ => rfl
  · match a with
    | ⟨0, _⟩ => rfl

/-- Entry (i, d) of the reference's linear layer is the sum over k of x[i,k]·W[k,d], plus b[d]. -/
theorem xw_read (x : Vec Ideal S65536x200 .f32) (w : Vec Ideal S200x128 .f32) (b : Vec Ideal S128 .f32) :
    addf (Host.dotGeneral (F := Ideal) (φ₁ := .f32) (φ₂ := .f32) dot_S65536x200_S200x128_S65536x128_1_0_0_1_n_n none x w)
        (broadcastInDim S65536x128 ![0, 1] bcast_S1x128_S65536x128_0_1 (broadcastInDim S1x128 ![1] bcast_S128_S1x128_1 b))
      = fun j => (∑ k : Fin 200, x (ix2 (j 0) k) * w (ix2 k (j 1))) + b (ix1 (j 1)) := by
  funext j
  obtain ⟨p, q, rfl⟩ : ∃ (p : Fin 65536) (q : Fin 128), j = ix2 p q := ⟨j 0, j 1, eq_ix2 j⟩
  exact (addf_apply _ _ _).trans (add_congr' (dot_apply x w p q) (bias_apply b _ _ p q))

end Cert.ReferenceIdeal.RHead

end
-- ==== Proof.BrR.lean ====
import proofs.«179512_j35983236006070_1_alg».proof.Proof.RSsaBase
import proofs.«179512_j35983236006070_1_alg».proof.Proof.RHead

noncomputable section

namespace Cert.ReferenceIdeal.BrR

open Cert.ReferenceIdeal Cert.ReferenceIdeal.Gen Idealize.ShloMosaic Idealize.ShloMosaic.TcCoe Idealize.SL.Sem
open Idealize.ShloMosaic.ValueIdx Idealize.ShloMosaic.StableHlo

def xwR (x : Vec Ideal S65536x200 .f32) (w : Vec Ideal S200x128 .f32) (b : Vec Ideal S128 .f32) : Vec Ideal S65536x128 .f32 :=
  fun j => (∑ k : Fin 200, x (ix2 (j 0) k) * w (ix2 k (j 1))) + b (ix1 (j 1))

variable (m' : (ℓ : Loc nD τ sig) → Buf (Elt Ideal) ℓ) (c : Dev nD)

theorem arg_of (b : Ref sig .tc) (hb : b ∉ RRun.written := by decide) :
    after (RRun.ops (F := Ideal)) (launchContents m' c) (Proc.devRef .tc b) = m' ((c.tc : Thread nD τ).loc b) :=
  Ssa.after_arg (RRun.ops (F := Ideal)) RRun.written RSsa.hW (launchContents m' c) b hb

theorem xw_val : (after (RRun.ops (F := Ideal)) (launchContents m' c) (Proc.devRef .tc main_v3) : Vec Ideal S65536x128 .f32)
    = xwR (m' ((c.tc : Thread nD τ).loc main_arg0)) (m' ((c.tc : Thread nD τ).loc main_arg4)) (m' ((c.tc : Thread nD τ).loc main_arg5)) := by
  rw [Ssa.ssa_binary RSsa.hW (launchContents m' c) 3 rfl, Ssa.ssa_unary RSsa.hW (launchContents m' c) 2 rfl,
    Ssa.ssa_unary RSsa.hW (launchContents m' c) 1 rfl, Ssa.ssa_binary RSsa.hW (launchContents m' c) 0 rfl,
    arg_of m' c main_arg0, arg_of m' c main_arg4, arg_of m' c main_arg5]
  exact RHead.xw_read _ _ _

end Cert.ReferenceIdeal.BrR

end
-- ==== Proof.Pairs.lean ====
import proofs.«179512_j35983236006070_1_alg».proof.Proof.KSsaBase
import proofs.«179512_j35983236006070_1_alg».proof.Proof.RSsaBase

noncomputable section

namespace Cert.Pairs

open Idealize.ShloMosaic Idealize.ShloMosaic.TcCoe Idealize.SL.Sem Idealize.ShloMosaic.StableHlo
open Cert.KernelIdeal.KSsa (chain hChain)
open Cert.ReferenceIdeal.RRun (ops)
open Cert.ReferenceIdeal.RSsa (hW)

variable {F : FTy → Type} [FloatOps F]
variable (VK : Valuation KernelIdeal.τ KernelIdeal.sig (Elt F)) (VR : Valuation ReferenceIdeal.τ ReferenceIdeal.sig (Elt F))

/-- The buffers the shared operations start from hold the same in the two programs. -/
structure Same : Prop where
  v19 : after chain VK (Proc.devRef .tc KernelIdeal.main_v19) = after ops VR (Proc.devRef .tc ReferenceIdeal.main_v27)
  v11_0 : after chain VK (Proc.devRef .tc KernelIdeal.main_v11_0) = after ops VR (Proc.devRef .tc ReferenceIdeal.main_v16)
  arg1 : after chain VK (Proc.devRef .tc KernelIdeal.main_arg1) = after ops VR (Proc.devRef .tc ReferenceIdeal.main_arg1)
  arg2 : after chain VK (Proc.devRef .tc KernelIdeal.main_arg2) = after ops VR (Proc.devRef .tc ReferenceIdeal.main_arg2)
  arg3 : after chain VK (Proc.devRef .tc KernelIdeal.main_arg3) = after ops VR (Proc.devRef .tc ReferenceIdeal.main_arg3)
  arg6 : after chain VK (Proc.devRef .tc KernelIdeal.main_arg6) = after ops VR (Proc.devRef .tc ReferenceIdeal.main_arg6)
  arg7 : after chain VK (Proc.devRef .tc KernelIdeal.main_arg7) = after ops VR (Proc.devRef .tc ReferenceIdeal.main_arg7)
  arg8 : after chain VK (Proc.devRef .tc KernelIdeal.main_arg8) = after ops VR (Proc.devRef .tc ReferenceIdeal.main_arg8)
  arg9 : after chain VK (Proc.devRef .tc KernelIdeal.main_arg9) = after ops VR (Proc.devRef .tc ReferenceIdeal.main_arg9)
  arg10 : after chain VK (Proc.devRef .tc KernelIdeal.main_arg10) = after ops VR (Proc.devRef .tc ReferenceIdeal.main_arg10)
  arg11 : after chain VK (Proc.devRef .tc KernelIdeal.main_arg11) = after ops VR (Proc.devRef .tc ReferenceIdeal.main_arg11)
  arg12 : after chain VK (Proc.devRef .tc KernelIdeal.main_arg12) = after ops VR (Proc.devRef .tc ReferenceIdeal.main_arg12)
  arg13 : after chain VK (Proc.devRef .tc KernelIdeal.main_arg13) = after ops VR (Proc.devRef .tc ReferenceIdeal.main_arg13)
  arg14 : after chain VK (Proc.devRef .tc KernelIdeal.main_arg14) = after ops VR (Proc.devRef .tc ReferenceIdeal.main_arg14)
  arg15 : after chain VK (Proc.devRef .tc KernelIdeal.main_arg15) = after ops VR (Proc.devRef .tc ReferenceIdeal.main_arg15)

variable {VK VR} (H : Same VK VR)
include H

theorem p_main_v20 : after chain VK (Proc.devRef .tc KernelIdeal.main_v20) = after ops VR (Proc.devRef .tc ReferenceIdeal.main_v28) := by
  rw [Ssa.ssa_binary hChain VK 14 rfl, Ssa.ssa_binary hW VR 60 rfl, H.v19, Ssa.ssa_nullary hChain VK 13 rfl, Ssa.ssa_nullary hW VR 59 rfl] <;> rfl
theorem p_main_v21 : after chain VK (Proc.devRef .tc KernelIdeal.main_v21) = after ops VR (Proc.devRef .tc ReferenceIdeal.main_v29) := by
  rw [Ssa.ssa_unary hChain VK 16 rfl, Ssa.ssa_unary hW VR 62 rfl, Ssa.ssa_nullary hChain VK 15 rfl, Ssa.ssa_nullary hW VR 61 rfl] <;> rfl
theorem p_main_v22 : after chain VK (Proc.devRef .tc KernelIdeal.main_v22) = after ops VR (Proc.devRef .tc ReferenceIdeal.main_v30) := by
  rw [Ssa.ssa_binary hChain VK 17 rfl, Ssa.ssa_binary hW VR 63 rfl, p_main_v20 H, p_main_v21 H] <;> rfl
theorem p_main_call1_v0 : after chain VK (Proc.devRef .tc KernelIdeal.main_call1_v0) = after ops VR (Proc.devRef .tc ReferenceIdeal.main_call2_v0) := by
  rw [Ssa.ssa_binary hChain VK 20 rfl, Ssa.ssa_binary hW VR 66 rfl, H.v19, Ssa.ssa_nullary hChain VK 19 rfl, Ssa.ssa_nullary hW VR 65 rfl] <;> rfl
theorem p_main_call1_v1 : after chain VK (Proc.devRef .tc KernelIdeal.main_call1_v1) = after ops VR (Proc.devRef .tc ReferenceIdeal.main_call2_v1) := by
  rw [Ssa.ssa_unary hChain VK 21 rfl, Ssa.ssa_unary hW VR 67 rfl, p_main_call1_v0 H] <;> rfl
theorem p_main_call1_v2 : after chain VK (Proc.devRef .tc KernelIdeal.main_call1_v2) = after ops VR (Proc.devRef .tc ReferenceIdeal.main_call2_v2) := by
  rw [Ssa.ssa_unary hChain VK 23 rfl, Ssa.ssa_unary hW VR 69 rfl, Ssa.ssa_nullary hChain VK 22 rfl, Ssa.ssa_nullary hW VR 68 rfl] <;> rfl
theorem p_main_call1_v3 : after chain VK (Proc.devRef .tc KernelIdeal.main_call1_v3) = after ops VR (Proc.devRef .tc ReferenceIdeal.main_call2_v3) := by
  rw [Ssa.ssa_binary hChain VK 24 rfl, Ssa.ssa_binary hW VR 70 rfl, p_main_call1_v1 H, p_main_call1_v2 H] <;> rfl
theorem p_main_call1_v4 : after chain VK (Proc.devRef .tc KernelIdeal.main_call1_v4) = after ops VR (Proc.devRef .tc ReferenceIdeal.main_call2_v4) := by
  rw [Ssa.ssa_unary hChain VK 25 rfl, Ssa.ssa_unary hW VR 71 rfl, p_main_call1_v3 H] <;> rfl
theorem p_main_call1_v5 : after chain VK (Proc.devRef .tc KernelIdeal.main_call1_v5) = after ops VR (Proc.devRef .tc ReferenceIdeal.main_call2_v5) := by
  rw [Ssa.ssa_binary hChain VK 26 rfl, Ssa.ssa_binary hW VR 72 rfl, H.v19, p_main_call1_v4 H] <;> rfl
theorem p_main_call1_v6 : after chain VK (Proc.devRef .tc KernelIdeal.main_call1_v6) = after ops VR (Proc.devRef .tc ReferenceIdeal.main_call2_v6) := by
  rw [Ssa.ssa_binary hChain VK 27 rfl, Ssa.ssa_binary hW VR 73 rfl, p_main_call1_v5 H] <;> rfl
theorem p_main_call1_v7 : after chain VK (Proc.devRef .tc KernelIdeal.main_call1_v7) = after ops VR (Proc.devRef .tc ReferenceIdeal.main_call2_v7) := by
  rw [Ssa.ssa_unary hChain VK 28 rfl, Ssa.ssa_unary hW VR 74 rfl, Ssa.ssa_nullary hChain VK 18 rfl, Ssa.ssa_nullary hW VR 64 rfl] <;> rfl
theorem p_main_call1_v8 : after chain VK (Proc.devRef .tc KernelIdeal.main_call1_v8) = after ops VR (Proc.devRef .tc ReferenceIdeal.main_call2_v8) := by
  rw [Ssa.ssa_binary hChain VK 30 rfl, Ssa.ssa_binary hW VR 76 rfl, Ssa.ssa_nullary hChain VK 29 rfl, Ssa.ssa_nullary hW VR 75 rfl, p_main_call1_v7 H] <;> rfl
theorem p_main_call1_v9 : after chain VK (Proc.devRef .tc KernelIdeal.main_call1_v9) = after ops VR (Proc.devRef .tc ReferenceIdeal.main_call2_v9) := by
  rw [Ssa.ssa_binary hChain VK 32 rfl, Ssa.ssa_binary hW VR 78 rfl, p_main_call1_v6 H, Ssa.ssa_nullary hChain VK 31 rfl, Ssa.ssa_nullary hW VR 77 rfl] <;> rfl
theorem p_main_call1_v10 : after chain VK (Proc.devRef .tc KernelIdeal.main_call1_v10) = after ops VR (Proc.devRef .tc ReferenceIdeal.main_call2_v10) := by
  rw [Ssa.ssa_unary hChain VK 33 rfl, Ssa.ssa_unary hW VR 79 rfl, p_main_call1_v8 H] <;> rfl
theorem p_main_call1_v11 : after chain VK (Proc.devRef .tc KernelIdeal.main_call1_v11) = after ops VR (Proc.devRef .tc ReferenceIdeal.main_call2_v11) := by
  rw [Ssa.ssa_binary hChain VK 34 rfl, Ssa.ssa_binary hW VR 80 rfl, p_main_call1_v9 H, p_main_call1_v10 H] <;> rfl
theorem p_main_call1_v12 : after chain VK (Proc.devRef .tc KernelIdeal.main_call1_v12) = after ops VR (Proc.devRef .tc ReferenceIdeal.main_call2_v12) := by
  rw [Ssa.ssa_binary hChain VK 36 rfl, Ssa.ssa_binary hW VR 82 rfl, p_main_call1_v8 H, Ssa.ssa_nullary hChain VK 35 rfl, Ssa.ssa_nullary hW VR 81 rfl] <;> rfl
theorem p_main_call1_call0_v0 : after chain VK (Proc.devRef .tc KernelIdeal.main_call1_call0_v0) = after ops VR (Proc.devRef .tc ReferenceIdeal.main_call2_call0_v0) := by
  rw [Ssa.ssa_unary hChain VK 38 rfl, Ssa.ssa_unary hW VR 84 rfl, Ssa.ssa_nullary hChain VK 37 rfl, Ssa.ssa_nullary hW VR 83 rfl] <;> rfl
theorem p_main_call1_call0_v1 : after chain VK (Proc.devRef .tc KernelIdeal.main_call1_call0_v1) = after ops VR (Proc.devRef .tc ReferenceIdeal.main_call2_call0_v1) := by
  rw [Ssa.ssa_unary hChain VK 39 rfl, Ssa.ssa_unary hW VR 85 rfl, p_main_call1_call0_v0 H] <;> rfl
theorem p_main_v23 : after chain VK (Proc.devRef .tc KernelIdeal.main_v23) = after ops VR (Proc.devRef .tc ReferenceIdeal.main_v31) := by
  rw [Ssa.ssa_ternary hChain VK 40 rfl, Ssa.ssa_ternary hW VR 86 rfl, p_main_call1_v12 H, p_main_call1_v11 H, p_main_call1_call0_v1 H] <;> rfl
theorem p_main_v24 : after chain VK (Proc.devRef .tc KernelIdeal.main_v24) = after ops VR (Proc.devRef .tc ReferenceIdeal.main_v32) := by
  rw [Ssa.ssa_unary hChain VK 41 rfl, Ssa.ssa_unary hW VR 87 rfl, p_main_v22 H] <;> rfl
theorem p_main_v25 : after chain VK (Proc.devRef .tc KernelIdeal.main_v25) = after ops VR (Proc.devRef .tc ReferenceIdeal.main_v33) := by
  rw [Ssa.ssa_unary hChain VK 42 rfl, Ssa.ssa_unary hW VR 88 rfl, p_main_v24 H] <;> rfl
theorem p_main_v26 : after chain VK (Proc.devRef .tc KernelIdeal.main_v26) = after ops VR (Proc.devRef .tc ReferenceIdeal.main_v34) := by
  rw [Ssa.ssa_binary hChain VK 43 rfl, Ssa.ssa_binary hW VR 89 rfl, H.v19, p_main_v25 H] <;> rfl
theorem p_main_v27 : after chain VK (Proc.devRef .tc KernelIdeal.main_v27) = after ops VR (Proc.devRef .tc ReferenceIdeal.main_v35) := by
  rw [Ssa.ssa_unary hChain VK 45 rfl, Ssa.ssa_unary hW VR 91 rfl, Ssa.ssa_nullary hChain VK 44 rfl, Ssa.ssa_nullary hW VR 90 rfl] <;> rfl
theorem p_main_v28 : after chain VK (Proc.devRef .tc KernelIdeal.main_v28) = after ops VR (Proc.devRef .tc ReferenceIdeal.main_v36) := by
  rw [Ssa.ssa_binary hChain VK 46 rfl, Ssa.ssa_binary hW VR 92 rfl, p_main_v23 H, p_main_v27 H] <;> rfl
theorem p_main_v29 : after chain VK (Proc.devRef .tc KernelIdeal.main_v29) = after ops VR (Proc.devRef .tc ReferenceIdeal.main_v37) := by
  rw [Ssa.ssa_unary hChain VK 47 rfl, Ssa.ssa_unary hW VR 93 rfl, p_main_v28 H] <;> rfl
theorem p_main_v30 : after chain VK (Proc.devRef .tc KernelIdeal.main_v30) = after ops VR (Proc.devRef .tc ReferenceIdeal.main_v38) := by
  rw [Ssa.ssa_unary hChain VK 48 rfl, Ssa.ssa_unary hW VR 94 rfl, p_main_v29 H] <;> rfl
theorem p_main_v31 : after chain VK (Proc.devRef .tc KernelIdeal.main_v31) = after ops VR (Proc.devRef .tc ReferenceIdeal.main_v39) := by
  rw [Ssa.ssa_unary hChain VK 49 rfl, Ssa.ssa_unary hW VR 95 rfl, p_main_v30 H] <;> rfl
theorem p_main_v32 : after chain VK (Proc.devRef .tc KernelIdeal.main_v32) = after ops VR (Proc.devRef .tc ReferenceIdeal.main_v40) := by
  rw [Ssa.ssa_binary hChain VK 50 rfl, Ssa.ssa_binary hW VR 96 rfl, p_main_v26 H, p_main_v31 H] <;> rfl
theorem p_main_v33 : after chain VK (Proc.devRef .tc KernelIdeal.main_v33) = after ops VR (Proc.devRef .tc ReferenceIdeal.main_v41) := by
  rw [Ssa.ssa_binary hChain VK 51 rfl, Ssa.ssa_binary hW VR 97 rfl, p_main_v32 H, H.arg6] <;> rfl
theorem p_main_v34 : after chain VK (Proc.devRef .tc KernelIdeal.main_v34) = after ops VR (Proc.devRef .tc ReferenceIdeal.main_v42) := by
  rw [Ssa.ssa_unary hChain VK 52 rfl, Ssa.ssa_unary hW VR 98 rfl, H.arg7] <;> rfl
theorem p_main_v35 : after chain VK (Proc.devRef .tc KernelIdeal.main_v35) = after ops VR (Proc.devRef .tc ReferenceIdeal.main_v43) := by
  rw [Ssa.ssa_unary hChain VK 53 rfl, Ssa.ssa_unary hW VR 99 rfl, p_main_v34 H] <;> rfl
theorem p_main_v36 : after chain VK (Proc.devRef .tc KernelIdeal.main_v36) = after ops VR (Proc.devRef .tc ReferenceIdeal.main_v44) := by
  rw [Ssa.ssa_binary hChain VK 54 rfl, Ssa.ssa_binary hW VR 100 rfl, p_main_v33 H, p_main_v35 H] <;> rfl
theorem p_main_v37 : after chain VK (Proc.devRef .tc KernelIdeal.main_v37) = after ops VR (Proc.devRef .tc ReferenceIdeal.main_v45) := by
  rw [Ssa.ssa_binary hChain VK 55 rfl, Ssa.ssa_binary hW VR 101 rfl, H.arg2, p_main_v36 H] <;> rfl
theorem p_main_v38 : after chain VK (Proc.devRef .tc KernelIdeal.main_v38) = after ops VR (Proc.devRef .tc ReferenceIdeal.main_v46) := by
  rw [Ssa.ssa_unary hChain VK 57 rfl, Ssa.ssa_unary hW VR 103 rfl, Ssa.ssa_nullary hChain VK 56 rfl, Ssa.ssa_nullary hW VR 102 rfl] <;> rfl
theorem p_main_v39 : after chain VK (Proc.devRef .tc KernelIdeal.main_v39) = after ops VR (Proc.devRef .tc ReferenceIdeal.main_v47) := by
  rw [Ssa.ssa_binary hChain VK 58 rfl, Ssa.ssa_binary hW VR 104 rfl, p_main_v37 H, p_main_v38 H] <;> rfl
theorem p_main_v40 : after chain VK (Proc.devRef .tc KernelIdeal.main_v40) = after ops VR (Proc.devRef .tc ReferenceIdeal.main_v48) := by
  rw [Ssa.ssa_unary hChain VK 60 rfl, Ssa.ssa_unary hW VR 106 rfl, Ssa.ssa_nullary hChain VK 59 rfl, Ssa.ssa_nullary hW VR 105 rfl] <;> rfl
theorem p_main_v41 : after chain VK (Proc.devRef .tc KernelIdeal.main_v41) = after ops VR (Proc.devRef .tc ReferenceIdeal.main_v49) := by
  rw [Ssa.ssa_binary hChain VK 61 rfl, Ssa.ssa_binary hW VR 107 rfl, p_main_v40 H, p_main_v37 H] <;> rfl
theorem p_main_v42 : after chain VK (Proc.devRef .tc KernelIdeal.main_v42) = after ops VR (Proc.devRef .tc ReferenceIdeal.main_v50) := by
  rw [Ssa.ssa_ternary hChain VK 62 rfl, Ssa.ssa_ternary hW VR 108 rfl, p_main_v39 H, p_main_v37 H, p_main_v41 H] <;> rfl
theorem p_main_call3_v0 : after chain VK (Proc.devRef .tc KernelIdeal.main_call3_v0) = after ops VR (Proc.devRef .tc ReferenceIdeal.main_call4_v0) := by
  rw [Ssa.ssa_binary hChain VK 63 rfl, Ssa.ssa_binary hW VR 109 rfl, p_main_v42 H] <;> rfl
theorem p_main_call3_v1 : after chain VK (Proc.devRef .tc KernelIdeal.main_call3_v1) = after ops VR (Proc.devRef .tc ReferenceIdeal.main_call4_v1) := by
  rw [Ssa.ssa_binary hChain VK 65 rfl, Ssa.ssa_binary hW VR 111 rfl, p_main_call3_v0 H, Ssa.ssa_nullary hChain VK 64 rfl, Ssa.ssa_nullary hW VR 110 rfl] <;> rfl
theorem p_main_call3_v2 : after chain VK (Proc.devRef .tc KernelIdeal.main_call3_v2) = after ops VR (Proc.devRef .tc ReferenceIdeal.main_call4_v2) := by
  rw [Ssa.ssa_unary hChain VK 66 rfl, Ssa.ssa_unary hW VR 112 rfl, p_main_call3_v1 H] <;> rfl
theorem p_main_v43 : after chain VK (Proc.devRef .tc KernelIdeal.main_v43) = after ops VR (Proc.devRef .tc ReferenceIdeal.main_v51) := by
  rw [Ssa.ssa_unary hChain VK 67 rfl, Ssa.ssa_unary hW VR 113 rfl, p_main_call3_v2 H] <;> rfl
theorem p_main_v44 : after chain VK (Proc.devRef .tc KernelIdeal.main_v44) = after ops VR (Proc.devRef .tc ReferenceIdeal.main_v52) := by
  rw [Ssa.ssa_unary hChain VK 69 rfl, Ssa.ssa_unary hW VR 115 rfl, Ssa.ssa_nullary hChain VK 68 rfl, Ssa.ssa_nullary hW VR 114 rfl] <;> rfl
theorem p_main_v45 : after chain VK (Proc.devRef .tc KernelIdeal.main_v45) = after ops VR (Proc.devRef .tc ReferenceIdeal.main_v53) := by
  rw [Ssa.ssa_binary hChain VK 70 rfl, Ssa.ssa_binary hW VR 116 rfl, p_main_v43 H, p_main_v44 H] <;> rfl
theorem p_main_v46 : after chain VK (Proc.devRef .tc KernelIdeal.main_v46) = after ops VR (Proc.devRef .tc ReferenceIdeal.main_v54) := by
  rw [Ssa.ssa_unary hChain VK 71 rfl, Ssa.ssa_unary hW VR 117 rfl, p_main_v45 H] <;> rfl
theorem p_main_v47 : after chain VK (Proc.devRef .tc KernelIdeal.main_v47) = after ops VR (Proc.devRef .tc ReferenceIdeal.main_v55) := by
  rw [Ssa.ssa_binary hChain VK 72 rfl, Ssa.ssa_binary hW VR 118 rfl, p_main_v42 H, p_main_v46 H] <;> rfl
theorem p_main_v48 : after chain VK (Proc.devRef .tc KernelIdeal.main_v48) = after ops VR (Proc.devRef .tc ReferenceIdeal.main_v56) := by
  rw [Ssa.ssa_binary hChain VK 74 rfl, Ssa.ssa_binary hW VR 120 rfl, p_main_v47 H, Ssa.ssa_nullary hChain VK 73 rfl, Ssa.ssa_nullary hW VR 119 rfl] <;> rfl
theorem p_main_v49 : after chain VK (Proc.devRef .tc KernelIdeal.main_v49) = after ops VR (Proc.devRef .tc ReferenceIdeal.main_v57) := by
  rw [Ssa.ssa_unary hChain VK 76 rfl, Ssa.ssa_unary hW VR 122 rfl, Ssa.ssa_nullary hChain VK 75 rfl, Ssa.ssa_nullary hW VR 121 rfl] <;> rfl
theorem p_main_v50 : after chain VK (Proc.devRef .tc KernelIdeal.main_v50) = after ops VR (Proc.devRef .tc ReferenceIdeal.main_v58) := by
  rw [Ssa.ssa_binary hChain VK 77 rfl, Ssa.ssa_binary hW VR 123 rfl, p_main_v48 H, p_main_v49 H] <;> rfl
theorem p_main_call4_v0 : after chain VK (Proc.devRef .tc KernelIdeal.main_call4_v0) = after ops VR (Proc.devRef .tc ReferenceIdeal.main_call5_v0) := by
  rw [Ssa.ssa_binary hChain VK 80 rfl, Ssa.ssa_binary hW VR 126 rfl, p_main_v47 H, Ssa.ssa_nullary hChain VK 79 rfl, Ssa.ssa_nullary hW VR 125 rfl] <;> rfl
theorem p_main_call4_v1 : after chain VK (Proc.devRef .tc KernelIdeal.main_call4_v1) = after ops VR (Proc.devRef .tc ReferenceIdeal.main_call5_v1) := by
  rw [Ssa.ssa_unary hChain VK 81 rfl, Ssa.ssa_unary hW VR 127 rfl, p_main_call4_v0 H] <;> rfl
theorem p_main_call4_v2 : after chain VK (Proc.devRef .tc KernelIdeal.main_call4_v2) = after ops VR (Proc.devRef .tc ReferenceIdeal.main_call5_v2) := by
  rw [Ssa.ssa_unary hChain VK 83 rfl, Ssa.ssa_unary hW VR 129 rfl, Ssa.ssa_nullary hChain VK 82 rfl, Ssa.ssa_nullary hW VR 128 rfl] <;> rfl
theorem p_main_call4_v3 : after chain VK (Proc.devRef .tc KernelIdeal.main_call4_v3) = after ops VR (Proc.devRef .tc ReferenceIdeal.main_call5_v3) := by
  rw [Ssa.ssa_binary hChain VK 84 rfl, Ssa.ssa_binary hW VR 130 rfl, p_main_call4_v1 H, p_main_call4_v2 H] <;> rfl
theorem p_main_call4_v4 : after chain VK (Proc.devRef .tc KernelIdeal.main_call4_v4) = after ops VR (Proc.devRef .tc ReferenceIdeal.main_call5_v4) := by
  rw [Ssa.ssa_unary hChain VK 85 rfl, Ssa.ssa_unary hW VR 131 rfl, p_main_call4_v3 H] <;> rfl
theorem p_main_call4_v5 : after chain VK (Proc.devRef .tc KernelIdeal.main_call4_v5) = after ops VR (Proc.devRef .tc ReferenceIdeal.main_call5_v5) := by
  rw [Ssa.ssa_binary hChain VK 86 rfl, Ssa.ssa_binary hW VR 132 rfl, p_main_v47 H, p_main_call4_v4 H] <;> rfl
theorem p_main_call4_v6 : after chain VK (Proc.devRef .tc KernelIdeal.main_call4_v6) = after ops VR (Proc.devRef .tc ReferenceIdeal.main_call5_v6) := by
  rw [Ssa.ssa_binary hChain VK 87 rfl, Ssa.ssa_binary hW VR 133 rfl, p_main_call4_v5 H] <;> rfl
theorem p_main_call4_v7 : after chain VK (Proc.devRef .tc KernelIdeal.main_call4_v7) = after ops VR (Proc.devRef .tc ReferenceIdeal.main_call5_v7) := by
  rw [Ssa.ssa_unary hChain VK 88 rfl, Ssa.ssa_unary hW VR 134 rfl, Ssa.ssa_nullary hChain VK 78 rfl, Ssa.ssa_nullary hW VR 124 rfl] <;> rfl
theorem p_main_call4_v8 : after chain VK (Proc.devRef .tc KernelIdeal.main_call4_v8) = after ops VR (Proc.devRef .tc ReferenceIdeal.main_call5_v8) := by
  rw [Ssa.ssa_binary hChain VK 90 rfl, Ssa.ssa_binary hW VR 136 rfl, Ssa.ssa_nullary hChain VK 89 rfl, Ssa.ssa_nullary hW VR 135 rfl, p_main_call4_v7 H] <;> rfl
theorem p_main_call4_v9 : after chain VK (Proc.devRef .tc KernelIdeal.main_call4_v9) = after ops VR (Proc.devRef .tc ReferenceIdeal.main_call5_v9) := by
  rw [Ssa.ssa_binary hChain VK 92 rfl, Ssa.ssa_binary hW VR 138 rfl, p_main_call4_v6 H, Ssa.ssa_nullary hChain VK 91 rfl, Ssa.ssa_nullary hW VR 137 rfl] <;> rfl
theorem p_main_call4_v10 : after chain VK (Proc.devRef .tc KernelIdeal.main_call4_v10) = after ops VR (Proc.devRef .tc ReferenceIdeal.main_call5_v10) := by
  rw [Ssa.ssa_unary hChain VK 93 rfl, Ssa.ssa_unary hW VR 139 rfl, p_main_call4_v8 H] <;> rfl
theorem p_main_call4_v11 : after chain VK (Proc.devRef .tc KernelIdeal.main_call4_v11) = after ops VR (Proc.devRef .tc ReferenceIdeal.main_call5_v11) := by
  rw [Ssa.ssa_binary hChain VK 94 rfl, Ssa.ssa_binary hW VR 140 rfl, p_main_call4_v9 H, p_main_call4_v10 H] <;> rfl
theorem p_main_call4_v12 : after chain VK (Proc.devRef .tc KernelIdeal.main_call4_v12) = after ops VR (Proc.devRef .tc ReferenceIdeal.main_call5_v12) := by
  rw [Ssa.ssa_binary hChain VK 96 rfl, Ssa.ssa_binary hW VR 142 rfl, p_main_call4_v8 H, Ssa.ssa_nullary hChain VK 95 rfl, Ssa.ssa_nullary hW VR 141 rfl] <;> rfl
theorem p_main_call4_call0_v0 : after chain VK (Proc.devRef .tc KernelIdeal.main_call4_call0_v0) = after ops VR (Proc.devRef .tc ReferenceIdeal.main_call5_call0_v0) := by
  rw [Ssa.ssa_unary hChain VK 98 rfl, Ssa.ssa_unary hW VR 144 rfl, Ssa.ssa_nullary hChain VK 97 rfl, Ssa.ssa_nullary hW VR 143 rfl] <;> rfl
theorem p_main_call4_call0_v1 : after chain VK (Proc.devRef .tc KernelIdeal.main_call4_call0_v1) = after ops VR (Proc.devRef .tc ReferenceIdeal.main_call5_call0_v1) := by
  rw [Ssa.ssa_unary hChain VK 99 rfl, Ssa.ssa_unary hW VR 145 rfl, p_main_call4_call0_v0 H] <;> rfl
theorem p_main_v51 : after chain VK (Proc.devRef .tc KernelIdeal.main_v51) = after ops VR (Proc.devRef .tc ReferenceIdeal.main_v59) := by
  rw [Ssa.ssa_ternary hChain VK 100 rfl, Ssa.ssa_ternary hW VR 146 rfl, p_main_call4_v12 H, p_main_call4_v11 H, p_main_call4_call0_v1 H] <;> rfl
theorem p_main_v52 : after chain VK (Proc.devRef .tc KernelIdeal.main_v52) = after ops VR (Proc.devRef .tc ReferenceIdeal.main_v60) := by
  rw [Ssa.ssa_unary hChain VK 101 rfl, Ssa.ssa_unary hW VR 147 rfl, p_main_v50 H] <;> rfl
theorem p_main_v53 : after chain VK (Proc.devRef .tc KernelIdeal.main_v53) = after ops VR (Proc.devRef .tc ReferenceIdeal.main_v61) := by
  rw [Ssa.ssa_unary hChain VK 102 rfl, Ssa.ssa_unary hW VR 148 rfl, p_main_v52 H] <;> rfl
theorem p_main_v54 : after chain VK (Proc.devRef .tc KernelIdeal.main_v54) = after ops VR (Proc.devRef .tc ReferenceIdeal.main_v62) := by
  rw [Ssa.ssa_binary hChain VK 103 rfl, Ssa.ssa_binary hW VR 149 rfl, p_main_v47 H, p_main_v53 H] <;> rfl
theorem p_main_v55 : after chain VK (Proc.devRef .tc KernelIdeal.main_v55) = after ops VR (Proc.devRef .tc ReferenceIdeal.main_v63) := by
  rw [Ssa.ssa_unary hChain VK 105 rfl, Ssa.ssa_unary hW VR 151 rfl, Ssa.ssa_nullary hChain VK 104 rfl, Ssa.ssa_nullary hW VR 150 rfl] <;> rfl
theorem p_main_v56 : after chain VK (Proc.devRef .tc KernelIdeal.main_v56) = after ops VR (Proc.devRef .tc ReferenceIdeal.main_v64) := by
  rw [Ssa.ssa_binary hChain VK 106 rfl, Ssa.ssa_binary hW VR 152 rfl, p_main_v51 H, p_main_v55 H] <;> rfl
theorem p_main_v57 : after chain VK (Proc.devRef .tc KernelIdeal.main_v57) = after ops VR (Proc.devRef .tc ReferenceIdeal.main_v65) := by
  rw [Ssa.ssa_unary hChain VK 107 rfl, Ssa.ssa_unary hW VR 153 rfl, p_main_v56 H] <;> rfl
theorem p_main_v58 : after chain VK (Proc.devRef .tc KernelIdeal.main_v58) = after ops VR (Proc.devRef .tc ReferenceIdeal.main_v66) := by
  rw [Ssa.ssa_unary hChain VK 108 rfl, Ssa.ssa_unary hW VR 154 rfl, p_main_v57 H] <;> rfl
theorem p_main_v59 : after chain VK (Proc.devRef .tc KernelIdeal.main_v59) = after ops VR (Proc.devRef .tc ReferenceIdeal.main_v67) := by
  rw [Ssa.ssa_unary hChain VK 109 rfl, Ssa.ssa_unary hW VR 155 rfl, p_main_v58 H] <;> rfl
theorem p_main_v60 : after chain VK (Proc.devRef .tc KernelIdeal.main_v60) = after ops VR (Proc.devRef .tc ReferenceIdeal.main_v68) := by
  rw [Ssa.ssa_binary hChain VK 110 rfl, Ssa.ssa_binary hW VR 156 rfl, p_main_v54 H, p_main_v59 H] <;> rfl
theorem p_main_v61 : after chain VK (Proc.devRef .tc KernelIdeal.main_v61) = after ops VR (Proc.devRef .tc ReferenceIdeal.main_v69) := by
  rw [Ssa.ssa_binary hChain VK 111 rfl, Ssa.ssa_binary hW VR 157 rfl, p_main_v60 H, H.arg8] <;> rfl
theorem p_main_v62 : after chain VK (Proc.devRef .tc KernelIdeal.main_v62) = after ops VR (Proc.devRef .tc ReferenceIdeal.main_v70) := by
  rw [Ssa.ssa_unary hChain VK 112 rfl, Ssa.ssa_unary hW VR 158 rfl, H.arg9] <;> rfl
theorem p_main_v63 : after chain VK (Proc.devRef .tc KernelIdeal.main_v63) = after ops VR (Proc.devRef .tc ReferenceIdeal.main_v71) := by
  rw [Ssa.ssa_unary hChain VK 113 rfl, Ssa.ssa_unary hW VR 159 rfl, p_main_v62 H] <;> rfl
theorem p_main_v64 : after chain VK (Proc.devRef .tc KernelIdeal.main_v64) = after ops VR (Proc.devRef .tc ReferenceIdeal.main_v72) := by
  rw [Ssa.ssa_binary hChain VK 114 rfl, Ssa.ssa_binary hW VR 160 rfl, p_main_v61 H, p_main_v63 H] <;> rfl
theorem p_main_v65 : after chain VK (Proc.devRef .tc KernelIdeal.main_v65) = after ops VR (Proc.devRef .tc ReferenceIdeal.main_v73) := by
  rw [Ssa.ssa_binary hChain VK 115 rfl, Ssa.ssa_binary hW VR 161 rfl, H.arg2, p_main_v64 H] <;> rfl
theorem p_main_v66 : after chain VK (Proc.devRef .tc KernelIdeal.main_v66) = after ops VR (Proc.devRef .tc ReferenceIdeal.main_v74) := by
  rw [Ssa.ssa_unary hChain VK 117 rfl, Ssa.ssa_unary hW VR 163 rfl, Ssa.ssa_nullary hChain VK 116 rfl, Ssa.ssa_nullary hW VR 162 rfl] <;> rfl
theorem p_main_v67 : after chain VK (Proc.devRef .tc KernelIdeal.main_v67) = after ops VR (Proc.devRef .tc ReferenceIdeal.main_v75) := by
  rw [Ssa.ssa_binary hChain VK 118 rfl, Ssa.ssa_binary hW VR 164 rfl, p_main_v65 H, p_main_v66 H] <;> rfl
theorem p_main_v68 : after chain VK (Proc.devRef .tc KernelIdeal.main_v68) = after ops VR (Proc.devRef .tc ReferenceIdeal.main_v76) := by
  rw [Ssa.ssa_unary hChain VK 120 rfl, Ssa.ssa_unary hW VR 166 rfl, Ssa.ssa_nullary hChain VK 119 rfl, Ssa.ssa_nullary hW VR 165 rfl] <;> rfl
theorem p_main_v69 : after chain VK (Proc.devRef .tc KernelIdeal.main_v69) = after ops VR (Proc.devRef .tc ReferenceIdeal.main_v77) := by
  rw [Ssa.ssa_binary hChain VK 121 rfl, Ssa.ssa_binary hW VR 167 rfl, p_main_v68 H, p_main_v65 H] <;> rfl
theorem p_main_v70 : after chain VK (Proc.devRef .tc KernelIdeal.main_v70) = after ops VR (Proc.devRef .tc ReferenceIdeal.main_v78) := by
  rw [Ssa.ssa_ternary hChain VK 122 rfl, Ssa.ssa_ternary hW VR 168 rfl, p_main_v67 H, p_main_v65 H, p_main_v69 H] <;> rfl
theorem p_main_v71 : after chain VK (Proc.devRef .tc KernelIdeal.main_v71) = after ops VR (Proc.devRef .tc ReferenceIdeal.main_v80) := by
  rw [Ssa.ssa_unary hChain VK 123 rfl, Ssa.ssa_unary hW VR 170 rfl, H.arg3] <;> rfl
theorem p_main_v72 : after chain VK (Proc.devRef .tc KernelIdeal.main_v72) = after ops VR (Proc.devRef .tc ReferenceIdeal.main_v81) := by
  rw [Ssa.ssa_reshape hChain VK 124 rfl, Ssa.ssa_reshape hW VR 171 rfl, p_main_v71 H] <;> rfl
theorem p_main_v73 : after chain VK (Proc.devRef .tc KernelIdeal.main_v73) = after ops VR (Proc.devRef .tc ReferenceIdeal.main_v82) := by
  rw [Ssa.ssa_unary hChain VK 125 rfl, Ssa.ssa_unary hW VR 172 rfl, H.arg3] <;> rfl
theorem p_main_v74 : after chain VK (Proc.devRef .tc KernelIdeal.main_v74) = after ops VR (Proc.devRef .tc ReferenceIdeal.main_v83) := by
  rw [Ssa.ssa_reshape hChain VK 126 rfl, Ssa.ssa_reshape hW VR 173 rfl, p_main_v73 H] <;> rfl
theorem p_main_call6_v0 : after chain VK (Proc.devRef .tc KernelIdeal.main_call6_v0) = after ops VR (Proc.devRef .tc ReferenceIdeal.main_call7_v0) := by
  rw [Ssa.ssa_binary hChain VK 127 rfl, Ssa.ssa_binary hW VR 174 rfl, H.v11_0] <;> rfl
theorem p_main_call6_v1 : after chain VK (Proc.devRef .tc KernelIdeal.main_call6_v1) = after ops VR (Proc.devRef .tc ReferenceIdeal.main_call7_v1) := by
  rw [Ssa.ssa_binary hChain VK 129 rfl, Ssa.ssa_binary hW VR 176 rfl, p_main_call6_v0 H, Ssa.ssa_nullary hChain VK 128 rfl, Ssa.ssa_nullary hW VR 175 rfl] <;> rfl
theorem p_main_call6_v2 : after chain VK (Proc.devRef .tc KernelIdeal.main_call6_v2) = after ops VR (Proc.devRef .tc ReferenceIdeal.main_call7_v2) := by
  rw [Ssa.ssa_unary hChain VK 130 rfl, Ssa.ssa_unary hW VR 177 rfl, p_main_call6_v1 H] <;> rfl
theorem p_main_v75 : after chain VK (Proc.devRef .tc KernelIdeal.main_v75) = after ops VR (Proc.devRef .tc ReferenceIdeal.main_v84) := by
  rw [Ssa.ssa_unary hChain VK 131 rfl, Ssa.ssa_unary hW VR 178 rfl, p_main_call6_v2 H] <;> rfl
theorem p_main_v76 : after chain VK (Proc.devRef .tc KernelIdeal.main_v76) = after ops VR (Proc.devRef .tc ReferenceIdeal.main_v85) := by
  rw [Ssa.ssa_unary hChain VK 133 rfl, Ssa.ssa_unary hW VR 180 rfl, Ssa.ssa_nullary hChain VK 132 rfl, Ssa.ssa_nullary hW VR 179 rfl] <;> rfl
theorem p_main_v77 : after chain VK (Proc.devRef .tc KernelIdeal.main_v77) = after ops VR (Proc.devRef .tc ReferenceIdeal.main_v86) := by
  rw [Ssa.ssa_binary hChain VK 134 rfl, Ssa.ssa_binary hW VR 181 rfl, p_main_v75 H, p_main_v76 H] <;> rfl
theorem p_main_v78 : after chain VK (Proc.devRef .tc KernelIdeal.main_v78) = after ops VR (Proc.devRef .tc ReferenceIdeal.main_v87) := by
  rw [Ssa.ssa_unary hChain VK 135 rfl, Ssa.ssa_unary hW VR 182 rfl, p_main_v77 H] <;> rfl
theorem p_main_v79 : after chain VK (Proc.devRef .tc KernelIdeal.main_v79) = after ops VR (Proc.devRef .tc ReferenceIdeal.main_v88) := by
  rw [Ssa.ssa_binary hChain VK 136 rfl, Ssa.ssa_binary hW VR 183 rfl, H.v11_0, p_main_v78 H] <;> rfl
theorem p_main_v80 : after chain VK (Proc.devRef .tc KernelIdeal.main_v80) = after ops VR (Proc.devRef .tc ReferenceIdeal.main_v89) := by
  rw [Ssa.ssa_binary hChain VK 138 rfl, Ssa.ssa_binary hW VR 185 rfl, p_main_v79 H, Ssa.ssa_nullary hChain VK 137 rfl, Ssa.ssa_nullary hW VR 184 rfl] <;> rfl
theorem p_main_v81 : after chain VK (Proc.devRef .tc KernelIdeal.main_v81) = after ops VR (Proc.devRef .tc ReferenceIdeal.main_v90) := by
  rw [Ssa.ssa_unary hChain VK 140 rfl, Ssa.ssa_unary hW VR 187 rfl, Ssa.ssa_nullary hChain VK 139 rfl, Ssa.ssa_nullary hW VR 186 rfl] <;> rfl
theorem p_main_v82 : after chain VK (Proc.devRef .tc KernelIdeal.main_v82) = after ops VR (Proc.devRef .tc ReferenceIdeal.main_v91) := by
  rw [Ssa.ssa_binary hChain VK 141 rfl, Ssa.ssa_binary hW VR 188 rfl, p_main_v80 H, p_main_v81 H] <;> rfl
theorem p_main_call7_v0 : after chain VK (Proc.devRef .tc KernelIdeal.main_call7_v0) = after ops VR (Proc.devRef .tc ReferenceIdeal.main_call8_v0) := by
  rw [Ssa.ssa_binary hChain VK 144 rfl, Ssa.ssa_binary hW VR 191 rfl, p_main_v79 H, Ssa.ssa_nullary hChain VK 143 rfl, Ssa.ssa_nullary hW VR 190 rfl] <;> rfl
theorem p_main_call7_v1 : after chain VK (Proc.devRef .tc KernelIdeal.main_call7_v1) = after ops VR (Proc.devRef .tc ReferenceIdeal.main_call8_v1) := by
  rw [Ssa.ssa_unary hChain VK 145 rfl, Ssa.ssa_unary hW VR 192 rfl, p_main_call7_v0 H] <;> rfl
theorem p_main_call7_v2 : after chain VK (Proc.devRef .tc KernelIdeal.main_call7_v2) = after ops VR (Proc.devRef .tc ReferenceIdeal.main_call8_v2) := by
  rw [Ssa.ssa_unary hChain VK 147 rfl, Ssa.ssa_unary hW VR 194 rfl, Ssa.ssa_nullary hChain VK 146 rfl, Ssa.ssa_nullary hW VR 193 rfl] <;> rfl
theorem p_main_call7_v3 : after chain VK (Proc.devRef .tc KernelIdeal.main_call7_v3) = after ops VR (Proc.devRef .tc ReferenceIdeal.main_call8_v3) := by
  rw [Ssa.ssa_binary hChain VK 148 rfl, Ssa.ssa_binary hW VR 195 rfl, p_main_call7_v1 H, p_main_call7_v2 H] <;> rfl
theorem p_main_call7_v4 : after chain VK (Proc.devRef .tc KernelIdeal.main_call7_v4) = after ops VR (Proc.devRef .tc ReferenceIdeal.main_call8_v4) := by
  rw [Ssa.ssa_unary hChain VK 149 rfl, Ssa.ssa_unary hW VR 196 rfl, p_main_call7_v3 H] <;> rfl
theorem p_main_call7_v5 : after chain VK (Proc.devRef .tc KernelIdeal.main_call7_v5) = after ops VR (Proc.devRef .tc ReferenceIdeal.main_call8_v5) := by
  rw [Ssa.ssa_binary hChain VK 150 rfl, Ssa.ssa_binary hW VR 197 rfl, p_main_v79 H, p_main_call7_v4 H] <;> rfl
theorem p_main_call7_v6 : after chain VK (Proc.devRef .tc KernelIdeal.main_call7_v6) = after ops VR (Proc.devRef .tc ReferenceIdeal.main_call8_v6) := by
  rw [Ssa.ssa_binary hChain VK 151 rfl, Ssa.ssa_binary hW VR 198 rfl, p_main_call7_v5 H] <;> rfl
theorem p_main_call7_v7 : after chain VK (Proc.devRef .tc KernelIdeal.main_call7_v7) = after ops VR (Proc.devRef .tc ReferenceIdeal.main_call8_v7) := by
  rw [Ssa.ssa_unary hChain VK 152 rfl, Ssa.ssa_unary hW VR 199 rfl, Ssa.ssa_nullary hChain VK 142 rfl, Ssa.ssa_nullary hW VR 189 rfl] <;> rfl
theorem p_main_call7_v8 : after chain VK (Proc.devRef .tc KernelIdeal.main_call7_v8) = after ops VR (Proc.devRef .tc ReferenceIdeal.main_call8_v8) := by
  rw [Ssa.ssa_binary hChain VK 154 rfl, Ssa.ssa_binary hW VR 201 rfl, Ssa.ssa_nullary hChain VK 153 rfl, Ssa.ssa_nullary hW VR 200 rfl, p_main_call7_v7 H] <;> rfl
theorem p_main_call7_v9 : after chain VK (Proc.devRef .tc KernelIdeal.main_call7_v9) = after ops VR (Proc.devRef .tc ReferenceIdeal.main_call8_v9) := by
  rw [Ssa.ssa_binary hChain VK 156 rfl, Ssa.ssa_binary hW VR 203 rfl, p_main_call7_v6 H, Ssa.ssa_nullary hChain VK 155 rfl, Ssa.ssa_nullary hW VR 202 rfl] <;> rfl
theorem p_main_call7_v10 : after chain VK (Proc.devRef .tc KernelIdeal.main_call7_v10) = after ops VR (Proc.devRef .tc ReferenceIdeal.main_call8_v10) := by
  rw [Ssa.ssa_unary hChain VK 157 rfl, Ssa.ssa_unary hW VR 204 rfl, p_main_call7_v8 H] <;> rfl
theorem p_main_call7_v11 : after chain VK (Proc.devRef .tc KernelIdeal.main_call7_v11) = after ops VR (Proc.devRef .tc ReferenceIdeal.main_call8_v11) := by
  rw [Ssa.ssa_binary hChain VK 158 rfl, Ssa.ssa_binary hW VR 205 rfl, p_main_call7_v9 H, p_main_call7_v10 H] <;> rfl
theorem p_main_call7_v12 : after chain VK (Proc.devRef .tc KernelIdeal.main_call7_v12) = after ops VR (Proc.devRef .tc ReferenceIdeal.main_call8_v12) := by
  rw [Ssa.ssa_binary hChain VK 160 rfl, Ssa.ssa_binary hW VR 207 rfl, p_main_call7_v8 H, Ssa.ssa_nullary hChain VK 159 rfl, Ssa.ssa_nullary hW VR 206 rfl] <;> rfl
theorem p_main_call7_call0_v0 : after chain VK (Proc.devRef .tc KernelIdeal.main_call7_call0_v0) = after ops VR (Proc.devRef .tc ReferenceIdeal.main_call8_call0_v0) := by
  rw [Ssa.ssa_unary hChain VK 162 rfl, Ssa.ssa_unary hW VR 209 rfl, Ssa.ssa_nullary hChain VK 161 rfl, Ssa.ssa_nullary hW VR 208 rfl] <;> rfl
theorem p_main_call7_call0_v1 : after chain VK (Proc.devRef .tc KernelIdeal.main_call7_call0_v1) = after ops VR (Proc.devRef .tc ReferenceIdeal.main_call8_call0_v1) := by
  rw [Ssa.ssa_unary hChain VK 163 rfl, Ssa.ssa_unary hW VR 210 rfl, p_main_call7_call0_v0 H] <;> rfl
theorem p_main_v83 : after chain VK (Proc.devRef .tc KernelIdeal.main_v83) = after ops VR (Proc.devRef .tc ReferenceIdeal.main_v92) := by
  rw [Ssa.ssa_ternary hChain VK 164 rfl, Ssa.ssa_ternary hW VR 211 rfl, p_main_call7_v12 H, p_main_call7_v11 H, p_main_call7_call0_v1 H] <;> rfl
theorem p_main_v84 : after chain VK (Proc.devRef .tc KernelIdeal.main_v84) = after ops VR (Proc.devRef .tc ReferenceIdeal.main_v93) := by
  rw [Ssa.ssa_unary hChain VK 165 rfl, Ssa.ssa_unary hW VR 212 rfl, p_main_v82 H] <;> rfl
theorem p_main_v85 : after chain VK (Proc.devRef .tc KernelIdeal.main_v85) = after ops VR (Proc.devRef .tc ReferenceIdeal.main_v94) := by
  rw [Ssa.ssa_unary hChain VK 166 rfl, Ssa.ssa_unary hW VR 213 rfl, p_main_v84 H] <;> rfl
theorem p_main_v86 : after chain VK (Proc.devRef .tc KernelIdeal.main_v86) = after ops VR (Proc.devRef .tc ReferenceIdeal.main_v95) := by
  rw [Ssa.ssa_binary hChain VK 167 rfl, Ssa.ssa_binary hW VR 214 rfl, p_main_v79 H, p_main_v85 H] <;> rfl
theorem p_main_v87 : after chain VK (Proc.devRef .tc KernelIdeal.main_v87) = after ops VR (Proc.devRef .tc ReferenceIdeal.main_v96) := by
  rw [Ssa.ssa_unary hChain VK 169 rfl, Ssa.ssa_unary hW VR 216 rfl, Ssa.ssa_nullary hChain VK 168 rfl, Ssa.ssa_nullary hW VR 215 rfl] <;> rfl
theorem p_main_v88 : after chain VK (Proc.devRef .tc KernelIdeal.main_v88) = after ops VR (Proc.devRef .tc ReferenceIdeal.main_v97) := by
  rw [Ssa.ssa_binary hChain VK 170 rfl, Ssa.ssa_binary hW VR 217 rfl, p_main_v83 H, p_main_v87 H] <;> rfl
theorem p_main_v89 : after chain VK (Proc.devRef .tc KernelIdeal.main_v89) = after ops VR (Proc.devRef .tc ReferenceIdeal.main_v98) := by
  rw [Ssa.ssa_unary hChain VK 171 rfl, Ssa.ssa_unary hW VR 218 rfl, p_main_v88 H] <;> rfl
theorem p_main_v90 : after chain VK (Proc.devRef .tc KernelIdeal.main_v90) = after ops VR (Proc.devRef .tc ReferenceIdeal.main_v99) := by
  rw [Ssa.ssa_unary hChain VK 172 rfl, Ssa.ssa_unary hW VR 219 rfl, p_main_v89 H] <;> rfl
theorem p_main_v91 : after chain VK (Proc.devRef .tc KernelIdeal.main_v91) = after ops VR (Proc.devRef .tc ReferenceIdeal.main_v100) := by
  rw [Ssa.ssa_unary hChain VK 173 rfl, Ssa.ssa_unary hW VR 220 rfl, p_main_v90 H] <;> rfl
theorem p_main_v92 : after chain VK (Proc.devRef .tc KernelIdeal.main_v92) = after ops VR (Proc.devRef .tc ReferenceIdeal.main_v101) := by
  rw [Ssa.ssa_binary hChain VK 174 rfl, Ssa.ssa_binary hW VR 221 rfl, p_main_v86 H, p_main_v91 H] <;> rfl
theorem p_main_v93 : after chain VK (Proc.devRef .tc KernelIdeal.main_v93) = after ops VR (Proc.devRef .tc ReferenceIdeal.main_v102) := by
  rw [Ssa.ssa_binary hChain VK 175 rfl, Ssa.ssa_binary hW VR 222 rfl, p_main_v92 H, H.arg10] <;> rfl
theorem p_main_v94 : after chain VK (Proc.devRef .tc KernelIdeal.main_v94) = after ops VR (Proc.devRef .tc ReferenceIdeal.main_v103) := by
  rw [Ssa.ssa_unary hChain VK 177 rfl, Ssa.ssa_unary hW VR 224 rfl, Ssa.ssa_nullary hChain VK 176 rfl, Ssa.ssa_nullary hW VR 223 rfl] <;> rfl
theorem p_main_v95 : after chain VK (Proc.devRef .tc KernelIdeal.main_v95) = after ops VR (Proc.devRef .tc ReferenceIdeal.main_v104) := by
  rw [Ssa.ssa_unary hChain VK 179 rfl, Ssa.ssa_unary hW VR 226 rfl, Ssa.ssa_nullary hChain VK 178 rfl, Ssa.ssa_nullary hW VR 225 rfl] <;> rfl
theorem p_main_v96 : after chain VK (Proc.devRef .tc KernelIdeal.main_v96) = after ops VR (Proc.devRef .tc ReferenceIdeal.main_v105) := by
  rw [Ssa.ssa_binary hChain VK 180 rfl, Ssa.ssa_binary hW VR 227 rfl, p_main_v74 H, p_main_v95 H] <;> rfl
theorem p_main_v97 : after chain VK (Proc.devRef .tc KernelIdeal.main_v97) = after ops VR (Proc.devRef .tc ReferenceIdeal.main_v106) := by
  rw [Ssa.ssa_unary hChain VK 182 rfl, Ssa.ssa_unary hW VR 229 rfl, Ssa.ssa_nullary hChain VK 181 rfl, Ssa.ssa_nullary hW VR 228 rfl] <;> rfl
theorem p_main_v98 : after chain VK (Proc.devRef .tc KernelIdeal.main_v98) = after ops VR (Proc.devRef .tc ReferenceIdeal.main_v107) := by
  rw [Ssa.ssa_binary hChain VK 183 rfl, Ssa.ssa_binary hW VR 230 rfl, p_main_v74 H, p_main_v97 H] <;> rfl
theorem p_main_v99 : after chain VK (Proc.devRef .tc KernelIdeal.main_v99) = after ops VR (Proc.devRef .tc ReferenceIdeal.main_v108) := by
  rw [Ssa.ssa_ternary hChain VK 184 rfl, Ssa.ssa_ternary hW VR 231 rfl, p_main_v96 H, p_main_v98 H, p_main_v74 H] <;> rfl
theorem p_main_v100 : after chain VK (Proc.devRef .tc KernelIdeal.main_v100) = after ops VR (Proc.devRef .tc ReferenceIdeal.main_v109) := by
  rw [Ssa.ssa_unary hChain VK 185 rfl, Ssa.ssa_unary hW VR 232 rfl, p_main_v99 H] <;> rfl
theorem p_main_v101 : after chain VK (Proc.devRef .tc KernelIdeal.main_v101) = after ops VR (Proc.devRef .tc ReferenceIdeal.main_v110) := by
  rw [Ssa.ssa_unary hChain VK 187 rfl, Ssa.ssa_unary hW VR 234 rfl, Ssa.ssa_nullary hChain VK 186 rfl, Ssa.ssa_nullary hW VR 233 rfl] <;> rfl
theorem p_main_v102 : after chain VK (Proc.devRef .tc KernelIdeal.main_v102) = after ops VR (Proc.devRef .tc ReferenceIdeal.main_v111) := by
  rw [Ssa.ssa_ternary hChain VK 188 rfl, Ssa.ssa_ternary hW VR 235 rfl, p_main_v94 H, p_main_v100 H, p_main_v101 H] <;> rfl
theorem p_main_v103 : after chain VK (Proc.devRef .tc KernelIdeal.main_v103) = after ops VR (Proc.devRef .tc ReferenceIdeal.main_v112) := by
  rw [Ssa.ssa_unary hChain VK 190 rfl, Ssa.ssa_unary hW VR 237 rfl, Ssa.ssa_nullary hChain VK 189 rfl, Ssa.ssa_nullary hW VR 236 rfl] <;> rfl
theorem p_main_v104 : after chain VK (Proc.devRef .tc KernelIdeal.main_v104) = after ops VR (Proc.devRef .tc ReferenceIdeal.main_v113) := by
  rw [Ssa.ssa_binary hChain VK 191 rfl, Ssa.ssa_binary hW VR 238 rfl, p_main_v102 H, p_main_v103 H] <;> rfl
theorem p_main_v105 : after chain VK (Proc.devRef .tc KernelIdeal.main_v105) = after ops VR (Proc.devRef .tc ReferenceIdeal.main_v114) := by
  rw [Ssa.ssa_unary hChain VK 192 rfl, Ssa.ssa_unary hW VR 239 rfl, p_main_v104 H] <;> rfl
theorem p_main_v106 : after chain VK (Proc.devRef .tc KernelIdeal.main_v106) = after ops VR (Proc.devRef .tc ReferenceIdeal.main_v115) := by
  rw [Ssa.ssa_unary hChain VK 194 rfl, Ssa.ssa_unary hW VR 241 rfl, Ssa.ssa_nullary hChain VK 193 rfl, Ssa.ssa_nullary hW VR 240 rfl] <;> rfl
theorem p_main_v107 : after chain VK (Proc.devRef .tc KernelIdeal.main_v107) = after ops VR (Proc.devRef .tc ReferenceIdeal.main_v116) := by
  rw [Ssa.ssa_binary hChain VK 195 rfl, Ssa.ssa_binary hW VR 242 rfl, p_main_v72 H, p_main_v106 H] <;> rfl
theorem p_main_v108 : after chain VK (Proc.devRef .tc KernelIdeal.main_v108) = after ops VR (Proc.devRef .tc ReferenceIdeal.main_v117) := by
  rw [Ssa.ssa_unary hChain VK 197 rfl, Ssa.ssa_unary hW VR 244 rfl, Ssa.ssa_nullary hChain VK 196 rfl, Ssa.ssa_nullary hW VR 243 rfl] <;> rfl
theorem p_main_v109 : after chain VK (Proc.devRef .tc KernelIdeal.main_v109) = after ops VR (Proc.devRef .tc ReferenceIdeal.main_v118) := by
  rw [Ssa.ssa_binary hChain VK 198 rfl, Ssa.ssa_binary hW VR 245 rfl, p_main_v72 H, p_main_v108 H] <;> rfl
theorem p_main_v110 : after chain VK (Proc.devRef .tc KernelIdeal.main_v110) = after ops VR (Proc.devRef .tc ReferenceIdeal.main_v119) := by
  rw [Ssa.ssa_ternary hChain VK 199 rfl, Ssa.ssa_ternary hW VR 246 rfl, p_main_v107 H, p_main_v109 H, p_main_v72 H] <;> rfl
theorem p_main_v111 : after chain VK (Proc.devRef .tc KernelIdeal.main_v111) = after ops VR (Proc.devRef .tc ReferenceIdeal.main_v120) := by
  rw [Ssa.ssa_unary hChain VK 200 rfl, Ssa.ssa_unary hW VR 247 rfl, p_main_v110 H] <;> rfl
theorem p_main_v112 : after chain VK (Proc.devRef .tc KernelIdeal.main_v112) = after ops VR (Proc.devRef .tc ReferenceIdeal.main_v121) := by
  rw [Ssa.ssa_binary hChain VK 201 rfl, Ssa.ssa_binary hW VR 248 rfl, p_main_v105 H, p_main_v111 H] <;> rfl
theorem p_main_v113 : after chain VK (Proc.devRef .tc KernelIdeal.main_v113) = after ops VR (Proc.devRef .tc ReferenceIdeal.main_v122) := by
  rw [Ssa.ssa_unary hChain VK 203 rfl, Ssa.ssa_unary hW VR 250 rfl, Ssa.ssa_nullary hChain VK 202 rfl, Ssa.ssa_nullary hW VR 249 rfl] <;> rfl
theorem p_main_v114 : after chain VK (Proc.devRef .tc KernelIdeal.main_v114) = after ops VR (Proc.devRef .tc ReferenceIdeal.main_v123) := by
  rw [Ssa.ssa_binary hChain VK 204 rfl, Ssa.ssa_binary hW VR 251 rfl, p_main_v74 H, p_main_v113 H] <;> rfl
theorem p_main_v115 : after chain VK (Proc.devRef .tc KernelIdeal.main_v115) = after ops VR (Proc.devRef .tc ReferenceIdeal.main_v124) := by
  rw [Ssa.ssa_unary hChain VK 206 rfl, Ssa.ssa_unary hW VR 253 rfl, Ssa.ssa_nullary hChain VK 205 rfl, Ssa.ssa_nullary hW VR 252 rfl] <;> rfl
theorem p_main_v116 : after chain VK (Proc.devRef .tc KernelIdeal.main_v116) = after ops VR (Proc.devRef .tc ReferenceIdeal.main_v125) := by
  rw [Ssa.ssa_binary hChain VK 207 rfl, Ssa.ssa_binary hW VR 254 rfl, p_main_v74 H, p_main_v115 H] <;> rfl
theorem p_main_v117 : after chain VK (Proc.devRef .tc KernelIdeal.main_v117) = after ops VR (Proc.devRef .tc ReferenceIdeal.main_v126) := by
  rw [Ssa.ssa_ternary hChain VK 208 rfl, Ssa.ssa_ternary hW VR 255 rfl, p_main_v114 H, p_main_v116 H, p_main_v74 H] <;> rfl
theorem p_main_v118 : after chain VK (Proc.devRef .tc KernelIdeal.main_v118) = after ops VR (Proc.devRef .tc ReferenceIdeal.main_v127) := by
  rw [Ssa.ssa_unary hChain VK 209 rfl, Ssa.ssa_unary hW VR 256 rfl, p_main_v117 H] <;> rfl
theorem p_main_v119 : after chain VK (Proc.devRef .tc KernelIdeal.main_v119) = after ops VR (Proc.devRef .tc ReferenceIdeal.main_v128) := by
  rw [Ssa.ssa_binary hChain VK 210 rfl, Ssa.ssa_binary hW VR 257 rfl, p_main_v105 H, p_main_v118 H] <;> rfl
theorem p_main_v120 : after chain VK (Proc.devRef .tc KernelIdeal.main_v120) = after ops VR (Proc.devRef .tc ReferenceIdeal.main_v129) := by
  rw [Ssa.ssa_binary hChain VK 211 rfl, Ssa.ssa_binary hW VR 258 rfl, p_main_v112 H, p_main_v119 H] <;> rfl
theorem p_main_v121 : after chain VK (Proc.devRef .tc KernelIdeal.main_v121) = after ops VR (Proc.devRef .tc ReferenceIdeal.main_v130) := by
  rw [Ssa.ssa_unary hChain VK 213 rfl, Ssa.ssa_unary hW VR 260 rfl, Ssa.ssa_nullary hChain VK 212 rfl, Ssa.ssa_nullary hW VR 259 rfl] <;> rfl
theorem p_main_v122 : after chain VK (Proc.devRef .tc KernelIdeal.main_v122) = after ops VR (Proc.devRef .tc ReferenceIdeal.main_v131) := by
  rw [Ssa.ssa_binary hChain VK 214 rfl, Ssa.ssa_binary hW VR 261 rfl, p_main_v72 H, p_main_v121 H] <;> rfl
theorem p_main_v123 : after chain VK (Proc.devRef .tc KernelIdeal.main_v123) = after ops VR (Proc.devRef .tc ReferenceIdeal.main_v132) := by
  rw [Ssa.ssa_unary hChain VK 216 rfl, Ssa.ssa_unary hW VR 263 rfl, Ssa.ssa_nullary hChain VK 215 rfl, Ssa.ssa_nullary hW VR 262 rfl] <;> rfl
theorem p_main_v124 : after chain VK (Proc.devRef .tc KernelIdeal.main_v124) = after ops VR (Proc.devRef .tc ReferenceIdeal.main_v133) := by
  rw [Ssa.ssa_binary hChain VK 217 rfl, Ssa.ssa_binary hW VR 264 rfl, p_main_v72 H, p_main_v123 H] <;> rfl
theorem p_main_v125 : after chain VK (Proc.devRef .tc KernelIdeal.main_v125) = after ops VR (Proc.devRef .tc ReferenceIdeal.main_v134) := by
  rw [Ssa.ssa_ternary hChain VK 218 rfl, Ssa.ssa_ternary hW VR 265 rfl, p_main_v122 H, p_main_v124 H, p_main_v72 H] <;> rfl
theorem p_main_v126 : after chain VK (Proc.devRef .tc KernelIdeal.main_v126) = after ops VR (Proc.devRef .tc ReferenceIdeal.main_v135) := by
  rw [Ssa.ssa_unary hChain VK 219 rfl, Ssa.ssa_unary hW VR 266 rfl, p_main_v125 H] <;> rfl
theorem p_main_v127 : after chain VK (Proc.devRef .tc KernelIdeal.main_v127) = after ops VR (Proc.devRef .tc ReferenceIdeal.main_v136) := by
  rw [Ssa.ssa_binary hChain VK 220 rfl, Ssa.ssa_binary hW VR 267 rfl, p_main_v93 H, p_main_v126 H] <;> rfl
theorem p_main_v128 : after chain VK (Proc.devRef .tc KernelIdeal.main_v128) = after ops VR (Proc.devRef .tc ReferenceIdeal.main_v137) := by
  rw [Ssa.ssa_unary hChain VK 221 rfl, Ssa.ssa_unary hW VR 268 rfl, p_main_v120 H] <;> rfl
theorem p_main_v129 : after chain VK (Proc.devRef .tc KernelIdeal.main_v129) = after ops VR (Proc.devRef .tc ReferenceIdeal.main_v138) := by
  rw [Ssa.ssa_unary hChain VK 222 rfl, Ssa.ssa_unary hW VR 269 rfl, p_main_v128 H] <;> rfl
theorem p_main_v130 : after chain VK (Proc.devRef .tc KernelIdeal.main_v130) = after ops VR (Proc.devRef .tc ReferenceIdeal.main_v139) := by
  rw [Ssa.ssa_binary hChain VK 223 rfl, Ssa.ssa_binary hW VR 270 rfl, p_main_v127 H, p_main_v129 H] <;> rfl
theorem p_main_v131 : after chain VK (Proc.devRef .tc KernelIdeal.main_v131) = after ops VR (Proc.devRef .tc ReferenceIdeal.main_v140) := by
  rw [Ssa.ssa_unary hChain VK 225 rfl, Ssa.ssa_unary hW VR 272 rfl, Ssa.ssa_nullary hChain VK 224 rfl, Ssa.ssa_nullary hW VR 271 rfl] <;> rfl
theorem p_main_v132 : after chain VK (Proc.devRef .tc KernelIdeal.main_v132) = after ops VR (Proc.devRef .tc ReferenceIdeal.main_v141) := by
  rw [Ssa.ssa_unary hChain VK 226 rfl, Ssa.ssa_unary hW VR 273 rfl, p_main_v74 H] <;> rfl
theorem p_main_v133 : after chain VK (Proc.devRef .tc KernelIdeal.main_v133) = after ops VR (Proc.devRef .tc ReferenceIdeal.main_v142) := by
  rw [Ssa.ssa_ternary hChain VK 227 rfl, Ssa.ssa_ternary hW VR 274 rfl, p_main_v131 H, p_main_v132 H, p_main_v130 H] <;> rfl
theorem p_main_v134 : after chain VK (Proc.devRef .tc KernelIdeal.main_v134) = after ops VR (Proc.devRef .tc ReferenceIdeal.main_v143) := by
  rw [Ssa.ssa_unary hChain VK 228 rfl, Ssa.ssa_unary hW VR 275 rfl, p_main_v104 H] <;> rfl
theorem p_main_v135 : after chain VK (Proc.devRef .tc KernelIdeal.main_v135) = after ops VR (Proc.devRef .tc ReferenceIdeal.main_v144) := by
  rw [Ssa.ssa_unary hChain VK 229 rfl, Ssa.ssa_unary hW VR 276 rfl, p_main_v134 H] <;> rfl
theorem p_main_v136 : after chain VK (Proc.devRef .tc KernelIdeal.main_v136) = after ops VR (Proc.devRef .tc ReferenceIdeal.main_v145) := by
  rw [Ssa.ssa_binary hChain VK 230 rfl, Ssa.ssa_binary hW VR 277 rfl, p_main_v93 H, p_main_v135 H] <;> rfl
theorem p_main_v137 : after chain VK (Proc.devRef .tc KernelIdeal.main_v137) = after ops VR (Proc.devRef .tc ReferenceIdeal.main_v146) := by
  rw [Ssa.ssa_binary hChain VK 231 rfl, Ssa.ssa_binary hW VR 278 rfl, p_main_v133 H, p_main_v136 H] <;> rfl
theorem p_main_v138 : after chain VK (Proc.devRef .tc KernelIdeal.main_v138) = after ops VR (Proc.devRef .tc ReferenceIdeal.main_v147) := by
  rw [Ssa.ssa_unary hChain VK 232 rfl, Ssa.ssa_unary hW VR 279 rfl, H.arg11] <;> rfl
theorem p_main_v139 : after chain VK (Proc.devRef .tc KernelIdeal.main_v139) = after ops VR (Proc.devRef .tc ReferenceIdeal.main_v148) := by
  rw [Ssa.ssa_unary hChain VK 233 rfl, Ssa.ssa_unary hW VR 280 rfl, p_main_v138 H] <;> rfl
theorem p_main_v140 : after chain VK (Proc.devRef .tc KernelIdeal.main_v140) = after ops VR (Proc.devRef .tc ReferenceIdeal.main_v149) := by
  rw [Ssa.ssa_binary hChain VK 234 rfl, Ssa.ssa_binary hW VR 281 rfl, p_main_v137 H, p_main_v139 H] <;> rfl
theorem p_main_v141 : after chain VK (Proc.devRef .tc KernelIdeal.main_v141) = after ops VR (Proc.devRef .tc ReferenceIdeal.main_v150) := by
  rw [Ssa.ssa_unary hChain VK 236 rfl, Ssa.ssa_unary hW VR 283 rfl, Ssa.ssa_nullary hChain VK 235 rfl, Ssa.ssa_nullary hW VR 282 rfl] <;> rfl
theorem p_main_v142 : after chain VK (Proc.devRef .tc KernelIdeal.main_v142) = after ops VR (Proc.devRef .tc ReferenceIdeal.main_v151) := by
  rw [Ssa.ssa_binary hChain VK 237 rfl, Ssa.ssa_binary hW VR 284 rfl, p_main_v140 H, p_main_v141 H] <;> rfl
theorem p_main_v143 : after chain VK (Proc.devRef .tc KernelIdeal.main_v143) = after ops VR (Proc.devRef .tc ReferenceIdeal.main_v152) := by
  rw [Ssa.ssa_unary hChain VK 239 rfl, Ssa.ssa_unary hW VR 286 rfl, Ssa.ssa_nullary hChain VK 238 rfl, Ssa.ssa_nullary hW VR 285 rfl] <;> rfl
theorem p_main_v144 : after chain VK (Proc.devRef .tc KernelIdeal.main_v144) = after ops VR (Proc.devRef .tc ReferenceIdeal.main_v153) := by
  rw [Ssa.ssa_binary hChain VK 240 rfl, Ssa.ssa_binary hW VR 287 rfl, p_main_v143 H, p_main_v140 H] <;> rfl
theorem p_main_v145 : after chain VK (Proc.devRef .tc KernelIdeal.main_v145) = after ops VR (Proc.devRef .tc ReferenceIdeal.main_v154) := by
  rw [Ssa.ssa_ternary hChain VK 241 rfl, Ssa.ssa_ternary hW VR 288 rfl, p_main_v142 H, p_main_v140 H, p_main_v144 H] <;> rfl
theorem p_main_call9_v0 : after chain VK (Proc.devRef .tc KernelIdeal.main_call9_v0) = after ops VR (Proc.devRef .tc ReferenceIdeal.main_call10_v0) := by
  rw [Ssa.ssa_binary hChain VK 242 rfl, Ssa.ssa_binary hW VR 289 rfl, p_main_v145 H] <;> rfl
theorem p_main_call9_v1 : after chain VK (Proc.devRef .tc KernelIdeal.main_call9_v1) = after ops VR (Proc.devRef .tc ReferenceIdeal.main_call10_v1) := by
  rw [Ssa.ssa_binary hChain VK 244 rfl, Ssa.ssa_binary hW VR 291 rfl, p_main_call9_v0 H, Ssa.ssa_nullary hChain VK 243 rfl, Ssa.ssa_nullary hW VR 290 rfl] <;> rfl
theorem p_main_call9_v2 : after chain VK (Proc.devRef .tc KernelIdeal.main_call9_v2) = after ops VR (Proc.devRef .tc ReferenceIdeal.main_call10_v2) := by
  rw [Ssa.ssa_unary hChain VK 245 rfl, Ssa.ssa_unary hW VR 292 rfl, p_main_call9_v1 H] <;> rfl
theorem p_main_v146 : after chain VK (Proc.devRef .tc KernelIdeal.main_v146) = after ops VR (Proc.devRef .tc ReferenceIdeal.main_v155) := by
  rw [Ssa.ssa_unary hChain VK 246 rfl, Ssa.ssa_unary hW VR 293 rfl, p_main_call9_v2 H] <;> rfl
theorem p_main_v147 : after chain VK (Proc.devRef .tc KernelIdeal.main_v147) = after ops VR (Proc.devRef .tc ReferenceIdeal.main_v156) := by
  rw [Ssa.ssa_unary hChain VK 248 rfl, Ssa.ssa_unary hW VR 295 rfl, Ssa.ssa_nullary hChain VK 247 rfl, Ssa.ssa_nullary hW VR 294 rfl] <;> rfl
theorem p_main_v148 : after chain VK (Proc.devRef .tc KernelIdeal.main_v148) = after ops VR (Proc.devRef .tc ReferenceIdeal.main_v157) := by
  rw [Ssa.ssa_binary hChain VK 249 rfl, Ssa.ssa_binary hW VR 296 rfl, p_main_v146 H, p_main_v147 H] <;> rfl
theorem p_main_v149 : after chain VK (Proc.devRef .tc KernelIdeal.main_v149) = after ops VR (Proc.devRef .tc ReferenceIdeal.main_v158) := by
  rw [Ssa.ssa_unary hChain VK 250 rfl, Ssa.ssa_unary hW VR 297 rfl, p_main_v148 H] <;> rfl
theorem p_main_v150 : after chain VK (Proc.devRef .tc KernelIdeal.main_v150) = after ops VR (Proc.devRef .tc ReferenceIdeal.main_v159) := by
  rw [Ssa.ssa_binary hChain VK 251 rfl, Ssa.ssa_binary hW VR 298 rfl, p_main_v145 H, p_main_v149 H] <;> rfl
theorem p_main_v151 : after chain VK (Proc.devRef .tc KernelIdeal.main_v151) = after ops VR (Proc.devRef .tc ReferenceIdeal.main_v160) := by
  rw [Ssa.ssa_binary hChain VK 253 rfl, Ssa.ssa_binary hW VR 300 rfl, p_main_v150 H, Ssa.ssa_nullary hChain VK 252 rfl, Ssa.ssa_nullary hW VR 299 rfl] <;> rfl
theorem p_main_v152 : after chain VK (Proc.devRef .tc KernelIdeal.main_v152) = after ops VR (Proc.devRef .tc ReferenceIdeal.main_v161) := by
  rw [Ssa.ssa_unary hChain VK 255 rfl, Ssa.ssa_unary hW VR 302 rfl, Ssa.ssa_nullary hChain VK 254 rfl, Ssa.ssa_nullary hW VR 301 rfl] <;> rfl
theorem p_main_v153 : after chain VK (Proc.devRef .tc KernelIdeal.main_v153) = after ops VR (Proc.devRef .tc ReferenceIdeal.main_v162) := by
  rw [Ssa.ssa_binary hChain VK 256 rfl, Ssa.ssa_binary hW VR 303 rfl, p_main_v151 H, p_main_v152 H] <;> rfl
theorem p_main_call10_v0 : after chain VK (Proc.devRef .tc KernelIdeal.main_call10_v0) = after ops VR (Proc.devRef .tc ReferenceIdeal.main_call11_v0) := by
  rw [Ssa.ssa_binary hChain VK 259 rfl, Ssa.ssa_binary hW VR 306 rfl, p_main_v150 H, Ssa.ssa_nullary hChain VK 258 rfl, Ssa.ssa_nullary hW VR 305 rfl] <;> rfl
theorem p_main_call10_v1 : after chain VK (Proc.devRef .tc KernelIdeal.main_call10_v1) = after ops VR (Proc.devRef .tc ReferenceIdeal.main_call11_v1) := by
  rw [Ssa.ssa_unary hChain VK 260 rfl, Ssa.ssa_unary hW VR 307 rfl, p_main_call10_v0 H] <;> rfl
theorem p_main_call10_v2 : after chain VK (Proc.devRef .tc KernelIdeal.main_call10_v2) = after ops VR (Proc.devRef .tc ReferenceIdeal.main_call11_v2) := by
  rw [Ssa.ssa_unary hChain VK 262 rfl, Ssa.ssa_unary hW VR 309 rfl, Ssa.ssa_nullary hChain VK 261 rfl, Ssa.ssa_nullary hW VR 308 rfl] <;> rfl
theorem p_main_call10_v3 : after chain VK (Proc.devRef .tc KernelIdeal.main_call10_v3) = after ops VR (Proc.devRef .tc ReferenceIdeal.main_call11_v3) := by
  rw [Ssa.ssa_binary hChain VK 263 rfl, Ssa.ssa_binary hW VR 310 rfl, p_main_call10_v1 H, p_main_call10_v2 H] <;> rfl
theorem p_main_call10_v4 : after chain VK (Proc.devRef .tc KernelIdeal.main_call10_v4) = after ops VR (Proc.devRef .tc ReferenceIdeal.main_call11_v4) := by
  rw [Ssa.ssa_unary hChain VK 264 rfl, Ssa.ssa_unary hW VR 311 rfl, p_main_call10_v3 H] <;> rfl
theorem p_main_call10_v5 : after chain VK (Proc.devRef .tc KernelIdeal.main_call10_v5) = after ops VR (Proc.devRef .tc ReferenceIdeal.main_call11_v5) := by
  rw [Ssa.ssa_binary hChain VK 265 rfl, Ssa.ssa_binary hW VR 312 rfl, p_main_v150 H, p_main_call10_v4 H] <;> rfl
theorem p_main_call10_v6 : after chain VK (Proc.devRef .tc KernelIdeal.main_call10_v6) = after ops VR (Proc.devRef .tc ReferenceIdeal.main_call11_v6) := by
  rw [Ssa.ssa_binary hChain VK 266 rfl, Ssa.ssa_binary hW VR 313 rfl, p_main_call10_v5 H] <;> rfl
theorem p_main_call10_v7 : after chain VK (Proc.devRef .tc KernelIdeal.main_call10_v7) = after ops VR (Proc.devRef .tc ReferenceIdeal.main_call11_v7) := by
  rw [Ssa.ssa_unary hChain VK 267 rfl, Ssa.ssa_unary hW VR 314 rfl, Ssa.ssa_nullary hChain VK 257 rfl, Ssa.ssa_nullary hW VR 304 rfl] <;> rfl
theorem p_main_call10_v8 : after chain VK (Proc.devRef .tc KernelIdeal.main_call10_v8) = after ops VR (Proc.devRef .tc ReferenceIdeal.main_call11_v8) := by
  rw [Ssa.ssa_binary hChain VK 269 rfl, Ssa.ssa_binary hW VR 316 rfl, Ssa.ssa_nullary hChain VK 268 rfl, Ssa.ssa_nullary hW VR 315 rfl, p_main_call10_v7 H] <;> rfl
theorem p_main_call10_v9 : after chain VK (Proc.devRef .tc KernelIdeal.main_call10_v9) = after ops VR (Proc.devRef .tc ReferenceIdeal.main_call11_v9) := by
  rw [Ssa.ssa_binary hChain VK 271 rfl, Ssa.ssa_binary hW VR 318 rfl, p_main_call10_v6 H, Ssa.ssa_nullary hChain VK 270 rfl, Ssa.ssa_nullary hW VR 317 rfl] <;> rfl
theorem p_main_call10_v10 : after chain VK (Proc.devRef .tc KernelIdeal.main_call10_v10) = after ops VR (Proc.devRef .tc ReferenceIdeal.main_call11_v10) := by
  rw [Ssa.ssa_unary hChain VK 272 rfl, Ssa.ssa_unary hW VR 319 rfl, p_main_call10_v8 H] <;> rfl
theorem p_main_call10_v11 : after chain VK (Proc.devRef .tc KernelIdeal.main_call10_v11) = after ops VR (Proc.devRef .tc ReferenceIdeal.main_call11_v11) := by
  rw [Ssa.ssa_binary hChain VK 273 rfl, Ssa.ssa_binary hW VR 320 rfl, p_main_call10_v9 H, p_main_call10_v10 H] <;> rfl
theorem p_main_call10_v12 : after chain VK (Proc.devRef .tc KernelIdeal.main_call10_v12) = after ops VR (Proc.devRef .tc ReferenceIdeal.main_call11_v12) := by
  rw [Ssa.ssa_binary hChain VK 275 rfl, Ssa.ssa_binary hW VR 322 rfl, p_main_call10_v8 H, Ssa.ssa_nullary hChain VK 274 rfl, Ssa.ssa_nullary hW VR 321 rfl] <;> rfl
theorem p_main_call10_call0_v0 : after chain VK (Proc.devRef .tc KernelIdeal.main_call10_call0_v0) = after ops VR (Proc.devRef .tc ReferenceIdeal.main_call11_call0_v0) := by
  rw [Ssa.ssa_unary hChain VK 277 rfl, Ssa.ssa_unary hW VR 324 rfl, Ssa.ssa_nullary hChain VK 276 rfl, Ssa.ssa_nullary hW VR 323 rfl] <;> rfl
theorem p_main_call10_call0_v1 : after chain VK (Proc.devRef .tc KernelIdeal.main_call10_call0_v1) = after ops VR (Proc.devRef .tc ReferenceIdeal.main_call11_call0_v1) := by
  rw [Ssa.ssa_unary hChain VK 278 rfl, Ssa.ssa_unary hW VR 325 rfl, p_main_call10_call0_v0 H] <;> rfl
theorem p_main_v154 : after chain VK (Proc.devRef .tc KernelIdeal.main_v154) = after ops VR (Proc.devRef .tc ReferenceIdeal.main_v163) := by
  rw [Ssa.ssa_ternary hChain VK 279 rfl, Ssa.ssa_ternary hW VR 326 rfl, p_main_call10_v12 H, p_main_call10_v11 H, p_main_call10_call0_v1 H] <;> rfl
theorem p_main_v155 : after chain VK (Proc.devRef .tc KernelIdeal.main_v155) = after ops VR (Proc.devRef .tc ReferenceIdeal.main_v164) := by
  rw [Ssa.ssa_unary hChain VK 280 rfl, Ssa.ssa_unary hW VR 327 rfl, p_main_v153 H] <;> rfl
theorem p_main_v156 : after chain VK (Proc.devRef .tc KernelIdeal.main_v156) = after ops VR (Proc.devRef .tc ReferenceIdeal.main_v165) := by
  rw [Ssa.ssa_unary hChain VK 281 rfl, Ssa.ssa_unary hW VR 328 rfl, p_main_v155 H] <;> rfl
theorem p_main_v157 : after chain VK (Proc.devRef .tc KernelIdeal.main_v157) = after ops VR (Proc.devRef .tc ReferenceIdeal.main_v166) := by
  rw [Ssa.ssa_binary hChain VK 282 rfl, Ssa.ssa_binary hW VR 329 rfl, p_main_v150 H, p_main_v156 H] <;> rfl
theorem p_main_v158 : after chain VK (Proc.devRef .tc KernelIdeal.main_v158) = after ops VR (Proc.devRef .tc ReferenceIdeal.main_v167) := by
  rw [Ssa.ssa_unary hChain VK 284 rfl, Ssa.ssa_unary hW VR 331 rfl, Ssa.ssa_nullary hChain VK 283 rfl, Ssa.ssa_nullary hW VR 330 rfl] <;> rfl
theorem p_main_v159 : after chain VK (Proc.devRef .tc KernelIdeal.main_v159) = after ops VR (Proc.devRef .tc ReferenceIdeal.main_v168) := by
  rw [Ssa.ssa_binary hChain VK 285 rfl, Ssa.ssa_binary hW VR 332 rfl, p_main_v154 H, p_main_v158 H] <;> rfl
theorem p_main_v160 : after chain VK (Proc.devRef .tc KernelIdeal.main_v160) = after ops VR (Proc.devRef .tc ReferenceIdeal.main_v169) := by
  rw [Ssa.ssa_unary hChain VK 286 rfl, Ssa.ssa_unary hW VR 333 rfl, p_main_v159 H] <;> rfl
theorem p_main_v161 : after chain VK (Proc.devRef .tc KernelIdeal.main_v161) = after ops VR (Proc.devRef .tc ReferenceIdeal.main_v170) := by
  rw [Ssa.ssa_unary hChain VK 287 rfl, Ssa.ssa_unary hW VR 334 rfl, p_main_v160 H] <;> rfl
theorem p_main_v162 : after chain VK (Proc.devRef .tc KernelIdeal.main_v162) = after ops VR (Proc.devRef .tc ReferenceIdeal.main_v171) := by
  rw [Ssa.ssa_unary hChain VK 288 rfl, Ssa.ssa_unary hW VR 335 rfl, p_main_v161 H] <;> rfl
theorem p_main_v163 : after chain VK (Proc.devRef .tc KernelIdeal.main_v163) = after ops VR (Proc.devRef .tc ReferenceIdeal.main_v172) := by
  rw [Ssa.ssa_binary hChain VK 289 rfl, Ssa.ssa_binary hW VR 336 rfl, p_main_v157 H, p_main_v162 H] <;> rfl
theorem p_main_v164 : after chain VK (Proc.devRef .tc KernelIdeal.main_v164) = after ops VR (Proc.devRef .tc ReferenceIdeal.main_v173) := by
  rw [Ssa.ssa_binary hChain VK 290 rfl, Ssa.ssa_binary hW VR 337 rfl, p_main_v163 H, H.arg12] <;> rfl
theorem p_main_v165 : after chain VK (Proc.devRef .tc KernelIdeal.main_v165) = after ops VR (Proc.devRef .tc ReferenceIdeal.main_v174) := by
  rw [Ssa.ssa_unary hChain VK 292 rfl, Ssa.ssa_unary hW VR 339 rfl, Ssa.ssa_nullary hChain VK 291 rfl, Ssa.ssa_nullary hW VR 338 rfl] <;> rfl
theorem p_main_v166 : after chain VK (Proc.devRef .tc KernelIdeal.main_v166) = after ops VR (Proc.devRef .tc ReferenceIdeal.main_v175) := by
  rw [Ssa.ssa_unary hChain VK 294 rfl, Ssa.ssa_unary hW VR 341 rfl, Ssa.ssa_nullary hChain VK 293 rfl, Ssa.ssa_nullary hW VR 340 rfl] <;> rfl
theorem p_main_v167 : after chain VK (Proc.devRef .tc KernelIdeal.main_v167) = after ops VR (Proc.devRef .tc ReferenceIdeal.main_v176) := by
  rw [Ssa.ssa_binary hChain VK 295 rfl, Ssa.ssa_binary hW VR 342 rfl, p_main_v74 H, p_main_v166 H] <;> rfl
theorem p_main_v168 : after chain VK (Proc.devRef .tc KernelIdeal.main_v168) = after ops VR (Proc.devRef .tc ReferenceIdeal.main_v177) := by
  rw [Ssa.ssa_unary hChain VK 297 rfl, Ssa.ssa_unary hW VR 344 rfl, Ssa.ssa_nullary hChain VK 296 rfl, Ssa.ssa_nullary hW VR 343 rfl] <;> rfl
theorem p_main_v169 : after chain VK (Proc.devRef .tc KernelIdeal.main_v169) = after ops VR (Proc.devRef .tc ReferenceIdeal.main_v178) := by
  rw [Ssa.ssa_binary hChain VK 298 rfl, Ssa.ssa_binary hW VR 345 rfl, p_main_v74 H, p_main_v168 H] <;> rfl
theorem p_main_v170 : after chain VK (Proc.devRef .tc KernelIdeal.main_v170) = after ops VR (Proc.devRef .tc ReferenceIdeal.main_v179) := by
  rw [Ssa.ssa_ternary hChain VK 299 rfl, Ssa.ssa_ternary hW VR 346 rfl, p_main_v167 H, p_main_v169 H, p_main_v74 H] <;> rfl
theorem p_main_v171 : after chain VK (Proc.devRef .tc KernelIdeal.main_v171) = after ops VR (Proc.devRef .tc ReferenceIdeal.main_v180) := by
  rw [Ssa.ssa_unary hChain VK 300 rfl, Ssa.ssa_unary hW VR 347 rfl, p_main_v170 H] <;> rfl
theorem p_main_v172 : after chain VK (Proc.devRef .tc KernelIdeal.main_v172) = after ops VR (Proc.devRef .tc ReferenceIdeal.main_v181) := by
  rw [Ssa.ssa_unary hChain VK 302 rfl, Ssa.ssa_unary hW VR 349 rfl, Ssa.ssa_nullary hChain VK 301 rfl, Ssa.ssa_nullary hW VR 348 rfl] <;> rfl
theorem p_main_v173 : after chain VK (Proc.devRef .tc KernelIdeal.main_v173) = after ops VR (Proc.devRef .tc ReferenceIdeal.main_v182) := by
  rw [Ssa.ssa_ternary hChain VK 303 rfl, Ssa.ssa_ternary hW VR 350 rfl, p_main_v165 H, p_main_v171 H, p_main_v172 H] <;> rfl
theorem p_main_v174 : after chain VK (Proc.devRef .tc KernelIdeal.main_v174) = after ops VR (Proc.devRef .tc ReferenceIdeal.main_v183) := by
  rw [Ssa.ssa_unary hChain VK 305 rfl, Ssa.ssa_unary hW VR 352 rfl, Ssa.ssa_nullary hChain VK 304 rfl, Ssa.ssa_nullary hW VR 351 rfl] <;> rfl
theorem p_main_v175 : after chain VK (Proc.devRef .tc KernelIdeal.main_v175) = after ops VR (Proc.devRef .tc ReferenceIdeal.main_v184) := by
  rw [Ssa.ssa_binary hChain VK 306 rfl, Ssa.ssa_binary hW VR 353 rfl, p_main_v173 H, p_main_v174 H] <;> rfl
theorem p_main_v176 : after chain VK (Proc.devRef .tc KernelIdeal.main_v176) = after ops VR (Proc.devRef .tc ReferenceIdeal.main_v185) := by
  rw [Ssa.ssa_unary hChain VK 307 rfl, Ssa.ssa_unary hW VR 354 rfl, p_main_v175 H] <;> rfl
theorem p_main_v177 : after chain VK (Proc.devRef .tc KernelIdeal.main_v177) = after ops VR (Proc.devRef .tc ReferenceIdeal.main_v186) := by
  rw [Ssa.ssa_unary hChain VK 309 rfl, Ssa.ssa_unary hW VR 356 rfl, Ssa.ssa_nullary hChain VK 308 rfl, Ssa.ssa_nullary hW VR 355 rfl] <;> rfl
theorem p_main_v178 : after chain VK (Proc.devRef .tc KernelIdeal.main_v178) = after ops VR (Proc.devRef .tc ReferenceIdeal.main_v187) := by
  rw [Ssa.ssa_binary hChain VK 310 rfl, Ssa.ssa_binary hW VR 357 rfl, p_main_v72 H, p_main_v177 H] <;> rfl
theorem p_main_v179 : after chain VK (Proc.devRef .tc KernelIdeal.main_v179) = after ops VR (Proc.devRef .tc ReferenceIdeal.main_v188) := by
  rw [Ssa.ssa_unary hChain VK 312 rfl, Ssa.ssa_unary hW VR 359 rfl, Ssa.ssa_nullary hChain VK 311 rfl, Ssa.ssa_nullary hW VR 358 rfl] <;> rfl
theorem p_main_v180 : after chain VK (Proc.devRef .tc KernelIdeal.main_v180) = after ops VR (Proc.devRef .tc ReferenceIdeal.main_v189) := by
  rw [Ssa.ssa_binary hChain VK 313 rfl, Ssa.ssa_binary hW VR 360 rfl, p_main_v72 H, p_main_v179 H] <;> rfl
theorem p_main_v181 : after chain VK (Proc.devRef .tc KernelIdeal.main_v181) = after ops VR (Proc.devRef .tc ReferenceIdeal.main_v190) := by
  rw [Ssa.ssa_ternary hChain VK 314 rfl, Ssa.ssa_ternary hW VR 361 rfl, p_main_v178 H, p_main_v180 H, p_main_v72 H] <;> rfl
theorem p_main_v182 : after chain VK (Proc.devRef .tc KernelIdeal.main_v182) = after ops VR (Proc.devRef .tc ReferenceIdeal.main_v191) := by
  rw [Ssa.ssa_unary hChain VK 315 rfl, Ssa.ssa_unary hW VR 362 rfl, p_main_v181 H] <;> rfl
theorem p_main_v183 : after chain VK (Proc.devRef .tc KernelIdeal.main_v183) = after ops VR (Proc.devRef .tc ReferenceIdeal.main_v192) := by
  rw [Ssa.ssa_binary hChain VK 316 rfl, Ssa.ssa_binary hW VR 363 rfl, p_main_v176 H, p_main_v182 H] <;> rfl
theorem p_main_v184 : after chain VK (Proc.devRef .tc KernelIdeal.main_v184) = after ops VR (Proc.devRef .tc ReferenceIdeal.main_v193) := by
  rw [Ssa.ssa_unary hChain VK 318 rfl, Ssa.ssa_unary hW VR 365 rfl, Ssa.ssa_nullary hChain VK 317 rfl, Ssa.ssa_nullary hW VR 364 rfl] <;> rfl
theorem p_main_v185 : after chain VK (Proc.devRef .tc KernelIdeal.main_v185) = after ops VR (Proc.devRef .tc ReferenceIdeal.main_v194) := by
  rw [Ssa.ssa_binary hChain VK 319 rfl, Ssa.ssa_binary hW VR 366 rfl, p_main_v74 H, p_main_v184 H] <;> rfl
theorem p_main_v186 : after chain VK (Proc.devRef .tc KernelIdeal.main_v186) = after ops VR (Proc.devRef .tc ReferenceIdeal.main_v195) := by
  rw [Ssa.ssa_unary hChain VK 321 rfl, Ssa.ssa_unary hW VR 368 rfl, Ssa.ssa_nullary hChain VK 320 rfl, Ssa.ssa_nullary hW VR 367 rfl] <;> rfl
theorem p_main_v187 : after chain VK (Proc.devRef .tc KernelIdeal.main_v187) = after ops VR (Proc.devRef .tc ReferenceIdeal.main_v196) := by
  rw [Ssa.ssa_binary hChain VK 322 rfl, Ssa.ssa_binary hW VR 369 rfl, p_main_v74 H, p_main_v186 H] <;> rfl
theorem p_main_v188 : after chain VK (Proc.devRef .tc KernelIdeal.main_v188) = after ops VR (Proc.devRef .tc ReferenceIdeal.main_v197) := by
  rw [Ssa.ssa_ternary hChain VK 323 rfl, Ssa.ssa_ternary hW VR 370 rfl, p_main_v185 H, p_main_v187 H, p_main_v74 H] <;> rfl
theorem p_main_v189 : after chain VK (Proc.devRef .tc KernelIdeal.main_v189) = after ops VR (Proc.devRef .tc ReferenceIdeal.main_v198) := by
  rw [Ssa.ssa_unary hChain VK 324 rfl, Ssa.ssa_unary hW VR 371 rfl, p_main_v188 H] <;> rfl
theorem p_main_v190 : after chain VK (Proc.devRef .tc KernelIdeal.main_v190) = after ops VR (Proc.devRef .tc ReferenceIdeal.main_v199) := by
  rw [Ssa.ssa_binary hChain VK 325 rfl, Ssa.ssa_binary hW VR 372 rfl, p_main_v176 H, p_main_v189 H] <;> rfl
theorem p_main_v191 : after chain VK (Proc.devRef .tc KernelIdeal.main_v191) = after ops VR (Proc.devRef .tc ReferenceIdeal.main_v200) := by
  rw [Ssa.ssa_binary hChain VK 326 rfl, Ssa.ssa_binary hW VR 373 rfl, p_main_v183 H, p_main_v190 H] <;> rfl
theorem p_main_v192 : after chain VK (Proc.devRef .tc KernelIdeal.main_v192) = after ops VR (Proc.devRef .tc ReferenceIdeal.main_v201) := by
  rw [Ssa.ssa_unary hChain VK 328 rfl, Ssa.ssa_unary hW VR 375 rfl, Ssa.ssa_nullary hChain VK 327 rfl, Ssa.ssa_nullary hW VR 374 rfl] <;> rfl
theorem p_main_v193 : after chain VK (Proc.devRef .tc KernelIdeal.main_v193) = after ops VR (Proc.devRef .tc ReferenceIdeal.main_v202) := by
  rw [Ssa.ssa_binary hChain VK 329 rfl, Ssa.ssa_binary hW VR 376 rfl, p_main_v72 H, p_main_v192 H] <;> rfl
theorem p_main_v194 : after chain VK (Proc.devRef .tc KernelIdeal.main_v194) = after ops VR (Proc.devRef .tc ReferenceIdeal.main_v203) := by
  rw [Ssa.ssa_unary hChain VK 331 rfl, Ssa.ssa_unary hW VR 378 rfl, Ssa.ssa_nullary hChain VK 330 rfl, Ssa.ssa_nullary hW VR 377 rfl] <;> rfl
theorem p_main_v195 : after chain VK (Proc.devRef .tc KernelIdeal.main_v195) = after ops VR (Proc.devRef .tc ReferenceIdeal.main_v204) := by
  rw [Ssa.ssa_binary hChain VK 332 rfl, Ssa.ssa_binary hW VR 379 rfl, p_main_v72 H, p_main_v194 H] <;> rfl
theorem p_main_v196 : after chain VK (Proc.devRef .tc KernelIdeal.main_v196) = after ops VR (Proc.devRef .tc ReferenceIdeal.main_v205) := by
  rw [Ssa.ssa_ternary hChain VK 333 rfl, Ssa.ssa_ternary hW VR 380 rfl, p_main_v193 H, p_main_v195 H, p_main_v72 H] <;> rfl
theorem p_main_v197 : after chain VK (Proc.devRef .tc KernelIdeal.main_v197) = after ops VR (Proc.devRef .tc ReferenceIdeal.main_v206) := by
  rw [Ssa.ssa_unary hChain VK 334 rfl, Ssa.ssa_unary hW VR 381 rfl, p_main_v196 H] <;> rfl
theorem p_main_v198 : after chain VK (Proc.devRef .tc KernelIdeal.main_v198) = after ops VR (Proc.devRef .tc ReferenceIdeal.main_v207) := by
  rw [Ssa.ssa_binary hChain VK 335 rfl, Ssa.ssa_binary hW VR 382 rfl, p_main_v164 H, p_main_v197 H] <;> rfl
theorem p_main_v199 : after chain VK (Proc.devRef .tc KernelIdeal.main_v199) = after ops VR (Proc.devRef .tc ReferenceIdeal.main_v208) := by
  rw [Ssa.ssa_unary hChain VK 336 rfl, Ssa.ssa_unary hW VR 383 rfl, p_main_v191 H] <;> rfl
theorem p_main_v200 : after chain VK (Proc.devRef .tc KernelIdeal.main_v200) = after ops VR (Proc.devRef .tc ReferenceIdeal.main_v209) := by
  rw [Ssa.ssa_unary hChain VK 337 rfl, Ssa.ssa_unary hW VR 384 rfl, p_main_v199 H] <;> rfl
theorem p_main_v201 : after chain VK (Proc.devRef .tc KernelIdeal.main_v201) = after ops VR (Proc.devRef .tc ReferenceIdeal.main_v210) := by
  rw [Ssa.ssa_binary hChain VK 338 rfl, Ssa.ssa_binary hW VR 385 rfl, p_main_v198 H, p_main_v200 H] <;> rfl
theorem p_main_v202 : after chain VK (Proc.devRef .tc KernelIdeal.main_v202) = after ops VR (Proc.devRef .tc ReferenceIdeal.main_v211) := by
  rw [Ssa.ssa_unary hChain VK 340 rfl, Ssa.ssa_unary hW VR 387 rfl, Ssa.ssa_nullary hChain VK 339 rfl, Ssa.ssa_nullary hW VR 386 rfl] <;> rfl
theorem p_main_v203 : after chain VK (Proc.devRef .tc KernelIdeal.main_v203) = after ops VR (Proc.devRef .tc ReferenceIdeal.main_v212) := by
  rw [Ssa.ssa_unary hChain VK 341 rfl, Ssa.ssa_unary hW VR 388 rfl, p_main_v74 H] <;> rfl
theorem p_main_v204 : after chain VK (Proc.devRef .tc KernelIdeal.main_v204) = after ops VR (Proc.devRef .tc ReferenceIdeal.main_v213) := by
  rw [Ssa.ssa_ternary hChain VK 342 rfl, Ssa.ssa_ternary hW VR 389 rfl, p_main_v202 H, p_main_v203 H, p_main_v201 H] <;> rfl
theorem p_main_v205 : after chain VK (Proc.devRef .tc KernelIdeal.main_v205) = after ops VR (Proc.devRef .tc ReferenceIdeal.main_v214) := by
  rw [Ssa.ssa_unary hChain VK 343 rfl, Ssa.ssa_unary hW VR 390 rfl, p_main_v175 H] <;> rfl
theorem p_main_v206 : after chain VK (Proc.devRef .tc KernelIdeal.main_v206) = after ops VR (Proc.devRef .tc ReferenceIdeal.main_v215) := by
  rw [Ssa.ssa_unary hChain VK 344 rfl, Ssa.ssa_unary hW VR 391 rfl, p_main_v205 H] <;> rfl
theorem p_main_v207 : after chain VK (Proc.devRef .tc KernelIdeal.main_v207) = after ops VR (Proc.devRef .tc ReferenceIdeal.main_v216) := by
  rw [Ssa.ssa_binary hChain VK 345 rfl, Ssa.ssa_binary hW VR 392 rfl, p_main_v164 H, p_main_v206 H] <;> rfl
theorem p_main_v208 : after chain VK (Proc.devRef .tc KernelIdeal.main_v208) = after ops VR (Proc.devRef .tc ReferenceIdeal.main_v217) := by
  rw [Ssa.ssa_binary hChain VK 346 rfl, Ssa.ssa_binary hW VR 393 rfl, p_main_v204 H, p_main_v207 H] <;> rfl
theorem p_main_v209 : after chain VK (Proc.devRef .tc KernelIdeal.main_v209) = after ops VR (Proc.devRef .tc ReferenceIdeal.main_v218) := by
  rw [Ssa.ssa_unary hChain VK 347 rfl, Ssa.ssa_unary hW VR 394 rfl, H.arg13] <;> rfl
theorem p_main_v210 : after chain VK (Proc.devRef .tc KernelIdeal.main_v210) = after ops VR (Proc.devRef .tc ReferenceIdeal.main_v219) := by
  rw [Ssa.ssa_unary hChain VK 348 rfl, Ssa.ssa_unary hW VR 395 rfl, p_main_v209 H] <;> rfl
theorem p_main_v211 : after chain VK (Proc.devRef .tc KernelIdeal.main_v211) = after ops VR (Proc.devRef .tc ReferenceIdeal.main_v220) := by
  rw [Ssa.ssa_binary hChain VK 349 rfl, Ssa.ssa_binary hW VR 396 rfl, p_main_v208 H, p_main_v210 H] <;> rfl
theorem p_main_v212 : after chain VK (Proc.devRef .tc KernelIdeal.main_v212) = after ops VR (Proc.devRef .tc ReferenceIdeal.main_v221) := by
  rw [Ssa.ssa_unary hChain VK 351 rfl, Ssa.ssa_unary hW VR 398 rfl, Ssa.ssa_nullary hChain VK 350 rfl, Ssa.ssa_nullary hW VR 397 rfl] <;> rfl
theorem p_main_v213 : after chain VK (Proc.devRef .tc KernelIdeal.main_v213) = after ops VR (Proc.devRef .tc ReferenceIdeal.main_v222) := by
  rw [Ssa.ssa_binary hChain VK 352 rfl, Ssa.ssa_binary hW VR 399 rfl, p_main_v211 H, p_main_v212 H] <;> rfl
theorem p_main_v214 : after chain VK (Proc.devRef .tc KernelIdeal.main_v214) = after ops VR (Proc.devRef .tc ReferenceIdeal.main_v223) := by
  rw [Ssa.ssa_unary hChain VK 354 rfl, Ssa.ssa_unary hW VR 401 rfl, Ssa.ssa_nullary hChain VK 353 rfl, Ssa.ssa_nullary hW VR 400 rfl] <;> rfl
theorem p_main_v215 : after chain VK (Proc.devRef .tc KernelIdeal.main_v215) = after ops VR (Proc.devRef .tc ReferenceIdeal.main_v224) := by
  rw [Ssa.ssa_binary hChain VK 355 rfl, Ssa.ssa_binary hW VR 402 rfl, p_main_v214 H, p_main_v211 H] <;> rfl
theorem p_main_v216 : after chain VK (Proc.devRef .tc KernelIdeal.main_v216) = after ops VR (Proc.devRef .tc ReferenceIdeal.main_v225) := by
  rw [Ssa.ssa_ternary hChain VK 356 rfl, Ssa.ssa_ternary hW VR 403 rfl, p_main_v213 H, p_main_v211 H, p_main_v215 H] <;> rfl

end Cert.Pairs

end
-- ==== Proof.VarLaw.lean ====
import proofs.«179512_j35983236006070_1_alg».proof.Proof.Gen.KernelIdeal
import proofs.«179512_j35983236006070_1_alg».proof.Proof.Gen.ReferenceIdeal
import Idealize.ShloMosaic.Lib.ValueIdx
import Idealize.ShloMosaic.Lib.IdealHost
import Idealize.ShloMosaic.Lib.KernelVsHost
import Idealize.ShloMosaic.Lib.Pipeline.Value
import Idealize.ShloMosaic.Lib.ValueLayout
import Idealize.ShloMosaic.PureOps.Ideal.Laws

noncomputable section

open Idealize.ShloMosaic Idealize.ShloMosaic.ValueIdx
open scoped BigOperators

namespace Cert.VarLaw

section Algebra
variable {ι : Type} [Fintype ι]

theorem coe_sum (f : ι → ℝ) : ((∑ i, f i : ℝ) : EReal) = ∑ i, (f i : EReal) := by
  classical
  refine Finset.induction_on (Finset.univ : Finset ι) (by simp) ?_
  intro b s hb ih
  rw [Finset.sum_insert hb, Finset.sum_insert hb, EReal.coe_add, ih]

theorem sum_sq_dev (a : ι → ℝ) (N : ℝ) (hN : (Fintype.card ι : ℝ) = N) (μ : ℝ) :
    ∑ i, (a i - μ) * (a i - μ) = ∑ i, a i * a i - 2 * μ * ∑ i, a i + N * (μ * μ) := by
  have e : ∀ i, (a i - μ) * (a i - μ) = a i * a i - 2 * μ * a i + μ * μ := fun i => by ring
  simp only [e, Finset.sum_add_distrib, Finset.sum_sub_distrib, ← Finset.mul_sum, Finset.sum_const,
    Finset.card_univ, nsmul_eq_mul, hN]
  ring

/-- For reals the mean of the squared deviations from the mean is the mean of the squares minus the squared mean. -/
theorem var_identity (a : ι → ℝ) (N : ℝ) (hN : (Fintype.card ι : ℝ) = N) (h0 : N ≠ 0) :
    (∑ i, (a i - (∑ k, a k) * (1 / N)) * (a i - (∑ k, a k) * (1 / N))) * (1 / N)
      = (∑ i, a i * a i) * (1 / N) - (∑ k, a k) * (1 / N) * ((∑ k, a k) * (1 / N)) := by
  rw [sum_sq_dev a N hN]
  field_simp
  ring

def meanE (N : EReal) (c : ι → EReal) : EReal := Ideal.div (∑ i, c i) N

def kvarE (N : EReal) (c : ι → EReal) : EReal := Ideal.div (∑ i, c i * c i) N - meanE N c * meanE N c

def rvarE (N : EReal) (c : ι → EReal) : EReal :=
  Ideal.div (∑ i, (c i - meanE N c) * (c i - meanE N c)) N

theorem meanE_coe (a : ι → ℝ) (N : ℝ) (h0 : N ≠ 0) :
    meanE (N : EReal) (fun i => (a i : EReal)) = (((∑ k, a k) * (1 / N) : ℝ) : EReal) := by
  unfold meanE
  rw [Ideal.div_coe h0, ← coe_sum, ← EReal.coe_mul]

theorem kvarE_coe (a : ι → ℝ) (N : ℝ) (h0 : N ≠ 0) :
    kvarE (N : EReal) (fun i => (a i : EReal))
      = (((∑ i, a i * a i) * (1 / N) - (∑ k, a k) * (1 / N) * ((∑ k, a k) * (1 / N)) : ℝ) : EReal) := by
  unfold kvarE
  rw [meanE_coe a N h0, Ideal.div_coe h0]
  simp only [← EReal.coe_mul, ← coe_sum, ← EReal.coe_sub]

theorem rvarE_coe (a : ι → ℝ) (N : ℝ) (h0 : N ≠ 0) :
    rvarE (N : EReal) (fun i => (a i : EReal))
      = (((∑ i, (a i - (∑ k, a k) * (1 / N)) * (a i - (∑ k, a k) * (1 / N))) * (1 / N) : ℝ) : EReal) := by
  unfold rvarE
  rw [meanE_coe a N h0, Ideal.div_coe h0]
  simp only [← EReal.coe_mul, ← coe_sum, ← EReal.coe_sub]

theorem rvarE_eq_kvarE (a : ι → ℝ) (N : ℝ) (hN : (Fintype.card ι : ℝ) = N) (h0 : N ≠ 0) :
    rvarE (N : EReal) (fun i => (a i : EReal)) = kvarE (N : EReal) (fun i => (a i : EReal)) := by
  rw [rvarE_coe a N h0, kvarE_coe a N h0, var_identity a N hN h0]

theorem kvarE_nonneg (a : ι → ℝ) (N : ℝ) (hN : (Fintype.card ι : ℝ) = N) (h0 : N ≠ 0) :
    ∃ v : ℝ, 0 ≤ v ∧ kvarE (N : EReal) (fun i => (a i : EReal)) = (v : EReal) := by
  refine ⟨_, ?_, kvarE_coe a N h0⟩
  rw [← var_identity a N hN h0]
  have hpos : 0 < N := by
    rcases lt_or_gt_of_ne h0 with h | h
    · exact absurd (hN ▸ (Nat.cast_nonneg (Fintype.card ι) : (0 : ℝ) ≤ _)) (not_le.mpr h)
    · exact h
  exact mul_nonneg (Finset.sum_nonneg fun i _ => mul_self_nonneg _) (by positivity)

end Algebra

section Constants

theorem ofBits_n : Ideal.ofBits .f32 0x47800000#32 = ((65536 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

end Constants

section Reads
variable {α : Type}

theorem read_rows (h : (⟨2, ![1, 128]⟩ : Shape).BroadcastsInDim ⟨2, ![65536, 128]⟩ ![0, 1])
    (y : (⟨2, ![1, 128]⟩ : Shape).Idx → α) (p : Fin 65536) (q : Fin 128) :
    broadcastInDim ⟨2, ![65536, 128]⟩ ![0, 1] h y (ix2 p q) = y (ix2 (0 : Fin 1) q) :=
  broadcastInDim_oneRow_apply h y p q

theorem read_row (h : (⟨1, ![128]⟩ : Shape).BroadcastsInDim ⟨2, ![1, 128]⟩ ![1])
    (v : (⟨1, ![128]⟩ : Shape).Idx → α) (q : Fin 128) :
    broadcastInDim ⟨2, ![1, 128]⟩ ![1] h v (ix2 (0 : Fin 1) q) = v (ix1 q) := by
  refine broadcastInDim_apply ![1] h v (ix2 (0 : Fin 1) q) (ix1 q) ?_
  intro a
  match a with
  | ⟨0, _⟩ =>
    show q.val = if (128 : ℕ) = 1 then 0 else q.val
    rw [if_neg (by decide)]

theorem read_colsum (X : FVec Ideal ⟨2, ![65536, 128]⟩ .f32) (init : FVec Ideal ⟨0, ![]⟩ .f32)
    (h' : (⟨2, ![65536, 128]⟩ : Shape).ReducesTo [0] ⟨1, ![128]⟩) (hu : 0 < (⟨0, ![]⟩ : Shape).numel) (q : Fin 128) :
    Host.reduceAdd (F := Ideal) X init h' hu (ix1 q) = init ix0 + ∑ k : Fin 65536, X (ix2 k q) := by
  have h : (⟨2, ![65536, 128]⟩ : Shape).Reduces [0] ⟨1, ![128]⟩ := by decide
  refine (hostReduceAdd_apply X init h' hu (ix1 q)).trans ?_
  refine (Ideal.hostReduceAdd_single h' h X _ (ix1 q)).trans ?_
  show init (Shape.Idx.first hu) + ∑ k : Fin 65536, X (h.lift (ix1 q) k) = _
  rw [show Shape.Idx.first hu = ix0 from eq_ix0 _]
  refine congrArg (init ix0 + ·) (Finset.sum_congr rfl fun k _ => congrArg X ?_)
  funext a
  match a with
  | ⟨0, _⟩ => exact Fin.ext rfl
  | ⟨1, _⟩ => exact Fin.ext rfl

theorem hostRsqrt_apply {s : Shape} {φ : FTy} (x : FVec Ideal s φ) (i : s.Idx) :
    Host.rsqrt (F := Ideal) x i = Ideal.rsqrt (x i) := rfl

theorem sitofp_zero32 : (FloatOps.sitofp (F := Ideal) .f32 (0#32 : BitVec 32) : Ideal .f32) = 0 := by
  show ((((0#32 : BitVec 32).toInt : ℤ) : ℝ) : EReal) = 0
  simp

theorem cmp_n' : Ideal.cmp .ogt ((65536 : ℝ) : EReal) 0 = 1#1 := by
  show BitVec.ofBool (decide ((0 : EReal) < ((65536 : ℝ) : EReal))) = 1#1
  rw [decide_eq_true (EReal.coe_pos.mpr (by norm_num))]
  rfl

end Reads

section Kernel
open Cert.KernelIdeal Cert.KernelIdeal.Gen

def kmean (s : Vec Ideal S1x128 .f32) : Vec Ideal S1x128 .f32 :=
  Host.divf (F := Ideal) s (broadcastInDim S1x128 ![] bcast_S_S1x128 (constant (F := Ideal) S_ .f32 0x47800000#32))

def kinv (s ss : Vec Ideal S1x128 .f32) : Vec Ideal S1x128 .f32 :=
  Host.rsqrt (F := Ideal)
    (addf (F := Ideal)
      (subf (F := Ideal)
        (Host.divf (F := Ideal) ss (broadcastInDim S1x128 ![] bcast_S_S1x128 (constant (F := Ideal) S_ .f32 0x47800000#32)))
        (mulf (F := Ideal) (kmean s) (kmean s)))
      (broadcastInDim S1x128 ![] bcast_S_S1x128 (constant (F := Ideal) S_ .f32 0x3727C5AC#32)))

def kerH (XW : Vec Ideal S65536x128 .f32) (s ss : Vec Ideal S1x128 .f32) : Vec Ideal S65536x128 .f32 :=
  fun j => (XW j - kmean s (ix2 0 (j 1))) * kinv s ss (ix2 0 (j 1))

end Kernel

section Reference
open Cert.ReferenceIdeal Cert.ReferenceIdeal.Gen

def rSum (X : FVec Ideal S65536x128 .f32) : FVec Ideal S128 .f32 :=
  Host.reduceAdd (F := Ideal) X (constant (F := Ideal) S_ .f32 0x00000000#32) reducesTo_S65536x128_S128_d0 h_S_

def rMean (XW : FVec Ideal S65536x128 .f32) : FVec Ideal S128 .f32 :=
  Host.divf (F := Ideal) (rSum XW) (broadcastInDim S128 ![] bcast_S_S128 (constant (F := Ideal) S_ .f32 0x47800000#32))

def rMeanRow (XW : FVec Ideal S65536x128 .f32) : FVec Ideal S1x128 .f32 :=
  Host.divf (F := Ideal) (broadcastInDim S1x128 ![1] bcast_S128_S1x128_1 (rSum XW))
    (broadcastInDim S1x128 ![] bcast_S_S1x128 (constant (F := Ideal) S_ .f32 0x47800000#32))

def rDev (XW : FVec Ideal S65536x128 .f32) : FVec Ideal S65536x128 .f32 :=
  subf (F := Ideal) XW (broadcastInDim S65536x128 ![0, 1] bcast_S1x128_S65536x128_0_1 (rMeanRow XW))

def rCount : FVec Ideal S_ .f32 :=
  subf (F := Ideal) (constant (F := Ideal) S_ .f32 0x47800000#32) (sitofp (F := Ideal) .f32 (constantI S_ 32 0#32))

def rVar (XW : FVec Ideal S65536x128 .f32) : FVec Ideal S128 .f32 :=
  select
    (broadcastInDim S128 ![] bcast_S_S128 (cmpf (F := Ideal) .ogt rCount (constant (F := Ideal) S_ .f32 0x00000000#32)))
    (Host.divf (F := Ideal) (rSum (mulf (F := Ideal) (rDev XW) (rDev XW))) (broadcastInDim S128 ![] bcast_S_S128 rCount))
    (broadcastInDim S128 ![] bcast_S_S128 (id (constant (F := Ideal) S_ .f32 0x7FC00000#32)))

def refH (XW : Vec Ideal S65536x128 .f32) : Vec Ideal S65536x128 .f32 :=
  mulf (F := Ideal)
    (subf (F := Ideal) XW
      (broadcastInDim S65536x128 ![0, 1] bcast_S1x128_S65536x128_0_1
        (broadcastInDim S1x128 ![1] bcast_S128_S1x128_1 (rMean XW))))
    (broadcastInDim S65536x128 ![0, 1] bcast_S1x128_S65536x128_0_1
      (broadcastInDim S1x128 ![1] bcast_S128_S1x128_1
        (Host.rsqrt (F := Ideal)
          (addf (F := Ideal) (rVar XW)
            (broadcastInDim S128 ![] bcast_S_S128 (constant (F := Ideal) S_ .f32 0x3727C5AC#32))))))

end Reference

section AtIndex

theorem kmean_apply (s : Vec Ideal Cert.KernelIdeal.S1x128 .f32) (j : Cert.KernelIdeal.S1x128.Idx) :
    kmean s j = Ideal.div (s j) ((65536 : ℝ) : EReal) := by
  unfold kmean
  rw [hostDivf_apply, broadcastInDim_scalar_apply, constant_apply, ofBits_n]

theorem kinv_apply (s ss : Vec Ideal Cert.KernelIdeal.S1x128 .f32) (j : Cert.KernelIdeal.S1x128.Idx) :
    kinv s ss j = Ideal.rsqrt (Ideal.div (ss j) ((65536 : ℝ) : EReal) - kmean s j * kmean s j
      + Ideal.ofBits .f32 0x3727C5AC#32) := by
  unfold kinv
  rw [hostRsqrt_apply, addf_apply, subf_apply, mulf_apply, hostDivf_apply, broadcastInDim_scalar_apply,
    broadcastInDim_scalar_apply, constant_apply, constant_apply, ofBits_n]

theorem kerH_read (XW : Vec Ideal Cert.KernelIdeal.S65536x128 .f32) (p : Fin 65536) (q : Fin 128) :
    kerH XW (fun j => ∑ i : Fin 65536, XW (ix2 i (j 1))) (fun j => ∑ i : Fin 65536, XW (ix2 i (j 1)) * XW (ix2 i (j 1))) (ix2 p q)
      = (XW (ix2 p q) - meanE ((65536 : ℝ) : EReal) (fun i : Fin 65536 => XW (ix2 i q)))
        * Ideal.rsqrt (kvarE ((65536 : ℝ) : EReal) (fun i : Fin 65536 => XW (ix2 i q)) + Ideal.ofBits .f32 0x3727C5AC#32) := by
  unfold kerH
  rw [kmean_apply, kinv_apply, kmean_apply]
  rfl

theorem rSum_apply (X : Vec Ideal Cert.ReferenceIdeal.S65536x128 .f32) (q : Fin 128) :
    rSum X (ix1 q) = ∑ k : Fin 65536, X (ix2 k q) := by
  unfold rSum
  rw [read_colsum, constant_apply, Ideal.ofBits_zero_f32, zero_add]

theorem rMean_apply (XW : Vec Ideal Cert.ReferenceIdeal.S65536x128 .f32) (q : Fin 128) :
    rMean XW (ix1 q) = meanE ((65536 : ℝ) : EReal) (fun i : Fin 65536 => XW (ix2 i q)) := by
  unfold rMean
  rw [hostDivf_apply, rSum_apply, broadcastInDim_scalar_apply, constant_apply, ofBits_n]
  rfl

theorem rMeanRow_apply (XW : Vec Ideal Cert.ReferenceIdeal.S65536x128 .f32) (q : Fin 128) :
    rMeanRow XW (ix2 (0 : Fin 1) q) = meanE ((65536 : ℝ) : EReal) (fun i : Fin 65536 => XW (ix2 i q)) := by
  unfold rMeanRow
  rw [hostDivf_apply, read_row, rSum_apply, broadcastInDim_scalar_apply, constant_apply, ofBits_n]
  rfl

theorem rDev_apply (XW : Vec Ideal Cert.ReferenceIdeal.S65536x128 .f32) (k : Fin 65536) (q : Fin 128) :
    rDev XW (ix2 k q) = XW (ix2 k q) - meanE ((65536 : ℝ) : EReal) (fun i : Fin 65536 => XW (ix2 i q)) := by
  unfold rDev
  rw [subf_apply, read_rows, rMeanRow_apply]

theorem rCount_apply : rCount ix0 = ((65536 : ℝ) : EReal) := by
  unfold rCount
  rw [subf_apply, constant_apply, sitofp_apply, constantI_apply, sitofp_zero32, ofBits_n, sub_zero]

theorem rVar_apply (XW : Vec Ideal Cert.ReferenceIdeal.S65536x128 .f32) (q : Fin 128) :
    rVar XW (ix1 q) = rvarE ((65536 : ℝ) : EReal) (fun i : Fin 65536 => XW (ix2 i q)) := by
  unfold rVar
  rw [select_apply, broadcastInDim_scalar_apply, cmpf_apply, rCount_apply, constant_apply, Ideal.ofBits_zero_f32,
    Ideal.cmpf_def, cmp_n', select_one, hostDivf_apply, rSum_apply, broadcastInDim_scalar_apply, rCount_apply]
  have hsum : (∑ k : Fin 65536, mulf (F := Ideal) (rDev XW) (rDev XW) (ix2 k q))
      = ∑ k : Fin 65536, (XW (ix2 k q) - meanE ((65536 : ℝ) : EReal) (fun i : Fin 65536 => XW (ix2 i q)))
          * (XW (ix2 k q) - meanE ((65536 : ℝ) : EReal) (fun i : Fin 65536 => XW (ix2 i q))) :=
    Finset.sum_congr rfl fun k _ => by rw [mulf_apply, rDev_apply]
  rw [hsum]
  rfl

theorem refH_read (XW : Vec Ideal Cert.ReferenceIdeal.S65536x128 .f32) (p : Fin 65536) (q : Fin 128) :
    refH XW (ix2 p q)
      = (XW (ix2 p q) - meanE ((65536 : ℝ) : EReal) (fun i : Fin 65536 => XW (ix2 i q)))
        * Ideal.rsqrt (rvarE ((65536 : ℝ) : EReal) (fun i : Fin 65536 => XW (ix2 i q)) + Ideal.ofBits .f32 0x3727C5AC#32) := by
  unfold refH
  rw [mulf_apply, subf_apply, read_rows, read_rows, read_row, read_row, rMean_apply, hostRsqrt_apply, addf_apply,
    rVar_apply, broadcastInDim_scalar_apply, constant_apply]

end AtIndex

section Main

theorem rsqrt_pos (x : ℝ) (hx : 0 < x) : Ideal.rsqrt (x : EReal) = (((Real.sqrt x)⁻¹ : ℝ) : EReal) := by
  rw [Ideal.rsqrt_coe, if_neg (not_lt.mpr hx.le), if_neg hx.ne']

/-- On an array of reals the two batch normalisations agree, by the variance identity. -/
theorem refH_eq_kerH (XW : Vec Ideal Cert.ReferenceIdeal.S65536x128 .f32) (hfin : ∀ j, ∃ r : ℝ, XW j = (r : EReal)) :
    refH XW = kerH XW (fun j => ∑ i : Fin 65536, XW (ix2 i (j 1)))
      (fun j => ∑ i : Fin 65536, XW (ix2 i (j 1)) * XW (ix2 i (j 1))) := by
  choose a ha using hfin
  funext j
  obtain ⟨p, q, rfl⟩ : ∃ (p : Fin 65536) (q : Fin 128), j = ix2 p q := ⟨j 0, j 1, eq_ix2 j⟩
  rw [refH_read, kerH_read]
  have hcol : (fun i : Fin 65536 => XW (ix2 i q)) = fun i => ((a (ix2 i q) : ℝ) : EReal) := funext fun i => ha _
  rw [hcol, rvarE_eq_kvarE (fun i : Fin 65536 => a (ix2 i q)) 65536 (by simp) (by norm_num)]

theorem kerH_real (XW : Vec Ideal Cert.ReferenceIdeal.S65536x128 .f32) (hfin : ∀ j, ∃ r : ℝ, XW j = (r : EReal)) :
    ∀ j, ∃ r : ℝ, kerH XW (fun j => ∑ i : Fin 65536, XW (ix2 i (j 1)))
      (fun j => ∑ i : Fin 65536, XW (ix2 i (j 1)) * XW (ix2 i (j 1))) j = (r : EReal) := by
  choose a ha using hfin
  intro j
  obtain ⟨p, q, rfl⟩ : ∃ (p : Fin 65536) (q : Fin 128), j = ix2 p q := ⟨j 0, j 1, eq_ix2 j⟩
  rw [kerH_read]
  have hcol : (fun i : Fin 65536 => XW (ix2 i q)) = fun i => ((a (ix2 i q) : ℝ) : EReal) := funext fun i => ha _
  obtain ⟨v, hv0, hv⟩ := kvarE_nonneg (fun i : Fin 65536 => a (ix2 i q)) 65536 (by simp) (by norm_num)
  obtain ⟨e, he0, he⟩ := ofBits_eps
  rw [hcol, meanE_coe _ 65536 (by norm_num), ha, hv, he, ← EReal.coe_add, rsqrt_pos _ (by positivity),
    ← EReal.coe_sub, ← EReal.coe_mul]
  exact ⟨_, rfl⟩

end Main

section Nested
open Cert.ReferenceIdeal Cert.ReferenceIdeal.Gen

theorem refH_nested (XW : Vec Ideal S65536x128 .f32) :
    refH XW =
      mulf (F := Ideal)
        (subf (F := Ideal) XW
          (broadcastInDim S65536x128 ![0, 1] bcast_S1x128_S65536x128_0_1
            (broadcastInDim S1x128 ![1] bcast_S128_S1x128_1
              (Host.divf (F := Ideal)
                (Host.reduceAdd (F := Ideal) XW (constant (F := Ideal) S_ .f32 0x00000000#32) reducesTo_S65536x128_S128_d0 h_S_)
                (broadcastInDim S128 ![] bcast_S_S128 (constant (F := Ideal) S_ .f32 0x47800000#32))))))
        (broadcastInDim S65536x128 ![0, 1] bcast_S1x128_S65536x128_0_1
          (broadcastInDim S1x128 ![1] bcast_S128_S1x128_1
            (Host.rsqrt (F := Ideal)
              (addf (F := Ideal)
                (select
                  (broadcastInDim S128 ![] bcast_S_S128
                    (cmpf (F := Ideal) .ogt
                      (subf (F := Ideal) (constant (F := Ideal) S_ .f32 0x47800000#32) (sitofp (F := Ideal) .f32 (constantI S_ 32 0#32)))
                      (constant (F := Ideal) S_ .f32 0x00000000#32)))
                  (Host.divf (F := Ideal)
                    (Host.reduceAdd (F := Ideal)
                      (mulf (F := Ideal)
                        (subf (F := Ideal) XW
                          (broadcastInDim S65536x128 ![0, 1] bcast_S1x128_S65536x128_0_1
                            (Host.divf (F := Ideal)
                              (broadcastInDim S1x128 ![1] bcast_S128_S1x128_1
                                (Host.reduceAdd (F := Ideal) XW (constant (F := Ideal) S_ .f32 0x00000000#32) reducesTo_S65536x128_S128_d0 h_S_))
                              (broadcastInDim S1x128 ![] bcast_S_S1x128 (constant (F := Ideal) S_ .f32 0x47800000#32)))))
                        (subf (F := Ideal) XW
                          (broadcastInDim S65536x128 ![0, 1] bcast_S1x128_S65536x128_0_1
                            (Host.divf (F := Ideal)
                              (broadcastInDim S1x128 ![1] bcast_S128_S1x128_1
                                (Host.reduceAdd (F := Ideal) XW (constant (F := Ideal) S_ .f32 0x00000000#32) reducesTo_S65536x128_S128_d0 h_S_))
                              (broadcastInDim S1x128 ![] bcast_S_S1x128 (constant (F := Ideal) S_ .f32 0x47800000#32))))))
                      (constant (F := Ideal) S_ .f32 0x00000000#32) reducesTo_S65536x128_S128_d0 h_S_)
                    (broadcastInDim S128 ![] bcast_S_S128
                      (subf (F := Ideal) (constant (F := Ideal) S_ .f32 0x47800000#32) (sitofp (F := Ideal) .f32 (constantI S_ 32 0#32)))))
                  (broadcastInDim S128 ![] bcast_S_S128 (id (constant (F := Ideal) S_ .f32 0x7FC00000#32))))
                (broadcastInDim S128 ![] bcast_S_S128 (constant (F := Ideal) S_ .f32 0x3727C5AC#32)))))) :=
  rfl

end Nested

end Cert.VarLaw
-- ==== Proof.VarSpec.lean ====
import proofs.«179512_j35983236006070_1_alg».proof.Proof.VarLaw
import proofs.«179512_j35983236006070_1_alg».proof.Proof.RSsaBase
import proofs.«179512_j35983236006070_1_alg».proof.Proof.KSsaBase
import proofs.«179512_j35983236006070_1_alg».proof.Proof.Reg1

noncomputable section

open Idealize.ShloMosaic Idealize.ShloMosaic.TcCoe Idealize.SL.Sem Idealize.ShloMosaic.StableHlo

namespace Cert.VarLaw

section Reference
open Cert.ReferenceIdeal Cert.ReferenceIdeal.RSsa

theorem refH_spec (V : Valuation Cert.ReferenceIdeal.τ Cert.ReferenceIdeal.sig (Elt Ideal)) :
    (StableHlo.after (Cert.ReferenceIdeal.RRun.ops (F := Ideal)) V (Proc.devRef .tc Cert.ReferenceIdeal.main_v16)
        : Vec Ideal Cert.ReferenceIdeal.S65536x128 .f32)
      = refH (StableHlo.after (Cert.ReferenceIdeal.RRun.ops (F := Ideal)) V (Proc.devRef .tc Cert.ReferenceIdeal.main_v3)) := by
  rw [Ssa.ssa_binary hW V 41 rfl, Ssa.ssa_unary hW V 40 rfl, Ssa.ssa_unary hW V 39 rfl, Ssa.ssa_unary hW V 38 rfl,
    Ssa.ssa_binary hW V 37 rfl, Ssa.ssa_unary hW V 36 rfl, Ssa.ssa_nullary hW V 35 rfl, Ssa.ssa_binary hW V 34 rfl,
    Ssa.ssa_unary hW V 33 rfl, Ssa.ssa_unary hW V 32 rfl, Ssa.ssa_ternary hW V 31 rfl, Ssa.ssa_unary hW V 30 rfl,
    Ssa.ssa_unary hW V 29 rfl, Ssa.ssa_nullary hW V 28 rfl, Ssa.ssa_binary hW V 27 rfl, Ssa.ssa_nullary hW V 26 rfl,
    Ssa.ssa_binary hW V 25 rfl, Ssa.ssa_unary hW V 24 rfl, Ssa.ssa_binary hW V 23 rfl, Ssa.ssa_nullary hW V 22 rfl,
    Ssa.ssa_binary hW V 21 rfl, Ssa.ssa_nullary hW V 20 rfl, Ssa.ssa_unary hW V 19 rfl, Ssa.ssa_binary hW V 18 rfl,
    Ssa.ssa_binary hW V 17 rfl, Ssa.ssa_unary hW V 16 rfl, Ssa.ssa_binary hW V 15 rfl, Ssa.ssa_unary hW V 14 rfl,
    Ssa.ssa_nullary hW V 13 rfl, Ssa.ssa_unary hW V 12 rfl, Ssa.ssa_binary hW V 11 rfl, Ssa.ssa_nullary hW V 10 rfl,
    Ssa.ssa_nullary hW V 9 rfl, Ssa.ssa_binary hW V 8 rfl, Ssa.ssa_unary hW V 7 rfl, Ssa.ssa_nullary hW V 6 rfl,
    Ssa.ssa_binary hW V 5 rfl, Ssa.ssa_nullary hW V 4 rfl]
  rfl

end Reference

section Kernel
open Cert.KernelIdeal Cert.KernelIdeal.Gen Cert.KernelIdeal.KSsa

theorem kmean_spec (V : Valuation Cert.KernelIdeal.τ Cert.KernelIdeal.sig (Elt Ideal)) :
    (StableHlo.after (hostOps1 (F := Ideal)) V (Proc.devRef .tc main_v3) : Vec Ideal S1x128 .f32)
      = kmean (StableHlo.after (hostOps1 (F := Ideal)) V (Proc.devRef .tc main_v1_1)) := by
  rw [Ssa.ssa_binary hHost1 V 2 rfl, Ssa.ssa_unary hHost1 V 1 rfl, Ssa.ssa_nullary hHost1 V 0 rfl]
  rfl

theorem kinv_spec (V : Valuation Cert.KernelIdeal.τ Cert.KernelIdeal.sig (Elt Ideal)) :
    (StableHlo.after (hostOps1 (F := Ideal)) V (Proc.devRef .tc main_v10) : Vec Ideal S1x128 .f32)
      = kinv (StableHlo.after (hostOps1 (F := Ideal)) V (Proc.devRef .tc main_v1_1))
          (StableHlo.after (hostOps1 (F := Ideal)) V (Proc.devRef .tc main_v1_2)) := by
  rw [Ssa.ssa_unary hHost1 V 11 rfl, Ssa.ssa_binary hHost1 V 10 rfl, Ssa.ssa_unary hHost1 V 9 rfl,
    Ssa.ssa_nullary hHost1 V 8 rfl, Ssa.ssa_binary hHost1 V 7 rfl, Ssa.ssa_binary hHost1 V 6 rfl,
    Ssa.ssa_binary hHost1 V 5 rfl, Ssa.ssa_unary hHost1 V 4 rfl, Ssa.ssa_nullary hHost1 V 3 rfl,
    Ssa.ssa_binary hHost1 V 2 rfl, Ssa.ssa_unary hHost1 V 1 rfl, Ssa.ssa_nullary hHost1 V 0 rfl]
  rfl

theorem kerH_eq_hF (XW : Vec Ideal S65536x128 .f32) (s ss : Vec Ideal S1x128 .f32) :
    kerH XW s ss = Cert.KernelIdeal.Reg1.hF XW (kmean s) (kinv s ss) := rfl

end Kernel

end Cert.VarLaw
-- ==== Proof.NormLaw.lean ====
import proofs.«179512_j35983236006070_1_alg».proof.Proof.Gen.KernelIdeal
import proofs.«179512_j35983236006070_1_alg».proof.Proof.Gen.ReferenceIdeal
import proofs.«179512_j35983236006070_1_alg».proof.Proof.LibDot
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open Idealize.ShloMosaic Idealize.ShloMosaic.ValueIdx
open scoped BigOperators

namespace Cert.NormLaw

def Tri (x : EReal) : Prop := x = ⊤ ∨ x = ⊥ ∨ x = 0

theorem Tri.add {x y : EReal} (hx : Tri x) (hy : Tri y) : Tri (x + y) := by
  rcases hx with rfl | rfl | rfl
  · rcases hy with rfl | rfl | rfl
    · exact Or.inl EReal.top_add_top
    · exact Or.inr (Or.inl (EReal.add_bot _))
    · exact Or.inl (add_zero _)
  · exact Or.inr (Or.inl (EReal.bot_add _))
  · rw [zero_add]; exact hy

theorem Tri.sum {ι : Type} (s : Finset ι) (f : ι → EReal) (h : ∀ i ∈ s, Tri (f i)) : Tri (∑ i ∈ s, f i) :=
  Finset.sum_induction f Tri (fun _ _ => Tri.add) (Or.inr (Or.inr rfl)) h

theorem tri_inf_mul_coe {x : EReal} (hx : x = ⊤ ∨ x = ⊥) (r : ℝ) : Tri (x * (r : EReal)) := by
  rcases lt_trichotomy r 0 with hr | rfl | hr
  · rcases hx with rfl | rfl
    · exact Or.inr (Or.inl (EReal.top_mul_coe_of_neg hr))
    · exact Or.inl (EReal.bot_mul_coe_of_neg hr)
  · exact Or.inr (Or.inr (by rw [EReal.coe_zero, mul_zero]))
  · rcases hx with rfl | rfl
    · exact Or.inl (EReal.top_mul_coe_of_pos hr)
    · exact Or.inr (Or.inl (EReal.bot_mul_coe_of_pos hr))

theorem div_zero_inf (x : EReal) : Ideal.div x 0 = ⊤ ∨ Ideal.div x 0 = ⊥ := by
  unfold Ideal.div
  rw [if_pos rfl]
  by_cases h : 0 < x
  · exact Or.inl (if_pos h)
  · exact Or.inr (if_neg h)

theorem div_top (x : EReal) : Ideal.div x ⊤ = 0 := by
  unfold Ideal.div
  rw [if_neg EReal.top_ne_zero, EReal.inv_top, mul_zero]

theorem inf_mul_self {x : EReal} (hx : x = ⊤ ∨ x = ⊥) : x * x = ⊤ := by
  rcases hx with rfl | rfl
  · exact EReal.top_mul_top
  · exact EReal.bot_mul_bot

theorem sqrt_zero : Ideal.sqrt 0 = 0 := by
  rw [← EReal.coe_zero, Ideal.sqrt_coe, if_neg (lt_irrefl _), Real.sqrt_zero]

def l2nAt {n : ℕ} (z e : EReal) (row : Fin n → EReal) (d : Fin n) : EReal :=
  Ideal.div (row d) (max (Ideal.sqrt (z + ∑ d' : Fin n, row d' * row d')) e)

/-- A row of infinities and zeros, divided by its norm clamped below by a positive constant, is the zero row. -/
theorem l2nAt_tri {n : ℕ} {e : EReal} (he : 0 < e) (row : Fin n → EReal) (h : ∀ d, Tri (row d)) (d : Fin n) :
    l2nAt 0 e row d = 0 := by
  unfold l2nAt
  by_cases hall : ∀ d', row d' = 0
  · have hs : ∑ d' : Fin n, row d' * row d' = 0 := Finset.sum_eq_zero fun d' _ => by rw [hall d', mul_zero]
    rw [hs, add_zero, hall d, sqrt_zero, max_eq_right he.le]
    unfold Ideal.div
    rw [if_neg he.ne', zero_mul]
  · obtain ⟨d0, hd0⟩ := not_forall.mp hall
    have hinf : row d0 = ⊤ ∨ row d0 = ⊥ := by
      rcases h d0 with h | h | h
      · exact Or.inl h
      · exact Or.inr h
      · exact absurd h hd0
    have hnn : ∀ d' ∈ (Finset.univ : Finset (Fin n)), 0 ≤ row d' * row d' := fun d' _ => by
      rcases h d' with h | h | h
      · rw [h, EReal.top_mul_top]; exact le_top
      · rw [h, EReal.bot_mul_bot]; exact le_top
      · rw [h, mul_zero]
    have hs : ∑ d' : Fin n, row d' * row d' = ⊤ := top_le_iff.mp (by
      calc (⊤ : EReal) = row d0 * row d0 := (inf_mul_self hinf).symm
        _ ≤ ∑ d' : Fin n, row d' * row d' := Finset.single_le_sum hnn (Finset.mem_univ d0))
    rw [hs, zero_add, Ideal.sqrt_top, max_eq_left le_top, div_top]

theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- Dividing by a nonzero column sum before the pooling sum or after it gives the same real. -/
theorem pooled_eq {ι : Type} [Fintype ι] (q h : ι → ℝ) {c : ℝ} (hc : c ≠ 0) :
    ∑ i, Ideal.div (q i : EReal) (c : EReal) * (h i : EReal)
      = Ideal.div (∑ i, (q i : EReal) * (h i : EReal)) (c : EReal) := by
  simp only [Ideal.div_coe hc, ← EReal.coe_mul, ← coe_sum]
  rw [Finset.sum_mul]
  exact congrArg _ (Finset.sum_congr rfl fun i _ => by ring)

theorem eps_pos : (0 : EReal) < Ideal.ofBits .f32 0x2B8CBCCC#32 := by
  have e : Ideal.ofBits .f32 0x2B8CBCCC#32 = ((9223372 * (2 : ℝ) ^ (-63 : Int) : ℝ) : EReal) := by
    simp [Ideal.ofBits, Ideal.ieee, -EReal.coe_mul]
  rw [e]
  exact EReal.coe_pos.mpr (by positivity)

section Read
variable {α : Type}

theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 := by
  unfold broadcastInDim
  exact congrArg x (funext fun a => a.elim0)

theorem bcast_col_apply {a : ℕ} (h : (⟨1, ![a]⟩ : Shape).BroadcastsInDim ⟨2, ![a, 1]⟩ ![0])
    (x : (⟨1, ![a]⟩ : Shape).Idx → α) (j : Fin a) (u : Fin 1) :
    broadcastInDim ⟨2, ![a, 1]⟩ ![0] h x (ix2 j u) = x (ix1 j) := by
  refine broadcastInDim_apply ![0] h x (ix2 j u) (ix1 j) fun ax => ?_
  match ax with
  | ⟨0, _⟩ =>
    show j.val = if a = 1 then 0 else j.val
    split_ifs with ha
    · have := j.isLt; omega
    · rfl

theorem bcast_row_apply {a : ℕ} (h : (⟨1, ![a]⟩ : Shape).BroadcastsInDim ⟨2, ![1, a]⟩ ![1])
    (x : (⟨1, ![a]⟩ : Shape).Idx → α) (u : Fin 1) (j : Fin a) :
    broadcastInDim ⟨2, ![1, a]⟩ ![1] h x (ix2 u j) = x (ix1 j) := by
  refine broadcastInDim_apply ![1] h x (ix2 u j) (ix1 j) fun ax => ?_
  match ax with
  | ⟨0, _⟩ =>
    show j.val = if a = 1 then 0 else j.val
    split_ifs with ha
    · have := j.isLt; omega
    · rfl

theorem bcast_cols_apply {a b : ℕ} (h : (⟨2, ![a, 1]⟩ : Shape).BroadcastsInDim ⟨2, ![a, b]⟩ ![0, 1])
    (x : (⟨2, ![a, 1]⟩ : Shape).Idx → α) (j : Fin a) (d : Fin b) :
    broadcastInDim ⟨2, ![a, b]⟩ ![0, 1] h x (ix2 j d) = x (ix2 j (0 : Fin 1)) := by
  refine broadcastInDim_apply ![0, 1] h x (ix2 j d) (ix2 j (0 : Fin 1)) fun ax => ?_
  match ax with
  | ⟨0, _⟩ =>
    show j.val = if a = 1 then 0 else j.val
    split_ifs with ha
    · have := j.isLt; omega
    · rfl
  | ⟨1, _⟩ =>
    show (0 : ℕ) = if (1 : ℕ) = 1 then 0 else d.val
    rw [if_pos rfl]

theorem cast_row_col_apply {a : ℕ} (h : (⟨2, ![1, a]⟩ : Shape).ShapeCasts ⟨2, ![a, 1]⟩)
    (x : (⟨2, ![1, a]⟩ : Shape).Idx → α) (j : Fin a) (u : Fin 1) :
    shapeCast ⟨2, ![a, 1]⟩ x h (ix2 j u) = x (ix2 (0 : Fin 1) j) :=
  shapeCast_apply x h _ _ (by
    have hu : u.val = 0 := by omega
    rw [Shape.rowMajor_val_two, Shape.rowMajor_val_two]
    show 0 * a + j.val = j.val * 1 + u.val
    rw [hu, Nat.zero_mul, Nat.zero_add, Nat.mul_one, Nat.add_zero])

variable {φ : FTy}

theorem rowSum_apply {a b : ℕ} (h' : (⟨2, ![a, b]⟩ : Shape).ReducesTo [1] ⟨1, ![a]⟩)
    (hu : 0 < (⟨0, ![]⟩ : Shape).numel) (x : FVec Ideal ⟨2, ![a, b]⟩ φ) (init : (⟨0, ![]⟩ : Shape).Idx → Ideal φ) (j : Fin a) :
    Host.reduceAdd (F := Ideal) x init h' hu (ix1 j) = init ix0 + ∑ d : Fin b, x (ix2 j d) := by
  have h : (⟨2, ![a, b]⟩ : Shape).Reduces [1] ⟨1, ![a]⟩ := ⟨h'.1, Nat.one_pos, h'.2⟩
  show Ideal.hostReduceAdd h' x (init (Shape.Idx.first hu)) (ix1 j) = _
  rw [Ideal.hostReduceAdd_single h' h, eq_ix0 (Shape.Idx.first hu)]
  refine congrArg (init ix0 + ·) ?_
  show ∑ d : Fin b, x (h.lift (ix1 j) d) = _
  refine Finset.sum_congr rfl fun d _ => congrArg x (funext fun c => Fin.ext ?_)
  match c with
  | ⟨0, _⟩ => rfl
  | ⟨1, _⟩ => rfl

theorem colSum_apply {a b : ℕ} (h' : (⟨2, ![a, b]⟩ : Shape).ReducesTo [0] ⟨1, ![b]⟩)
    (hu : 0 < (⟨0, ![]⟩ : Shape).numel) (x : FVec Ideal ⟨2, ![a, b]⟩ φ) (init : (⟨0, ![]⟩ : Shape).Idx → Ideal φ) (j : Fin b) :
    Host.reduceAdd (F := Ideal) x init h' hu (ix1 j) = init ix0 + ∑ i : Fin a, x (ix2 i j) := by
  have h : (⟨2, ![a, b]⟩ : Shape).Reduces [0] ⟨1, ![b]⟩ := ⟨h'.1, Nat.one_pos, h'.2⟩
  show Ideal.hostReduceAdd h' x (init (Shape.Idx.first hu)) (ix1 j) = _
  rw [Ideal.hostReduceAdd_single h' h, eq_ix0 (Shape.Idx.first hu)]
  refine congrArg (init ix0 + ·) ?_
  show ∑ i : Fin a, x (h.lift (ix1 j) i) = _
  refine Finset.sum_congr rfl fun i _ => congrArg x (funext fun c => Fin.ext ?_)
  match c with
  | ⟨0, _⟩ => rfl
  | ⟨1, _⟩ => rfl

theorem div_colSum_apply {a b : ℕ} (h1 : (⟨2, ![1, b]⟩ : Shape).BroadcastsInDim ⟨2, ![a, b]⟩ ![0, 1])
    (h2 : (⟨1, ![b]⟩ : Shape).BroadcastsInDim ⟨2, ![1, b]⟩ ![1]) (h3 : (⟨2, ![a, b]⟩ : Shape).ReducesTo [0] ⟨1, ![b]⟩)
    (hu : 0 < (⟨0, ![]⟩ : Shape).numel) (Y X : FVec Ideal ⟨2, ![a, b]⟩ .f32) (init : (⟨0, ![]⟩ : Shape).Idx → Ideal .f32)
    (i : Fin a) (j : Fin b) :
    Host.divf (F := Ideal) Y (broadcastInDim ⟨2, ![a, b]⟩ ![0, 1] h1 (broadcastInDim ⟨2, ![1, b]⟩ ![1] h2
        (Host.reduceAdd (F := Ideal) X init h3 hu))) (ix2 i j)
      = Ideal.div (Y (ix2 i j)) (init ix0 + ∑ i' : Fin a, X (ix2 i' j)) := by
  have e : broadcastInDim ⟨2, ![a, b]⟩ ![0, 1] h1 (broadcastInDim ⟨2, ![1, b]⟩ ![1] h2
      (Host.reduceAdd (F := Ideal) X init h3 hu)) (ix2 i j) = init ix0 + ∑ i' : Fin a, X (ix2 i' j) := by
    rw [broadcastInDim_oneRow_apply, bcast_row_apply, colSum_apply]
  exact congrArg (Ideal.div (Y (ix2 i j))) e

theorem l2n_apply {a b : ℕ} (h1 : (⟨2, ![a, 1]⟩ : Shape).BroadcastsInDim ⟨2, ![a, b]⟩ ![0, 1])
    (h2 : (⟨1, ![a]⟩ : Shape).BroadcastsInDim ⟨2, ![a, 1]⟩ ![0])
    (h3 : (⟨0, ![]⟩ : Shape).BroadcastsInDim ⟨2, ![a, 1]⟩ ![])
    (h4 : (⟨2, ![a, b]⟩ : Shape).ReducesTo [1] ⟨1, ![a]⟩) (hu : 0 < (⟨0, ![]⟩ : Shape).numel)
    (SP : FVec Ideal ⟨2, ![a, b]⟩ .f32) (z e : BitVec 32) (j : Fin a) (d : Fin b) :
    Host.divf (F := Ideal) SP
        (broadcastInDim ⟨2, ![a, b]⟩ ![0, 1] h1
          (maximumf (F := Ideal)
            (Host.sqrt (F := Ideal)
              (broadcastInDim ⟨2, ![a, 1]⟩ ![0] h2
                (Host.reduceAdd (F := Ideal) (mulf (F := Ideal) SP SP) (constant (F := Ideal) ⟨0, ![]⟩ .f32 z) h4 hu)))
            (broadcastInDim ⟨2, ![a, 1]⟩ ![] h3 (constant (F := Ideal) ⟨0, ![]⟩ .f32 e)))) (ix2 j d)
      = l2nAt (Ideal.ofBits .f32 z) (Ideal.ofBits .f32 e) (fun d' => SP (ix2 j d')) d := by
  have e1 : broadcastInDim ⟨2, ![a, 1]⟩ ![0] h2
      (Host.reduceAdd (F := Ideal) (mulf (F := Ideal) SP SP) (constant (F := Ideal) ⟨0, ![]⟩ .f32 z) h4 hu) (ix2 j (0 : Fin 1))
      = Ideal.ofBits .f32 z + ∑ d' : Fin b, SP (ix2 j d') * SP (ix2 j d') := by
    rw [bcast_col_apply, rowSum_apply]; rfl
  have e2 : broadcastInDim ⟨2, ![a, 1]⟩ ![] h3 (constant (F := Ideal) ⟨0, ![]⟩ .f32 e) (ix2 j (0 : Fin 1))
      = Ideal.ofBits .f32 e := by
    rw [bcast_scalar_apply]; rfl
  have e3 : broadcastInDim ⟨2, ![a, b]⟩ ![0, 1] h1
      (maximumf (F := Ideal)
        (Host.sqrt (F := Ideal)
          (broadcastInDim ⟨2, ![a, 1]⟩ ![0] h2
            (Host.reduceAdd (F := Ideal) (mulf (F := Ideal) SP SP) (constant (F := Ideal) ⟨0, ![]⟩ .f32 z) h4 hu)))
        (broadcastInDim ⟨2, ![a, 1]⟩ ![] h3 (constant (F := Ideal) ⟨0, ![]⟩ .f32 e))) (ix2 j d)
      = max (Ideal.sqrt (Ideal.ofBits .f32 z + ∑ d' : Fin b, SP (ix2 j d') * SP (ix2 j d'))) (Ideal.ofBits .f32 e) := by
    rw [bcast_cols_apply]
    exact congrArg₂ (fun x y => max (Ideal.sqrt x) y) e1 e2
  exact congrArg (Ideal.div (SP (ix2 j d))) e3

end Read

section Kernel
open Cert.KernelIdeal Cert.KernelIdeal.Facts₀

def kerSp (QH : Vec Ideal S1024x128 .f32) (CS : Vec Ideal S1x1024 .f32) : Vec Ideal S1024x128 .f32 :=
  Host.divf (F := Ideal) (φ := .f32) QH
    (broadcastInDim S1024x128 ![0, 1] bcast_S1024x1_S1024x128_0_1
      (fun i => shapeCast S1024x1 CS shapeCasts_S1x1024_S1024x1 i))

def kerL2n (SP : Vec Ideal S1024x128 .f32) : Vec Ideal S1024x128 .f32 :=
  Host.divf (F := Ideal) (φ := .f32) SP
    (broadcastInDim S1024x128 ![0, 1] bcast_S1024x1_S1024x128_0_1
      (maximumf (F := Ideal) (φ := .f32)
        (Host.sqrt (F := Ideal) (φ := .f32)
          (broadcastInDim S1024x1 ![0] bcast_S1024_S1024x1_0
            (Host.reduceAdd (F := Ideal) (φ := .f32) (mulf (F := Ideal) (φ := .f32) SP SP)
              (constant (F := Ideal) S_ .f32 0x00000000#32) reducesTo_S1024x128_S1024_d1 h_S_)))
        (broadcastInDim S1024x1 ![] bcast_S_S1024x1 (constant (F := Ideal) S_ .f32 0x2B8CBCCC#32))))

def kerN (QH : Vec Ideal S1024x128 .f32) (CS : Vec Ideal S1x1024 .f32) : Vec Ideal S1024x128 .f32 :=
  kerL2n (kerSp QH CS)

theorem kerSp_apply (QH : Vec Ideal S1024x128 .f32) (CS : Vec Ideal S1x1024 .f32) (j : Fin 1024) (d : Fin 128) :
    kerSp QH CS (ix2 j d) = Ideal.div (QH (ix2 j d)) (CS (ix2 (0 : Fin 1) j)) := by
  show Ideal.div (QH (ix2 j d)) (broadcastInDim S1024x128 ![0, 1] bcast_S1024x1_S1024x128_0_1
    (fun i => shapeCast S1024x1 CS shapeCasts_S1x1024_S1024x1 i) (ix2 j d)) = _
  rw [bcast_cols_apply]
  exact congrArg _ (cast_row_col_apply _ CS j 0)

theorem kerL2n_apply (SP : Vec Ideal S1024x128 .f32) (j : Fin 1024) (d : Fin 128) :
    kerL2n SP (ix2 j d)
      = l2nAt (Ideal.ofBits .f32 0x00000000#32) (Ideal.ofBits .f32 0x2B8CBCCC#32) (fun d' => SP (ix2 j d')) d :=
  l2n_apply bcast_S1024x1_S1024x128_0_1 bcast_S1024_S1024x1_0 bcast_S_S1024x1 reducesTo_S1024x128_S1024_d1 h_S_ SP _ _ j d

end Kernel

section Reference
open Cert.ReferenceIdeal Cert.ReferenceIdeal.Facts₀

def refSp (Q : Vec Ideal S65536x1024 .f32) (H : Vec Ideal S65536x128 .f32) : Vec Ideal S1024x128 .f32 :=
  Host.dotGeneral (F := Ideal) (φ₁ := .f32) (φ₂ := .f32) dot_S1024x65536_S65536x128_S1024x128_1_0_0_1_n_n none
    (transpose S1024x65536 [1, 0]
      (Host.divf (F := Ideal) (φ := .f32) Q
        (broadcastInDim S65536x1024 ![0, 1] bcast_S1x1024_S65536x1024_0_1
          (broadcastInDim S1x1024 ![1] bcast_S1024_S1x1024_1
            (Host.reduceAdd (F := Ideal) (φ := .f32) Q (constant (F := Ideal) S_ .f32 0x00000000#32)
              reducesTo_S65536x1024_S1024_d0 h_S_))))
      transposes_S65536x1024_S1024x65536_1_0)
    H

def refL2n (SP : Vec Ideal S1024x128 .f32) : Vec Ideal S1024x128 .f32 :=
  Host.divf (F := Ideal) (φ := .f32) SP
    (broadcastInDim S1024x128 ![0, 1] bcast_S1024x1_S1024x128_0_1
      (maximumf (F := Ideal) (φ := .f32)
        (Host.sqrt (F := Ideal) (φ := .f32)
          (broadcastInDim S1024x1 ![0] bcast_S1024_S1024x1_0
            (Host.reduceAdd (F := Ideal) (φ := .f32) (mulf (F := Ideal) (φ := .f32) SP SP)
              (constant (F := Ideal) S_ .f32 0x00000000#32) reducesTo_S1024x128_S1024_d1 h_S_)))
        (broadcastInDim S1024x1 ![] bcast_S_S1024x1 (constant (F := Ideal) S_ .f32 0x2B8CBCCC#32))))

def refN (Q : Vec Ideal S65536x1024 .f32) (H : Vec Ideal S65536x128 .f32) : Vec Ideal S1024x128 .f32 :=
  refL2n (refSp Q H)

theorem refSp_apply (Q : Vec Ideal S65536x1024 .f32) (H : Vec Ideal S65536x128 .f32) (j : Fin 1024) (d : Fin 128) :
    refSp Q H (ix2 j d)
      = ∑ i : Fin 65536, Ideal.div (Q (ix2 i j)) (Ideal.ofBits .f32 0x00000000#32 + ∑ i' : Fin 65536, Q (ix2 i' j))
          * H (ix2 i d) := by
  unfold refSp
  rw [Cert.Dot.dotGeneral_plain_apply dot_S1024x65536_S65536x128_S1024x128_1_0_0_1_n_n rfl]
  refine Finset.sum_congr rfl fun i _ => congrArg (· * H (ix2 i d)) ?_
  rw [transpose_ix2_apply]
  exact div_colSum_apply bcast_S1x1024_S65536x1024_0_1 bcast_S1024_S1x1024_1 reducesTo_S65536x1024_S1024_d0 h_S_ Q Q _ i j

theorem refL2n_apply (SP : Vec Ideal S1024x128 .f32) (j : Fin 1024) (d : Fin 128) :
    refL2n SP (ix2 j d)
      = l2nAt (Ideal.ofBits .f32 0x00000000#32) (Ideal.ofBits .f32 0x2B8CBCCC#32) (fun d' => SP (ix2 j d')) d :=
  l2n_apply bcast_S1024x1_S1024x128_0_1 bcast_S1024_S1024x1_0 bcast_S_S1024x1 reducesTo_S1024x128_S1024_d1 h_S_ SP _ _ j d

end Reference

/-- The normalised pooled arrays agree: where a column sum is zero both rows are infinities and zeros, and both normalise to zero. -/
theorem refN_eq_kerN (Q : Vec Ideal Cert.ReferenceIdeal.S65536x1024 .f32) (H : Vec Ideal Cert.ReferenceIdeal.S65536x128 .f32)
    (hQ : ∀ j, ∃ r : ℝ, Q j = (r : EReal)) (hH : ∀ j, ∃ r : ℝ, H j = (r : EReal)) :
    refN Q H = kerN (fun j => ∑ i : Fin 65536, Q (ix2 i (j 0)) * H (ix2 i (j 1))) (fun j => ∑ i : Fin 65536, Q (ix2 i (j 1))) := by
  funext jd
  obtain ⟨j, d, rfl⟩ : ∃ (j : Fin 1024) (d : Fin 128), jd = ix2 j d := ⟨jd 0, jd 1, eq_ix2 jd⟩
  choose q hq using hQ
  choose h hh using hH
  unfold refN kerN
  rw [refL2n_apply, kerL2n_apply]
  simp only [refSp_apply, kerSp_apply, Ideal.ofBits_zero_f32, zero_add]
  show l2nAt 0 _ (fun d' => ∑ i : Fin 65536, Ideal.div (Q (ix2 i j)) (∑ i' : Fin 65536, Q (ix2 i' j)) * H (ix2 i d')) d
    = l2nAt 0 _ (fun d' => Ideal.div (∑ i : Fin 65536, Q (ix2 i j) * H (ix2 i d')) (∑ i : Fin 65536, Q (ix2 i j))) d
  have hc : ∑ i : Fin 65536, Q (ix2 i j) = ((∑ i : Fin 65536, q (ix2 i j) : ℝ) : EReal) := by
    rw [coe_sum]; exact Finset.sum_congr rfl fun i _ => hq _
  rw [hc]
  by_cases h0 : ∑ i : Fin 65536, q (ix2 i j) = 0
  · rw [h0, EReal.coe_zero]
    rw [l2nAt_tri eps_pos _ (fun d' => Tri.sum _ _ fun i _ => by
        rw [hh]; exact tri_inf_mul_coe (div_zero_inf _) _) d,
      l2nAt_tri eps_pos _ (fun d' => by
        rcases div_zero_inf (∑ i : Fin 65536, Q (ix2 i j) * H (ix2 i d')) with e | e
        · exact Or.inl e
        · exact Or.inr (Or.inl e)) d]
  · refine congrArg (fun row => l2nAt 0 _ row d) (funext fun d' => ?_)
    simp only [hq, hh]
    exact pooled_eq _ _ h0

end Cert.NormLaw

end
-- ==== Proof.NormSpec.lean ====
import proofs.«179512_j35983236006070_1_alg».proof.Proof.NormLaw
import proofs.«179512_j35983236006070_1_alg».proof.Proof.RSsaBase
import proofs.«179512_j35983236006070_1_alg».proof.Proof.KSsaBase

noncomputable section

open Idealize.ShloMosaic Idealize.ShloMosaic.TcCoe Idealize.SL.Sem Idealize.ShloMosaic.StableHlo

namespace Cert.NormLaw

section Reference
open Cert.ReferenceIdeal Cert.ReferenceIdeal.RRun Cert.ReferenceIdeal.RSsa

theorem refN_spec (V : Valuation Cert.ReferenceIdeal.τ Cert.ReferenceIdeal.sig (Elt Ideal)) :
    (StableHlo.after (Cert.ReferenceIdeal.RRun.ops (F := Ideal)) V (Proc.devRef .tc Cert.ReferenceIdeal.main_v27)
        : Vec Ideal Cert.ReferenceIdeal.S1024x128 .f32)
      = refN (StableHlo.after (ops (F := Ideal)) V (Proc.devRef .tc main_arg1))
          (StableHlo.after (ops (F := Ideal)) V (Proc.devRef .tc main_v16)) := by
  rw [Ssa.ssa_binary hW V 58 rfl, Ssa.ssa_unary hW V 57 rfl, Ssa.ssa_binary hW V 56 rfl, Ssa.ssa_unary hW V 55 rfl,
    Ssa.ssa_nullary hW V 54 rfl, Ssa.ssa_unary hW V 53 rfl, Ssa.ssa_unary hW V 52 rfl, Ssa.ssa_binary hW V 51 rfl,
    Ssa.ssa_nullary hW V 50 rfl, Ssa.ssa_binary hW V 49 rfl, Ssa.ssa_binary hW V 48 rfl, Ssa.ssa_unary hW V 47 rfl,
    Ssa.ssa_binary hW V 46 rfl, Ssa.ssa_unary hW V 45 rfl, Ssa.ssa_unary hW V 44 rfl, Ssa.ssa_binary hW V 43 rfl,
    Ssa.ssa_nullary hW V 42 rfl]
  rfl

end Reference

section Kernel
open Cert.KernelIdeal Cert.KernelIdeal.KSsa

theorem kerN_spec (V : Valuation Cert.KernelIdeal.τ Cert.KernelIdeal.sig (Elt Ideal)) :
    (StableHlo.after (Cert.KernelIdeal.KSsa.chain (F := Ideal)) V (Proc.devRef .tc Cert.KernelIdeal.main_v19)
        : Vec Ideal Cert.KernelIdeal.S1024x128 .f32)
      = kerN (StableHlo.after (chain (F := Ideal)) V (Proc.devRef .tc main_v11_1))
          (StableHlo.after (chain (F := Ideal)) V (Proc.devRef .tc main_v11_2)) := by
  rw [Ssa.ssa_binary hChain V 12 rfl, Ssa.ssa_unary hChain V 11 rfl, Ssa.ssa_binary hChain V 10 rfl,
    Ssa.ssa_unary hChain V 9 rfl, Ssa.ssa_nullary hChain V 8 rfl, Ssa.ssa_unary hChain V 7 rfl,
    Ssa.ssa_unary hChain V 6 rfl, Ssa.ssa_binary hChain V 5 rfl, Ssa.ssa_nullary hChain V 4 rfl,
    Ssa.ssa_binary hChain V 3 rfl, Ssa.ssa_binary hChain V 2 rfl, Ssa.ssa_unary hChain V 1 rfl,
    Ssa.ssa_reshape hChain V 0 rfl]
  rfl

end Kernel

end Cert.NormLaw

end
-- ==== Proof.RTail.lean ====
import proofs.«179512_j35983236006070_1_alg».proof.Proof.Gen.ReferenceIdeal
import proofs.«179512_j35983236006070_1_alg».proof.Proof.Reg2
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.RTail

open Cert.ReferenceIdeal Cert.ReferenceIdeal.Gen
open Cert.KernelIdeal.Reg2 (negInf rowMax rowSm lift_row)

section Rows
variable {n : Nat}

theorem hostRowMax_apply (L : FVec Ideal ⟨2, ![n, 16]⟩ .f32) (h' : (⟨2, ![n, 16]⟩ : Shape).ReducesTo [1] ⟨1, ![n]⟩)
    (h : (⟨2, ![n, 16]⟩ : Shape).Reduces [1] ⟨1, ![n]⟩) (hu : 0 < (⟨0, ![]⟩ : Shape).numel) (p : Fin n) :
    Host.reduce FloatOps.maximumf L (constant (F := Ideal) (⟨0, ![]⟩ : Shape) .f32 0xFF800000#32) h' hu (ix1 p)
      = (Finset.univ : Finset (Fin 16)).fold max negInf (fun e => L (ix2 p e)) := by
  rw [Host.reduce_eq_fold_single FloatOps.maximumf L _ h' h hu]
  have hf : (L ∘ h.lift (ix1 p)) = fun e : Fin 16 => L (ix2 p e) := funext fun k => congrArg L (lift_row h p k)
  exact congrArg (fun f => Finset.fold max negInf f (Finset.univ : Finset (Fin 16))) hf

theorem hostRowSum_apply (E : FVec Ideal ⟨2, ![n, 16]⟩ .f32) (h' : (⟨2, ![n, 16]⟩ : Shape).ReducesTo [1] ⟨1, ![n]⟩)
    (h : (⟨2, ![n, 16]⟩ : Shape).Reduces [1] ⟨1, ![n]⟩) (hu : 0 < (⟨0, ![]⟩ : Shape).numel) (p : Fin n) :
    Host.reduceAdd E (constant (F := Ideal) (⟨0, ![]⟩ : Shape) .f32 0x00000000#32) h' hu (ix1 p) = ∑ e : Fin 16, E (ix2 p e) := by
  unfold Host.reduceAdd
  rw [Ideal.hostReduceAdd_def, Ideal.hostReduceAdd_single h' h]
  show Ideal.ofBits .f32 0x00000000#32 + _ = _
  rw [Ideal.ofBits_zero_f32, zero_add]
  exact Finset.sum_congr rfl fun k _ => congrArg E (lift_row h p k)

theorem hostColBroadcast_apply {α : Type} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, 16]⟩ ![0, 1]) (p : Fin n) (q : Fin 16) :
    broadcastInDim ⟨2, ![n, 16]⟩ ![0, 1] h2 (broadcastInDim ⟨2, ![n, 1]⟩ ![0] h1 v) (ix2 p q) = v (ix1 p) := by
  refine (broadcastInDim_apply _ h2 _ (ix2 p q) (ix2 p (0 : Fin 1)) fun a => ?_).trans
    (broadcastInDim_apply _ h1 v (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

theorem hostBias_apply {α : Type} (b : (⟨1, ![16]⟩ : Shape).Idx → α)
    (h1 : (⟨1, ![16]⟩ : Shape).BroadcastsInDim ⟨2, ![1, 16]⟩ ![1])
    (h2 : (⟨2, ![1, 16]⟩ : Shape).BroadcastsInDim ⟨2, ![n, 16]⟩ ![0, 1]) (p : Fin n) (q : Fin 16) :
    broadcastInDim ⟨2, ![n, 16]⟩ ![0, 1] h2 (broadcastInDim ⟨2, ![1, 16]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => rfl
  · match a with
    | ⟨0, _⟩ => rfl

theorem hostSoftmax_apply (L : FVec Ideal ⟨2, ![n, 16]⟩ .f32) (h' : (⟨2, ![n, 16]⟩ : Shape).ReducesTo [1] ⟨1, ![n]⟩)
    (h : (⟨2, ![n, 16]⟩ : Shape).Reduces [1] ⟨1, ![n]⟩) (hu : 0 < (⟨0, ![]⟩ : Shape).numel)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, 16]⟩ ![0, 1]) (p : Fin n) (q : Fin 16) :
    Host.divf
        (Host.exp (subf L (broadcastInDim ⟨2, ![n, 16]⟩ ![0, 1] h2 (broadcastInDim ⟨2, ![n, 1]⟩ ![0] h1
          (maximumf (broadcastInDim ⟨1, ![n]⟩ ![] h0 (constant (F := Ideal) (⟨0, ![]⟩ : Shape) .f32 0xFF800000#32))
            (Host.reduce FloatOps.maximumf L (constant (F := Ideal) (⟨0, ![]⟩ : Shape) .f32 0xFF800000#32) h' hu))))))
        (broadcastInDim ⟨2, ![n, 16]⟩ ![0, 1] h2 (broadcastInDim ⟨2, ![n, 1]⟩ ![0] h1
          (Host.reduceAdd (Host.exp (subf L (broadcastInDim ⟨2, ![n, 16]⟩ ![0, 1] h2 (broadcastInDim ⟨2, ![n, 1]⟩ ![0] h1
            (maximumf (broadcastInDim ⟨1, ![n]⟩ ![] h0 (constant (F := Ideal) (⟨0, ![]⟩ : Shape) .f32 0xFF800000#32))
              (Host.reduce FloatOps.maximumf L (constant (F := Ideal) (⟨0, ![]⟩ : Shape) .f32 0xFF800000#32) h' hu))))))
            (constant (F := Ideal) (⟨0, ![]⟩ : Shape) .f32 0x00000000#32) h' hu)))
        (ix2 p q)
      = rowSm (fun e => L (ix2 p e)) q := by
  have hmx : ∀ e : Fin 16, (broadcastInDim ⟨2, ![n, 16]⟩ ![0, 1] h2 (broadcastInDim ⟨2, ![n, 1]⟩ ![0] h1
          (maximumf (broadcastInDim ⟨1, ![n]⟩ ![] h0 (constant (F := Ideal) (⟨0, ![]⟩ : Shape) .f32 0xFF800000#32))
            (Host.reduce FloatOps.maximumf L (constant (F := Ideal) (⟨0, ![]⟩ : Shape) .f32 0xFF800000#32) h' hu)))) (ix2 p e)
        = rowMax (fun e => L (ix2 p e)) := fun e => by
    rw [hostColBroadcast_apply, maximumf_apply, hostRowMax_apply L h' h hu]
    rfl
  show Ideal.div (Ideal.exp (L (ix2 p q) - _)) _ = _
  rw [hmx q, hostColBroadcast_apply, hostRowSum_apply _ h' h hu]
  unfold rowSm
  refine congrArg (Ideal.div _) (Finset.sum_congr rfl fun e _ => ?_)
  show Ideal.exp (L (ix2 p e) - _) = _
  rw [hmx e]

end Rows

section Term
variable {F : FTy → Type} [FloatOps F]

def refLogitsAt (Q : Vec F S65536x1024 .f32) (H1 : Vec F S1024x128 .f32) (M : Vec F S65536x128 .f32)
    (OW : Vec F S128x16 .f32) (ob : Vec F S16 .f32) : Vec F S65536x16 .f32 :=
  addf (Host.dotGeneral dot_S65536x128_S128x16_S65536x16_1_0_0_1_n_n none
      (addf M (Host.dotGeneral dot_S65536x1024_S1024x128_S65536x128_1_0_0_1_n_n none Q H1)) OW)
    (broadcastInDim S65536x16 ![0, 1] bcast_S1x16_S65536x16_0_1 (broadcastInDim S1x16 ![1] bcast_S16_S1x16_1 ob))

/-- Each row's maximum, taken from −∞ and compared with −∞ once more, along the row. -/
def refRowMaxAt (L : Vec F S65536x16 .f32) : Vec F S65536x16 .f32 :=
  broadcastInDim S65536x16 ![0, 1] bcast_S65536x1_S65536x16_0_1 (broadcastInDim S65536x1 ![0] bcast_S65536_S65536x1_0
    (maximumf (broadcastInDim S65536 ![] bcast_S_S65536 (constant (F := F) S_ .f32 0xFF800000#32))
      (Host.reduce FloatOps.maximumf L (constant (F := F) S_ .f32 0xFF800000#32) reducesTo_S65536x16_S65536_d1 h_S_)))

def refSoftmaxAt (L : Vec F S65536x16 .f32) : Vec F S65536x16 .f32 :=
  Host.divf (Host.exp (subf L (refRowMaxAt L)))
    (broadcastInDim S65536x16 ![0, 1] bcast_S65536x1_S65536x16_0_1 (broadcastInDim S65536x1 ![0] bcast_S65536_S65536x1_0
      (Host.reduceAdd (Host.exp (subf L (refRowMaxAt L))) (constant (F := F) S_ .f32 0x00000000#32) reducesTo_S65536x16_S65536_d1 h_S_)))

def refTailAt (Q : Vec F S65536x1024 .f32) (H1 : Vec F S1024x128 .f32) (M : Vec F S65536x128 .f32)
    (OW : Vec F S128x16 .f32) (ob : Vec F S16 .f32) : Vec F S65536x16 .f32 :=
  refSoftmaxAt (refLogitsAt Q H1 M OW ob)

end Term

def refTail (Q : Vec Ideal S65536x1024 .f32) (H1 : Vec Ideal S1024x128 .f32) (M : Vec Ideal S65536x128 .f32)
    (OW : Vec Ideal S128x16 .f32) (ob : Vec Ideal S16 .f32) : Vec Ideal S65536x16 .f32 :=
  refTailAt (F := Ideal) Q H1 M OW ob

theorem refLogits_apply (Q : FVec Ideal S65536x1024 .f32) (H1 : FVec Ideal S1024x128 .f32) (M : FVec Ideal S65536x128 .f32)
    (OW : FVec Ideal S128x16 .f32) (ob : FVec Ideal S16 .f32) (r : Fin 65536) (e : Fin 16) :
    refLogitsAt (F := Ideal) Q H1 M OW ob (ix2 r e)
      = Cert.KernelIdeal.Reg2.logitsF Q H1 M OW (fun j => ob (ix1 (j 1))) (ix2 r e) := by
  unfold refLogitsAt
  rw [addf_apply, Cert.Dot.dotGeneral_plain_apply dot_S65536x128_S128x16_S65536x16_1_0_0_1_n_n rfl, hostBias_apply]
  show _ = (∑ k : Fin 128, ((∑ s : Fin 1024, Q (ix2 r s) * H1 (ix2 s k)) + M (ix2 r k)) * OW (ix2 k e)) + ob (ix1 e)
  refine congrArg (· + ob (ix1 e)) (Finset.sum_congr rfl fun k _ => ?_)
  rw [addf_apply, Cert.Dot.dotGeneral_plain_apply dot_S65536x1024_S1024x128_S65536x128_1_0_0_1_n_n rfl, add_comm]

/-- The reference's last operations are the row softmax of the same logits as the third kernel call. -/
theorem refTail_eq (Q : Vec Ideal S65536x1024 .f32) (H1 : Vec Ideal S1024x128 .f32) (M : Vec Ideal S65536x128 .f32)
    (OW : Vec Ideal S128x16 .f32) (ob : Vec Ideal S16 .f32) :
    refTail Q H1 M OW ob
      = Cert.KernelIdeal.Reg2.smF (Cert.KernelIdeal.Reg2.logitsF Q H1 M OW (fun j => ob (ix1 (j 1)))) := by
  funext j
  obtain ⟨r, q, rfl⟩ : ∃ (r : Fin 65536) (q : Fin 16), j = ix2 r q := ⟨j 0, j 1, eq_ix2 j⟩
  unfold refTail refTailAt refSoftmaxAt refRowMaxAt
  refine (hostSoftmax_apply _ reducesTo_S65536x16_S65536_d1 (by decide) h_S_ bcast_S_S65536 bcast_S65536_S65536x1_0
    bcast_S65536x1_S65536x16_0_1 r q).trans ?_
  show rowSm _ q = rowSm (fun e => Cert.KernelIdeal.Reg2.logitsF Q H1 M OW (fun j => ob (ix1 (j 1))) (ix2 r e)) q
  exact congrArg (fun f => rowSm f q) (funext fun e => refLogits_apply Q H1 M OW ob r e)

end Cert.ReferenceIdeal.RTail

end
-- ==== Proof.TailSpec.lean ====
import proofs.«179512_j35983236006070_1_alg».proof.Proof.RTail
import proofs.«179512_j35983236006070_1_alg».proof.Proof.RSsaBase

noncomputable section

open Idealize.ShloMosaic Idealize.ShloMosaic.TcCoe Idealize.SL.Sem Idealize.ShloMosaic.StableHlo

namespace Cert.ReferenceIdeal.RTail

open Cert.ReferenceIdeal Cert.ReferenceIdeal.Gen Cert.ReferenceIdeal.RRun

variable (V : Valuation τ sig (Elt Ideal))

theorem refLogits_spec : (StableHlo.after (ops (F := Ideal)) V (Proc.devRef .tc main_v230) : Vec Ideal S65536x16 .f32)
    = refLogitsAt (F := Ideal) (StableHlo.after (ops (F := Ideal)) V (Proc.devRef .tc main_arg1)) (StableHlo.after (ops (F := Ideal)) V (Proc.devRef .tc main_v78)) (StableHlo.after (ops (F := Ideal)) V (Proc.devRef .tc main_v225))
        (StableHlo.after (ops (F := Ideal)) V (Proc.devRef .tc main_arg14)) (StableHlo.after (ops (F := Ideal)) V (Proc.devRef .tc main_arg15)) := by
  rw [Ssa.ssa_binary RSsa.hW V 408 rfl, Ssa.ssa_unary RSsa.hW V 407 rfl, Ssa.ssa_unary RSsa.hW V 406 rfl,
    Ssa.ssa_binary RSsa.hW V 405 rfl, Ssa.ssa_binary RSsa.hW V 404 rfl, Ssa.ssa_binary RSsa.hW V 169 rfl]
  rfl

theorem refRowMax_spec : (StableHlo.after (ops (F := Ideal)) V (Proc.devRef .tc main_v235) : Vec Ideal S65536x16 .f32) = refRowMaxAt (F := Ideal) (StableHlo.after (ops (F := Ideal)) V (Proc.devRef .tc main_v230)) := by
  rw [Ssa.ssa_unary RSsa.hW V 415 rfl, Ssa.ssa_unary RSsa.hW V 414 rfl, Ssa.ssa_binary RSsa.hW V 413 rfl,
    Ssa.ssa_unary RSsa.hW V 412 rfl, Ssa.ssa_nullary RSsa.hW V 411 rfl, Ssa.ssa_binary RSsa.hW V 410 rfl,
    Ssa.ssa_nullary RSsa.hW V 409 rfl]
  rfl

theorem refTail_spec : (StableHlo.after (ops (F := Ideal)) V (Proc.devRef .tc main_v241) : Vec Ideal S65536x16 .f32)
    = refTail (StableHlo.after (ops (F := Ideal)) V (Proc.devRef .tc main_arg1)) (StableHlo.after (ops (F := Ideal)) V (Proc.devRef .tc main_v78)) (StableHlo.after (ops (F := Ideal)) V (Proc.devRef .tc main_v225))
        (StableHlo.after (ops (F := Ideal)) V (Proc.devRef .tc main_arg14)) (StableHlo.after (ops (F := Ideal)) V (Proc.devRef .tc main_arg15)) := by
  rw [Ssa.ssa_binary RSsa.hW V 422 rfl, Ssa.ssa_unary RSsa.hW V 421 rfl, Ssa.ssa_unary RSsa.hW V 420 rfl,
    Ssa.ssa_binary RSsa.hW V 419 rfl, Ssa.ssa_nullary RSsa.hW V 418 rfl, Ssa.ssa_unary RSsa.hW V 417 rfl,
    Ssa.ssa_binary RSsa.hW V 416 rfl, refRowMax_spec V, refLogits_spec V]
  rfl

end Cert.ReferenceIdeal.RTail

end
-- ==== Proof.Finite.lean ====
import proofs.«179512_j35983236006070_1_alg».proof.Defs
import proofs.«179512_j35983236006070_1_alg».proof.Proof.Gen.Pre_finite_inputs
import Idealize.ShloMosaic.Lib.ReduceAll
import Idealize.ShloMosaic.Lib.ValueIdx
import Idealize.ShloMosaic.PureOps.Ideal

noncomputable section

open Idealize.ShloMosaic Idealize.SL.Sem Idealize.ShloMosaic.ValueIdx

namespace Cert.Finite

instance subsingleton_scalar_idx : Subsingleton (⟨0, ![]⟩ : Shape).Idx :=
  ⟨fun _ _ => funext fun d => d.elim0⟩

theorem inf_bits : Ideal.ofBits .f32 0x7F800000#32 = (⊤ : EReal) := by
  simp [Ideal.ofBits, Ideal.ieee]

/-- Over the extended reals |x| < +∞ holds exactly at the real numbers. -/
theorem real_of_abs_lt_inf (x : Ideal .f32)
    (h : FloatOps.cmpf (F := Ideal) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [inf_bits] at h
  induction x using EReal.rec with
  | bot => simp [Ideal.cmp] at h
  | coe r => exact ⟨r, rfl⟩
  | top => simp [Ideal.cmp] at h

theorem real_of_all {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel) (x : FVec Ideal s .f32)
    (h : Host.reduce IntOp.andi
          (cmpf .olt (Host.absf x) (broadcastInDim s ![] hb (constant (F := Ideal) ⟨0, ![]⟩ .f32 0x7F800000#32)))
          (constantI ⟨0, ![]⟩ 1 1#1) hr hu ix0 = 1#1) :
    ∀ j, ∃ r : ℝ, x j = (r : EReal) := fun j =>
  real_of_abs_lt_inf (x j) (Host.reduce_andi_all _ _ hr hu ix0 h j)

variable [hPre : Cert.Pre_finite_inputs.Facts]

open Cert.Pre_finite_inputs in
theorem real_of_fn
    (a0 : FVec Ideal S65536x200 .f32) (a1 : FVec Ideal S65536x1024 .f32) (a2 : FVec Ideal S1024x1024 .f32)
    (a3 : IVec S2x524288 32) (a4 : FVec Ideal S200x128 .f32) (a5 : FVec Ideal S128 .f32)
    (a6 : FVec Ideal S128x128 .f32) (a7 : FVec Ideal S128 .f32) (a8 : FVec Ideal S128x128 .f32)
    (a9 : FVec Ideal S128 .f32) (a10 : FVec Ideal S128x128 .f32) (a11 : FVec Ideal S128 .f32)
    (a12 : FVec Ideal S128x128 .f32) (a13 : FVec Ideal S128 .f32) (a14 : FVec Ideal S128x16 .f32)
    (a15 : FVec Ideal S16 .f32)
    (h : fn (F := Ideal) a0 a1 a2 a3 a4 a5 a6 a7 a8 a9 a10 a11 a12 a13 a14 a15 = fun _ => 1#1) :
    (∀ j, ∃ r : ℝ, a0 j = (r : EReal)) ∧ (∀ j, ∃ r : ℝ, a1 j = (r : EReal))
      ∧ (∀ j, ∃ r : ℝ, a4 j = (r : EReal)) ∧ (∀ j, ∃ r : ℝ, a5 j = (r : EReal)) := by
  have h0 := congrFun h ix0
  dsimp only [fn, fn_part1, fn_part2, fn_part3, fn_part4, Idealize.ShloMosaic.andi] at h0
  simp only [IntOp.andi_eq_one] at h0
  obtain ⟨⟨⟨⟨⟨⟨⟨⟨⟨⟨⟨⟨⟨⟨h3, h7⟩, -⟩, h17⟩, h22⟩, -⟩, -⟩, -⟩, -⟩, -⟩, -⟩, -⟩, -⟩, -⟩, -⟩ := h0
  exact ⟨real_of_all _ _ _ a0 h3, real_of_all _ _ _ a1 h7, real_of_all _ _ _ a4 h17, real_of_all _ _ _ a5 h22⟩

theorem real_arg0 (m : (ℓ : Loc Cert.KernelIdeal.nD Cert.KernelIdeal.τ Cert.KernelIdeal.sig) → Buf (Elt Ideal) ℓ)
    (h : Cert.Pre_KernelIdeal m) (c : Dev Cert.KernelIdeal.nD) :
    ∀ j : Cert.KernelIdeal.S65536x200.Idx, ∃ r : ℝ, (m ((c.tc : Thread Cert.KernelIdeal.nD Cert.KernelIdeal.τ).loc Cert.KernelIdeal.main_arg0) :
      Vec Ideal Cert.KernelIdeal.S65536x200 .f32) j = (r : EReal) :=
  (real_of_fn _ _ _ _ _ _ _ _ _ _ _ _ _ _ _ _ (h c)).1

theorem real_arg1 (m : (ℓ : Loc Cert.KernelIdeal.nD Cert.KernelIdeal.τ Cert.KernelIdeal.sig) → Buf (Elt Ideal) ℓ)
    (h : Cert.Pre_KernelIdeal m) (c : Dev Cert.KernelIdeal.nD) :
    ∀ j : Cert.KernelIdeal.S65536x1024.Idx, ∃ r : ℝ, (m ((c.tc : Thread Cert.KernelIdeal.nD Cert.KernelIdeal.τ).loc Cert.KernelIdeal.main_arg1) :
      Vec Ideal Cert.KernelIdeal.S65536x1024 .f32) j = (r : EReal) :=
  (real_of_fn _ _ _ _ _ _ _ _ _ _ _ _ _ _ _ _ (h c)).2.1

theorem real_arg4 (m : (ℓ : Loc Cert.KernelIdeal.nD Cert.KernelIdeal.τ Cert.KernelIdeal.sig) → Buf (Elt Ideal) ℓ)
    (h : Cert.Pre_KernelIdeal m) (c : Dev Cert.KernelIdeal.nD) :
    ∀ j : Cert.KernelIdeal.S200x128.Idx, ∃ r : ℝ, (m ((c.tc : Thread Cert.KernelIdeal.nD Cert.KernelIdeal.τ).loc Cert.KernelIdeal.main_arg4) :
      Vec Ideal Cert.KernelIdeal.S200x128 .f32) j = (r : EReal) :=
  (real_of_fn _ _ _ _ _ _ _ _ _ _ _ _ _ _ _ _ (h c)).2.2.1

theorem real_arg5 (m : (ℓ : Loc Cert.KernelIdeal.nD Cert.KernelIdeal.τ Cert.KernelIdeal.sig) → Buf (Elt Ideal) ℓ)
    (h : Cert.Pre_KernelIdeal m) (c : Dev Cert.KernelIdeal.nD) :
    ∀ j : Cert.KernelIdeal.S128.Idx, ∃ r : ℝ, (m ((c.tc : Thread Cert.KernelIdeal.nD Cert.KernelIdeal.τ).loc Cert.KernelIdeal.main_arg5) :
      Vec Ideal Cert.KernelIdeal.S128 .f32) j = (r : EReal) :=
  (real_of_fn _ _ _ _ _ _ _ _ _ _ _ _ _ _ _ _ (h c)).2.2.2

end Cert.Finite
-- ==== Proof.Bridge.lean ====
import proofs.«179512_j35983236006070_1_alg».proof.Proof.BrK
import proofs.«179512_j35983236006070_1_alg».proof.Proof.BrR
import proofs.«179512_j35983236006070_1_alg».proof.Proof.Pairs
import proofs.«179512_j35983236006070_1_alg».proof.Proof.VarSpec
import proofs.«179512_j35983236006070_1_alg».proof.Proof.NormSpec
import proofs.«179512_j35983236006070_1_alg».proof.Proof.TailSpec
import proofs.«179512_j35983236006070_1_alg».proof.Proof.Finite
import Idealize.ShloMosaic.Lib.ValueLayout

noncomputable section

namespace Cert.Bridge

open Idealize.ShloMosaic Idealize.ShloMosaic.TcCoe Idealize.SL.Sem
open Idealize.ShloMosaic.ValueIdx

theorem row128_apply (b : Vec Ideal Cert.KernelIdeal.S128 .f32) (j : Cert.KernelIdeal.S1x128.Idx) : Cert.KernelIdeal.BrK.row128 b j = b (ix1 (j 1)) :=
  (congrArg (Cert.KernelIdeal.BrK.row128 b) (eq_ix2 j)).trans (ValueIdx.shapeCast_a_1a_apply b Cert.KernelIdeal.Gen.shapeCasts_S128_S1x128 (j 0) (j 1))

theorem row16_apply (b : Vec Ideal Cert.KernelIdeal.S16 .f32) (j : Cert.KernelIdeal.S1x16.Idx) : Cert.KernelIdeal.BrK.row16 b j = b (ix1 (j 1)) :=
  (congrArg (Cert.KernelIdeal.BrK.row16 b) (eq_ix2 j)).trans (ValueIdx.shapeCast_a_1a_apply b Cert.KernelIdeal.Gen.shapeCasts_S16_S1x16 (j 0) (j 1))

variable [hPre : Cert.Pre_finite_inputs.Facts]
variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ) (c : Dev Cert.KernelIdeal.nD)

theorem KC_of (b : Ref Cert.KernelIdeal.sig .tc) (hb : b ∉ Cert.KernelIdeal.KSsa.chainW := by decide) :
    StableHlo.after (Cert.KernelIdeal.KSsa.chain (F := Ideal)) (Cert.KernelIdeal.Gen.W4 m ρ c) (Proc.devRef .tc b) = Cert.KernelIdeal.Gen.W4 m ρ c (Proc.devRef .tc b) :=
  StableHlo.Ssa.after_arg (Cert.KernelIdeal.KSsa.chain (F := Ideal)) Cert.KernelIdeal.KSsa.chainW Cert.KernelIdeal.KSsa.hChain (Cert.KernelIdeal.Gen.W4 m ρ c) b hb

section
variable (hpre : Cert.Pre_KernelIdeal m)
    (ha0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (ha1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (ha2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (ha3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (ha4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (ha5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (ha6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (ha7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (ha8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (ha9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (ha10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (ha11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (ha12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (ha13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (ha14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (ha15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
include hpre ha0 ha1 ha2 ha3 ha4 ha5 ha6 ha7 ha8 ha9 ha10 ha11 ha12 ha13 ha14 ha15

/-- The linear layer's output is one array in the two programs. -/
theorem xw_eq : ((Cert.KernelIdeal.Gen.W2 m ρ c (Proc.devRef .tc Cert.KernelIdeal.main_v1_0)) : Vec Ideal Cert.KernelIdeal.S65536x128 .f32)
    = (StableHlo.after (Cert.ReferenceIdeal.RRun.ops (F := Ideal)) (StableHlo.launchContents m' c) (Proc.devRef .tc Cert.ReferenceIdeal.main_v3)) := by
  rw [Cert.KernelIdeal.BrK.xw_val m ρ c, Cert.ReferenceIdeal.BrR.xw_val m' c, ha0, ha4, ha5]
  funext j
  exact congrArg (fun t => _ + t) (row128_apply _ _)

theorem xw_real : ∀ j, ∃ r : ℝ, ((Cert.KernelIdeal.Gen.W2 m ρ c (Proc.devRef .tc Cert.KernelIdeal.main_v1_0)) : Vec Ideal Cert.KernelIdeal.S65536x128 .f32) j = (r : EReal) := by
  rw [Cert.KernelIdeal.BrK.xw_val m ρ c]
  refine Cert.KernelIdeal.Reg0.xwF_real _ _ _ (Cert.Finite.real_arg0 m hpre c) (Cert.Finite.real_arg4 m hpre c) ?_
  intro j
  obtain ⟨r, hr⟩ := Cert.Finite.real_arg5 m hpre c (ix1 (j 1))
  exact ⟨r, (row128_apply _ j).trans hr⟩

theorem mean_val : ((Cert.KernelIdeal.Gen.W3 m ρ c (Proc.devRef .tc Cert.KernelIdeal.main_v3)) : Vec Ideal Cert.KernelIdeal.S1x128 .f32) = Cert.VarLaw.kmean (Cert.KernelIdeal.BrK.colSum (Cert.KernelIdeal.Gen.W2 m ρ c (Proc.devRef .tc Cert.KernelIdeal.main_v1_0))) := by
  refine (Cert.VarLaw.kmean_spec (Cert.KernelIdeal.Gen.W2 m ρ c)).trans ?_
  rw [StableHlo.Ssa.after_arg (Cert.KernelIdeal.Gen.hostOps1 (F := Ideal)) Cert.KernelIdeal.KSsa.host1W Cert.KernelIdeal.KSsa.hHost1 (Cert.KernelIdeal.Gen.W2 m ρ c) Cert.KernelIdeal.main_v1_1 (by decide), Cert.KernelIdeal.BrK.s_val m ρ c]

theorem invstd_val : ((Cert.KernelIdeal.Gen.W3 m ρ c (Proc.devRef .tc Cert.KernelIdeal.main_v10)) : Vec Ideal Cert.KernelIdeal.S1x128 .f32)
    = Cert.VarLaw.kinv (Cert.KernelIdeal.BrK.colSum (Cert.KernelIdeal.Gen.W2 m ρ c (Proc.devRef .tc Cert.KernelIdeal.main_v1_0))) (Cert.KernelIdeal.BrK.colSumSq (Cert.KernelIdeal.Gen.W2 m ρ c (Proc.devRef .tc Cert.KernelIdeal.main_v1_0))) := by
  refine (Cert.VarLaw.kinv_spec (Cert.KernelIdeal.Gen.W2 m ρ c)).trans ?_
  rw [StableHlo.Ssa.after_arg (Cert.KernelIdeal.Gen.hostOps1 (F := Ideal)) Cert.KernelIdeal.KSsa.host1W Cert.KernelIdeal.KSsa.hHost1 (Cert.KernelIdeal.Gen.W2 m ρ c) Cert.KernelIdeal.main_v1_1 (by decide), StableHlo.Ssa.after_arg (Cert.KernelIdeal.Gen.hostOps1 (F := Ideal)) Cert.KernelIdeal.KSsa.host1W Cert.KernelIdeal.KSsa.hHost1 (Cert.KernelIdeal.Gen.W2 m ρ c) Cert.KernelIdeal.main_v1_2 (by decide), Cert.KernelIdeal.BrK.s_val m ρ c, Cert.KernelIdeal.BrK.ss_val m ρ c]

/-- The batch-normalised features are one array in the two programs, the inputs being finite. -/
theorem h_eq : ((Cert.KernelIdeal.Gen.W4 m ρ c (Proc.devRef .tc Cert.KernelIdeal.main_v11_0)) : Vec Ideal Cert.KernelIdeal.S65536x128 .f32)
    = (StableHlo.after (Cert.ReferenceIdeal.RRun.ops (F := Ideal)) (StableHlo.launchContents m' c) (Proc.devRef .tc Cert.ReferenceIdeal.main_v16)) := by
  have hxr := xw_real m ρ m' c hpre ha0 ha1 ha2 ha3 ha4 ha5 ha6 ha7 ha8 ha9 ha10 ha11 ha12 ha13 ha14 ha15
  rw [Cert.KernelIdeal.BrK.h_val m ρ c, mean_val m ρ m' c hpre ha0 ha1 ha2 ha3 ha4 ha5 ha6 ha7 ha8 ha9 ha10 ha11 ha12 ha13 ha14 ha15, invstd_val m ρ m' c hpre ha0 ha1 ha2 ha3 ha4 ha5 ha6 ha7 ha8 ha9 ha10 ha11 ha12 ha13 ha14 ha15,
    Cert.VarLaw.refH_spec (StableHlo.launchContents m' c), ← xw_eq m ρ m' c hpre ha0 ha1 ha2 ha3 ha4 ha5 ha6 ha7 ha8 ha9 ha10 ha11 ha12 ha13 ha14 ha15, Cert.VarLaw.refH_eq_kerH _ hxr]
  rfl

theorem h_real : ∀ j, ∃ r : ℝ, ((Cert.KernelIdeal.Gen.W4 m ρ c (Proc.devRef .tc Cert.KernelIdeal.main_v11_0)) : Vec Ideal Cert.KernelIdeal.S65536x128 .f32) j = (r : EReal) := by
  have hxr := xw_real m ρ m' c hpre ha0 ha1 ha2 ha3 ha4 ha5 ha6 ha7 ha8 ha9 ha10 ha11 ha12 ha13 ha14 ha15
  rw [h_eq m ρ m' c hpre ha0 ha1 ha2 ha3 ha4 ha5 ha6 ha7 ha8 ha9 ha10 ha11 ha12 ha13 ha14 ha15, Cert.VarLaw.refH_spec (StableHlo.launchContents m' c), ← xw_eq m ρ m' c hpre ha0 ha1 ha2 ha3 ha4 ha5 ha6 ha7 ha8 ha9 ha10 ha11 ha12 ha13 ha14 ha15, Cert.VarLaw.refH_eq_kerH _ hxr]
  exact Cert.VarLaw.kerH_real _ hxr

/-- The row-normalised pooled features are one array in the two programs. -/
theorem l2n_eq : ((StableHlo.after (Cert.KernelIdeal.KSsa.chain (F := Ideal)) (Cert.KernelIdeal.Gen.W4 m ρ c) (Proc.devRef .tc Cert.KernelIdeal.main_v19)) : Vec Ideal Cert.KernelIdeal.S1024x128 .f32)
    = (StableHlo.after (Cert.ReferenceIdeal.RRun.ops (F := Ideal)) (StableHlo.launchContents m' c) (Proc.devRef .tc Cert.ReferenceIdeal.main_v27)) := by
  have hQ : ∀ j, ∃ r : ℝ, ((StableHlo.after (Cert.ReferenceIdeal.RRun.ops (F := Ideal)) (StableHlo.launchContents m' c) (Proc.devRef .tc Cert.ReferenceIdeal.main_arg1)) : Vec Ideal Cert.ReferenceIdeal.S65536x1024 .f32) j = (r : EReal) := by
    rw [Cert.ReferenceIdeal.BrR.arg_of m' c Cert.ReferenceIdeal.main_arg1, ha1]; exact Cert.Finite.real_arg1 m hpre c
  have hH : ∀ j, ∃ r : ℝ, ((StableHlo.after (Cert.ReferenceIdeal.RRun.ops (F := Ideal)) (StableHlo.launchContents m' c) (Proc.devRef .tc Cert.ReferenceIdeal.main_v16)) : Vec Ideal Cert.ReferenceIdeal.S65536x128 .f32) j = (r : EReal) := by
    rw [← h_eq m ρ m' c hpre ha0 ha1 ha2 ha3 ha4 ha5 ha6 ha7 ha8 ha9 ha10 ha11 ha12 ha13 ha14 ha15]
    exact h_real m ρ m' c hpre ha0 ha1 ha2 ha3 ha4 ha5 ha6 ha7 ha8 ha9 ha10 ha11 ha12 ha13 ha14 ha15
  rw [Cert.NormLaw.kerN_spec (Cert.KernelIdeal.Gen.W4 m ρ c), Cert.NormLaw.refN_spec (StableHlo.launchContents m' c), Cert.NormLaw.refN_eq_kerN _ _ hQ hH,
    KC_of m ρ c Cert.KernelIdeal.main_v11_1, KC_of m ρ c Cert.KernelIdeal.main_v11_2,
    Cert.KernelIdeal.BrK.qh_val m ρ c, Cert.KernelIdeal.BrK.colsum_val m ρ c,
    ← h_eq m ρ m' c hpre ha0 ha1 ha2 ha3 ha4 ha5 ha6 ha7 ha8 ha9 ha10 ha11 ha12 ha13 ha14 ha15,
    Cert.ReferenceIdeal.BrR.arg_of m' c Cert.ReferenceIdeal.main_arg1, ha1]
  rfl

/-- The two programs end with the same result array: the shared layers map equal arrays to equal arrays. -/
theorem result_eq : (Cert.KernelIdeal.Gen.W28 m ρ c (Proc.devRef .tc Cert.KernelIdeal.main_v218) : Vec Ideal Cert.KernelIdeal.S65536x16 .f32)
    = (StableHlo.after (Cert.ReferenceIdeal.RRun.ops (F := Ideal)) (StableHlo.launchContents m' c) (Proc.devRef .tc Cert.ReferenceIdeal.main_v241)) := by
  have H : Cert.Pairs.Same (Cert.KernelIdeal.Gen.W4 m ρ c) (StableHlo.launchContents m' c) :=
    ⟨l2n_eq m ρ m' c hpre ha0 ha1 ha2 ha3 ha4 ha5 ha6 ha7 ha8 ha9 ha10 ha11 ha12 ha13 ha14 ha15,
      (KC_of m ρ c Cert.KernelIdeal.main_v11_0).trans (h_eq m ρ m' c hpre ha0 ha1 ha2 ha3 ha4 ha5 ha6 ha7 ha8 ha9 ha10 ha11 ha12 ha13 ha14 ha15),
      ((KC_of m ρ c Cert.KernelIdeal.main_arg1).trans (Cert.KernelIdeal.BrK.W4_arg1 m ρ c)).trans ((Cert.ReferenceIdeal.BrR.arg_of m' c Cert.ReferenceIdeal.main_arg1).trans ha1).symm,
      ((KC_of m ρ c Cert.KernelIdeal.main_arg2).trans (Cert.KernelIdeal.BrK.W4_of m ρ c Cert.KernelIdeal.main_arg2)).trans ((Cert.ReferenceIdeal.BrR.arg_of m' c Cert.ReferenceIdeal.main_arg2).trans ha2).symm,
      ((KC_of m ρ c Cert.KernelIdeal.main_arg3).trans (Cert.KernelIdeal.BrK.W4_of m ρ c Cert.KernelIdeal.main_arg3)).trans ((Cert.ReferenceIdeal.BrR.arg_of m' c Cert.ReferenceIdeal.main_arg3).trans ha3).symm,
      ((KC_of m ρ c Cert.KernelIdeal.main_arg6).trans (Cert.KernelIdeal.BrK.W4_of m ρ c Cert.KernelIdeal.main_arg6)).trans ((Cert.ReferenceIdeal.BrR.arg_of m' c Cert.ReferenceIdeal.main_arg6).trans ha6).symm,
      ((KC_of m ρ c Cert.KernelIdeal.main_arg7).trans (Cert.KernelIdeal.BrK.W4_of m ρ c Cert.KernelIdeal.main_arg7)).trans ((Cert.ReferenceIdeal.BrR.arg_of m' c Cert.ReferenceIdeal.main_arg7).trans ha7).symm,
      ((KC_of m ρ c Cert.KernelIdeal.main_arg8).trans (Cert.KernelIdeal.BrK.W4_of m ρ c Cert.KernelIdeal.main_arg8)).trans ((Cert.ReferenceIdeal.BrR.arg_of m' c Cert.ReferenceIdeal.main_arg8).trans ha8).symm,
      ((KC_of m ρ c Cert.KernelIdeal.main_arg9).trans (Cert.KernelIdeal.BrK.W4_of m ρ c Cert.KernelIdeal.main_arg9)).trans ((Cert.ReferenceIdeal.BrR.arg_of m' c Cert.ReferenceIdeal.main_arg9).trans ha9).symm,
      ((KC_of m ρ c Cert.KernelIdeal.main_arg10).trans (Cert.KernelIdeal.BrK.W4_of m ρ c Cert.KernelIdeal.main_arg10)).trans ((Cert.ReferenceIdeal.BrR.arg_of m' c Cert.ReferenceIdeal.main_arg10).trans ha10).symm,
      ((KC_of m ρ c Cert.KernelIdeal.main_arg11).trans (Cert.KernelIdeal.BrK.W4_of m ρ c Cert.KernelIdeal.main_arg11)).trans ((Cert.ReferenceIdeal.BrR.arg_of m' c Cert.ReferenceIdeal.main_arg11).trans ha11).symm,
      ((KC_of m ρ c Cert.KernelIdeal.main_arg12).trans (Cert.KernelIdeal.BrK.W4_of m ρ c Cert.KernelIdeal.main_arg12)).trans ((Cert.ReferenceIdeal.BrR.arg_of m' c Cert.ReferenceIdeal.main_arg12).trans ha12).symm,
      ((KC_of m ρ c Cert.KernelIdeal.main_arg13).trans (Cert.KernelIdeal.BrK.W4_of m ρ c Cert.KernelIdeal.main_arg13)).trans ((Cert.ReferenceIdeal.BrR.arg_of m' c Cert.ReferenceIdeal.main_arg13).trans ha13).symm,
      ((KC_of m ρ c Cert.KernelIdeal.main_arg14).trans (Cert.KernelIdeal.BrK.W4_of m ρ c Cert.KernelIdeal.main_arg14)).trans ((Cert.ReferenceIdeal.BrR.arg_of m' c Cert.ReferenceIdeal.main_arg14).trans ha14).symm,
      ((KC_of m ρ c Cert.KernelIdeal.main_arg15).trans (Cert.KernelIdeal.BrK.W4_of m ρ c Cert.KernelIdeal.main_arg15)).trans ((Cert.ReferenceIdeal.BrR.arg_of m' c Cert.ReferenceIdeal.main_arg15).trans ha15).symm⟩
  have hH1 := Cert.Pairs.p_main_v70 H
  have hM := Cert.Pairs.p_main_v216 H
  have er : Cert.KernelIdeal.BrK.row16 (m ((c.tc : Thread Cert.KernelIdeal.nD Cert.KernelIdeal.τ).loc Cert.KernelIdeal.main_arg15)) = fun j => ((m ((c.tc : Thread Cert.KernelIdeal.nD Cert.KernelIdeal.τ).loc Cert.KernelIdeal.main_arg15)) : Vec Ideal Cert.KernelIdeal.S16 .f32) (ix1 (j 1)) := funext fun j => row16_apply _ j
  rw [Cert.KernelIdeal.BrK.result_val m ρ c, Cert.ReferenceIdeal.RTail.refTail_spec (StableHlo.launchContents m' c), Cert.ReferenceIdeal.RTail.refTail_eq,
    Cert.ReferenceIdeal.BrR.arg_of m' c Cert.ReferenceIdeal.main_arg1, Cert.ReferenceIdeal.BrR.arg_of m' c Cert.ReferenceIdeal.main_arg14, Cert.ReferenceIdeal.BrR.arg_of m' c Cert.ReferenceIdeal.main_arg15,
    ha1, ha14, ha15, ← hH1, ← hM, er]

end

end Cert.Bridge

end
-- ==== Proof.lean ====
import proofs.«179512_j35983236006070_1_alg».proof.Defs
import proofs.«179512_j35983236006070_1_alg».proof.Proof.Gen.Kernel
import proofs.«179512_j35983236006070_1_alg».proof.Proof.Gen.Kernel.Skeleton
import proofs.«179512_j35983236006070_1_alg».proof.Proof.Gen.Kernel.Launch
import proofs.«179512_j35983236006070_1_alg».proof.Proof.Gen.Kernel.Points
import proofs.«179512_j35983236006070_1_alg».proof.Proof.Gen.Kernel.Frame
import proofs.«179512_j35983236006070_1_alg».proof.Proof.Gen.KernelIdeal
import proofs.«179512_j35983236006070_1_alg».proof.Proof.Gen.KernelIdeal.Skeleton
import proofs.«179512_j35983236006070_1_alg».proof.Proof.Gen.KernelIdeal.Launch
import proofs.«179512_j35983236006070_1_alg».proof.Proof.Gen.KernelIdeal.Points
import proofs.«179512_j35983236006070_1_alg».proof.Proof.Gen.KernelIdeal.Frame
import proofs.«179512_j35983236006070_1_alg».proof.Proof.Gen.ReferenceIdeal
import proofs.«179512_j35983236006070_1_alg».proof.Proof.Gen.Pre_finite_inputs
import proofs.«179512_j35983236006070_1_alg».proof.Proof.KRun
import proofs.«179512_j35983236006070_1_alg».proof.Proof.RRun
import proofs.«179512_j35983236006070_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c => by
    have k := fun b hb => (h c b).trans (Cert.ReferenceIdeal.BrR.arg_of m c b hb)
    exact ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩)
    (Cert.ReferenceIdeal.RRun.run_main (F := Ideal) m ρ)

theorem algebraic : Cert.algebraic_KernelIdeal_ReferenceIdeal := by
  intro m ρ m' ρ' hpre hagree
  refine ⟨fun c => Cert.KernelIdeal.Gen.W28 m ρ c (Proc.devRef .tc Cert.KernelIdeal.main_v218), Cert.KernelIdeal.Gen.KRun.run (F := Ideal) m ρ, ?_⟩
  refine (θ_run Cert.ReferenceIdeal.defs _ _).mono (fun r h c => ?_) (Cert.ReferenceIdeal.RRun.run_main (F := Ideal) m' ρ')
  have k := fun b hb => (h c b).trans (Cert.ReferenceIdeal.BrR.arg_of m' c b hb)
  obtain ⟨a0, a1, a2, a3, a4, a5, a6, a7, a8, a9, a10, a11, a12, a13, a14, a15⟩ := hagree c
  exact ⟨(h c Cert.ReferenceIdeal.main_v241).trans (Cert.Bridge.result_eq m ρ m' c hpre a0 a1 a2 a3 a4 a5 a6 a7 a8 a9 a10 a11 a12 a13 a14 a15).symm,
    k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
